-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S128x768 : Shape := ⟨2, ![128, 768]⟩
abbrev S64x128 : Shape := ⟨2, ![64, 128]⟩
abbrev S128 : Shape := ⟨1, ![128]⟩
abbrev S3x128x128 : Shape := ⟨3, ![3, 128, 128]⟩
abbrev S128x384 : Shape := ⟨2, ![128, 384]⟩
abbrev S384 : Shape := ⟨1, ![384]⟩
abbrev S768x128 : Shape := ⟨2, ![768, 128]⟩
abbrev S256 : Shape := ⟨1, ![256]⟩
abbrev S256x128 : Shape := ⟨2, ![256, 128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x768 : S_.BroadcastsInDim S128x768 (![] : Fin 0 → Fin S128x768.rank)
  reducesTo_S128x768_S_d0_1 : S128x768.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S768x128 : S_.BroadcastsInDim S768x128 (![] : Fin 0 → Fin S768x128.rank)
  reducesTo_S768x128_S_d0_1 : S768x128.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_v93 : IVec S_ 1) (main_v102 : IVec S1600000 1) (main_c_38 : IVec S_ 1) : IVec S_ 1 :=
  let main_v103 : IVec S_ 1 := (fun x v => Host.reduce IntOp.andi x v reducesTo_S1600000_S_d0 h_S_) main_v102 main_c_38
  let main_v104 : IVec S_ 1 := andi main_v93 main_v103
  main_v104

def fn_part5 {F : FTy → Type} [FloatOps F] (main_arg18 : FVec F S1 .f32) (main_arg19 : IVec S2x1600000 32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : IVec S1x1600000 32 := (extractStridedSlice S1x1600000 ![0, 0] · slices_S2x1600000_S1x1600000_0_0) main_arg19
  let main_v95 : IVec S1600000 32 := shapeCast S1600000 main_v94 shapeCasts_S1x1600000_S1600000
  let main_c_36 : IVec S_ 32 := constantI S_ 32 4294867296#32
  let main_v96 : IVec S1600000 32 := broadcastInDim S1600000 ![] bcast_S_S1600000 main_c_36
  let main_v97 : IVec S1600000 1 := cmpi .sge main_v95 main_v96
  let main_v98 : IVec S1x1600000 32 := (extractStridedSlice S1x1600000 ![0, 0] · slices_S2x1600000_S1x1600000_0_0) main_arg19
  let main_v99 : IVec S1600000 32 := shapeCast S1600000 main_v98 shapeCasts_S1x1600000_S1600000
  let main_c_37 : IVec S_ 32 := constantI S_ 32 100000#32
  let main_v100 : IVec S1600000 32 := broadcastInDim S1600000 ![] bcast_S_S1600000 main_c_37
  let main_v101 : IVec S1600000 1 := cmpi .slt main_v99 main_v100
  let main_v102 : IVec S1600000 1 := andi main_v97 main_v101
  let main_c_38 : IVec S_ 1 := constantI S_ 1 1#1
  fn_part6 (F := F) main_v93 main_v102 main_c_38

def fn_part4 {F : FTy → Type} [FloatOps F] (main_arg14 : FVec F S128 .f32) (main_arg15 : FVec F S128x32 .f32) (main_arg16 : FVec F S32 .f32) (main_arg17 : FVec F S128x1 .f32) (main_arg18 : FVec F S1 .f32) (main_arg19 : IVec S2x1600000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x32 .f32 := Host.absf main_arg15
  let main_cst_28 : FVec F S_ .f32 := constant S_ .f32 0x7F800000#32
  let main_v75 : FVec F S128x32 .f32 := broadcastInDim S128x32 ![] bcast_S_S128x32 main_cst_28
  let main_v76 : IVec S128x32 1 := cmpf .olt main_v74 main_v75
  let main_c_29 : IVec S_ 1 := constantI S_ 1 1#1
  let main_v77 : IVec S_ 1 := (fun x v => Host.reduce IntOp.andi x v reducesTo_S128x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S128x1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S256 .f32) (main_arg12 : FVec F S256 .f32) (main_arg13 : FVec F S256x128 .f32) (main_arg14 : FVec F S128 .f32) (main_arg15 : FVec F S128x32 .f32) (main_arg16 : FVec F S32 .f32) (main_arg17 : FVec F S128x1 .f32) (main_arg18 : FVec F S1 .f32) (main_arg19 : IVec S2x1600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_arg19 main_v63 main_v67

def fn_part2 {F : FTy → Type} [FloatOps F] (main_arg7 : FVec F S128x384 .f32) (main_arg8 : FVec F S384 .f32) (main_arg9 : FVec F S768x128 .f32) (main_arg10 : FVec F S128 .f32) (main_arg11 : FVec F S256 .f32) (main_arg12 : FVec F S256 .f32) (main_arg13 : FVec F S256x128 .f32) (main_arg14 : FVec F S128 .f32) (main_arg15 : FVec F S128x32 .f32) (main_arg16 : FVec F S32 .f32) (main_arg17 : FVec F S128x1 .f32) (main_arg18 : FVec F S1 .f32) (main_arg19 : IVec S2x1600000 32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S768x128 .f32 := Host.absf main_arg9
  let main_cst_16 : FVec F S_ .f32 := constant S_ .f32 0x7F800000#32
  let main_v45 : FVec F S768x128 .f32 := broadcastInDim S768x128 ![] bcast_S_S768x128 main_cst_16
  let main_v46 : IVec S768x128 1 := cmpf .olt main_v44 main_v45
  let main_c_17 : IVec S_ 1 := constantI S_ 1 1#1
  let main_v47 : IVec S_ 1 := (fun x v => Host.reduce IntOp.andi x v reducesTo_S768x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S3x128x128 .f32) (main_arg5 : FVec F S128x384 .f32) (main_arg6 : FVec F S384 .f32) (main_arg7 : FVec F S128x384 .f32) (main_arg8 : FVec F S384 .f32) (main_arg9 : FVec F S768x128 .f32) (main_arg10 : FVec F S128 .f32) (main_arg11 : FVec F S256 .f32) (main_arg12 : FVec F S256 .f32) (main_arg13 : FVec F S256x128 .f32) (main_arg14 : FVec F S128 .f32) (main_arg15 : FVec F S128x32 .f32) (main_arg16 : FVec F S32 .f32) (main_arg17 : FVec F S128x1 .f32) (main_arg18 : FVec F S1 .f32) (main_arg19 : IVec S2x1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128x384 .f32 := Host.absf main_arg5
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S100000x64 .f32) (main_arg1 : FVec F S128x768 .f32) (main_arg2 : FVec F S64x128 .f32) (main_arg3 : FVec F S128 .f32) (main_arg4 : FVec F S3x128x128 .f32) (main_arg5 : FVec F S128x384 .f32) (main_arg6 : FVec F S384 .f32) (main_arg7 : FVec F S128x384 .f32) (main_arg8 : FVec F S384 .f32) (main_arg9 : FVec F S768x128 .f32) (main_arg10 : FVec F S128 .f32) (main_arg11 : FVec F S256 .f32) (main_arg12 : FVec F S256 .f32) (main_arg13 : FVec F S256x128 .f32) (main_arg14 : FVec F S128 .f32) (main_arg15 : FVec F S128x32 .f32) (main_arg16 : FVec F S32 .f32) (main_arg17 : FVec F S128x1 .f32) (main_arg18 : FVec F S1 .f32) (main_arg19 : IVec S2x1600000 32) (main_arg20 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S128x768 : Shape := ⟨2, ![128, 768]⟩
abbrev S64x128 : Shape := ⟨2, ![64, 128]⟩
abbrev S128 : Shape := ⟨1, ![128]⟩
abbrev S3x128x128 : Shape := ⟨3, ![3, 128, 128]⟩
abbrev S128x384 : Shape := ⟨2, ![128, 384]⟩
abbrev S384 : Shape := ⟨1, ![384]⟩
abbrev S768x128 : Shape := ⟨2, ![768, 128]⟩
abbrev S256 : Shape := ⟨1, ![256]⟩
abbrev S256x128 : Shape := ⟨2, ![256, 128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S_ : Shape := ⟨0, ![]⟩
abbrev S1x128x128 : Shape := ⟨3, ![1, 128, 128]⟩
abbrev S128x128 : Shape := ⟨2, ![128, 128]⟩
abbrev S1600000x1 : Shape := ⟨2, ![1600000, 1]⟩
abbrev S1x1 : Shape := ⟨2, ![1, 1]⟩
abbrev S1600000x128 : Shape := ⟨2, ![1600000, 128]⟩
abbrev S1x384 : Shape := ⟨2, ![1, 384]⟩
abbrev S1000x128 : Shape := ⟨2, ![1000, 128]⟩
abbrev S1000x384 : Shape := ⟨2, ![1000, 384]⟩
abbrev S100000x1 : Shape := ⟨2, ![100000, 1]⟩
abbrev S5000x128 : Shape := ⟨2, ![5000, 128]⟩
abbrev S5000x1 : Shape := ⟨2, ![5000, 1]⟩
abbrev S1x256 : Shape := ⟨2, ![1, 256]⟩
abbrev S1x32 : Shape := ⟨2, ![1, 32]⟩
abbrev S128x256 : Shape := ⟨2, ![128, 256]⟩

abbrev nBuf : Space → Nat
  | .hbm => 143
  | .vmem => 75
  | .smem => 0
  | _ => 0

abbrev hbmTy0_0 (i : Nat) : BufTy := match i % 128 with
  | 0 => ⟨S100000x64, .f32⟩
  | 1 => ⟨S128x768, .f32⟩
  | 2 => ⟨S64x128, .f32⟩
  | 3 => ⟨S128, .f32⟩
  | 4 => ⟨S3x128x128, .f32⟩
  | 5 => ⟨S128x384, .f32⟩
  | 6 => ⟨S384, .f32⟩
  | 7 => ⟨S128x384, .f32⟩
  | 8 => ⟨S384, .f32⟩
  | 9 => ⟨S768x128, .f32⟩
  | 10 => ⟨S128, .f32⟩
  | 11 => ⟨S256, .f32⟩
  | 12 => ⟨S256, .f32⟩
  | 13 => ⟨S256x128, .f32⟩
  | 14 => ⟨S128, .f32⟩
  | 15 => ⟨S128x32, .f32⟩
  | 16 => ⟨S32, .f32⟩
  | 17 => ⟨S128x1, .f32⟩
  | 18 => ⟨S1, .f32⟩
  | 19 => ⟨S2x1600000, .i32⟩
  | 20 => ⟨S100000, .i32⟩
  | 21 => ⟨S1x1600000, .i32⟩
  | 22 => ⟨S1600000, .i32⟩
  | 23 => ⟨S1x1600000, .i32⟩
  | 24 => ⟨S1600000, .i32⟩
  | 25 => ⟨S1x128, .f32⟩
  | 26 => ⟨S100000x128, .f32⟩
  | 27 => ⟨S_, .f32⟩
  | 28 => ⟨S128, .f32⟩
  | 29 => ⟨S1x128x128, .f32⟩
  | 30 => ⟨S128x128, .f32⟩
  | 31 => ⟨S1x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1, .i32⟩
  | 42 => ⟨S_, .i32⟩
  | 43 => ⟨S1600000x1, .i32⟩
  | 44 => ⟨S1600000x1, .i1⟩
  | 45 => ⟨S1x1, .i32⟩
  | 46 => ⟨S1600000x1, .i32⟩
  | 47 => ⟨S1600000x1, .i1⟩
  | 48 => ⟨S1600000x1, .i1⟩
  | 49 => ⟨S_, .i1⟩
  | 50 => ⟨S1600000, .i1⟩
  | 51 => ⟨S1600000x128, .f32⟩
  | 52 => ⟨S1600000x128, .i1⟩
  | 53 => ⟨S_, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S1x384, .f32⟩
  | 61 => ⟨S1x384, .f32⟩
  | 62 => ⟨S100000x128, .f32⟩
  | 63 => ⟨S1x128x128, .f32⟩
  | 64 => ⟨S128x128, .f32⟩
  | 65 => ⟨S1x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1, .i32⟩
  | 76 => ⟨S_, .i32⟩
  | 77 => ⟨S1600000x1, .i32⟩
  | 78 => ⟨S1600000x1, .i1⟩
  | 79 => ⟨S1x1, .i32⟩
  | 80 => ⟨S1600000x1, .i32⟩
  | 81 => ⟨S1600000x1, .i1⟩
  | 82 => ⟨S1600000x1, .i1⟩
  | 83 => ⟨S_, .i1⟩
  | 84 => ⟨S1600000, .i1⟩
  | 85 => ⟨S1600000x128, .f32⟩
  | 86 => ⟨S1600000x128, .i1⟩
  | 87 => ⟨S_, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S1x384, .f32⟩
  | 95 => ⟨S1x384, .f32⟩
  | 96 => ⟨S100000x128, .f32⟩
  | 97 => ⟨S1x128x128, .f32⟩
  | 98 => ⟨S128x128, .f32⟩
  | 99 => ⟨S1x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1, .i32⟩
  | 110 => ⟨S_, .i32⟩
  | 111 => ⟨S1600000x1, .i32⟩
  | 112 => ⟨S1600000x1, .i1⟩
  | 113 => ⟨S1x1, .i32⟩
  | 114 => ⟨S1600000x1, .i32⟩
  | 115 => ⟨S1600000x1, .i1⟩
  | 116 => ⟨S1600000x1, .i1⟩
  | 117 => ⟨S_, .i1⟩
  | 118 => ⟨S1600000, .i1⟩
  | 119 => ⟨S1600000x128, .f32⟩
  | 120 => ⟨S1600000x128, .i1⟩
  | 121 => ⟨S_, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x64, .f32⟩

abbrev hbmTy0_1 (i : Nat) : BufTy := match i % 128 with
  | 0 => ⟨S1x384, .f32⟩
  | 1 => ⟨S1x384, .f32⟩
  | 2 => ⟨S100000x128, .f32⟩
  | 3 => ⟨S100000x1, .i32⟩
  | 4 => ⟨S128x128, .f32⟩
  | 5 => ⟨S1x128, .f32⟩
  | 6 => ⟨S128x1, .f32⟩
  | 7 => ⟨S1x128, .f32⟩
  | 8 => ⟨S1x256, .f32⟩
  | 9 => ⟨S1x256, .f32⟩
  | 10 => ⟨S1x128, .f32⟩
  | 11 => ⟨S1x32, .f32⟩
  | 12 => ⟨S1x1, .f32⟩
  | 13 => ⟨S128x32, .f32⟩
  | 14 => ⟨S128x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x384, .f32⟩
  | .local _ .vmem, ⟨17, _⟩ => ⟨S1x384, .f32⟩
  | .local _ .vmem, ⟨18, _⟩ => ⟨S128x384, .f32⟩
  | .local _ .vmem, ⟨19, _⟩ => ⟨S1x384, .f32⟩
  | .local _ .vmem, ⟨20, _⟩ => ⟨S1000x128, .f32⟩
  | .local _ .vmem, ⟨21, _⟩ => ⟨S1000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S128x384, .f32⟩
  | .local _ .vmem, ⟨33, _⟩ => ⟨S1x384, .f32⟩
  | .local _ .vmem, ⟨34, _⟩ => ⟨S128x384, .f32⟩
  | .local _ .vmem, ⟨35, _⟩ => ⟨S1x384, .f32⟩
  | .local _ .vmem, ⟨36, _⟩ => ⟨S1000x128, .f32⟩
  | .local _ .vmem, ⟨37, _⟩ => ⟨S1000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S128x384, .f32⟩
  | .local _ .vmem, ⟨49, _⟩ => ⟨S1x384, .f32⟩
  | .local _ .vmem, ⟨50, _⟩ => ⟨S128x384, .f32⟩
  | .local _ .vmem, ⟨51, _⟩ => ⟨S1x384, .f32⟩
  | .local _ .vmem, ⟨52, _⟩ => ⟨S1000x128, .f32⟩
  | .local _ .vmem, ⟨53, _⟩ => ⟨S1000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .i32⟩
  | .local _ .vmem, ⟨57, _⟩ => ⟨S5000x1, .i32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S128x1, .f32⟩
  | .local _ .vmem, ⟨62, _⟩ => ⟨S128x768, .f32⟩
  | .local _ .vmem, ⟨63, _⟩ => ⟨S768x128, .f32⟩
  | .local _ .vmem, ⟨64, _⟩ => ⟨S1x128, .f32⟩
  | .local _ .vmem, ⟨65, _⟩ => ⟨S1x256, .f32⟩
  | .local _ .vmem, ⟨66, _⟩ => ⟨S1x256, .f32⟩
  | .local _ .vmem, ⟨67, _⟩ => ⟨S256x128, .f32⟩
  | .local _ .vmem, ⟨68, _⟩ => ⟨S1x128, .f32⟩
  | .local _ .vmem, ⟨69, _⟩ => ⟨S128x32, .f32⟩
  | .local _ .vmem, ⟨70, _⟩ => ⟨S1x32, .f32⟩
  | .local _ .vmem, ⟨71, _⟩ => ⟨S128x1, .f32⟩
  | .local _ .vmem, ⟨72, _⟩ => ⟨S1x1, .f32⟩
  | .local _ .vmem, ⟨73, _⟩ => ⟨S128x32, .f32⟩
  | .local _ .vmem, ⟨74, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v11 : Ref sig .tc := ⟨.hbm, 55, rfl⟩
abbrev main_cst_0 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v22 : Ref sig .tc := ⟨.hbm, 89, rfl⟩
abbrev main_cst_1 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v33 : Ref sig .tc := ⟨.hbm, 123, rfl⟩
abbrev main_cst_2 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41_0 : Ref sig .tc := ⟨.hbm, 132, rfl⟩
abbrev main_v41_1 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49_0 : Ref sig .tc := ⟨.hbm, 141, rfl⟩
abbrev main_v49_1 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc8_stg0_0 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg5_0 : Ref sig .tc := ⟨.vmem, 65, rfl⟩
abbrev cc8_stg6_0 : Ref sig .tc := ⟨.vmem, 66, rfl⟩
abbrev cc8_stg7_0 : Ref sig .tc := ⟨.vmem, 67, rfl⟩
abbrev cc8_stg8_0 : Ref sig .tc := ⟨.vmem, 68, rfl⟩
abbrev cc8_stg9_0 : Ref sig .tc := ⟨.vmem, 69, rfl⟩
abbrev cc8_stg10_0 : Ref sig .tc := ⟨.vmem, 70, rfl⟩
abbrev cc8_stg11_0 : Ref sig .tc := ⟨.vmem, 71, rfl⟩
abbrev cc8_stg12_0 : Ref sig .tc := ⟨.vmem, 72, rfl⟩
abbrev cc8_stg13_0 : Ref sig .tc := ⟨.vmem, 73, rfl⟩
abbrev cc8_stg14_0 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc8_sem0_0 : DmaSem sig := 60
abbrev cc8_sem1_0 : DmaSem sig := 61
abbrev cc8_sem2_0 : DmaSem sig := 62
abbrev cc8_sem3_0 : DmaSem sig := 63
abbrev cc8_sem4_0 : DmaSem sig := 64
abbrev cc8_sem5_0 : DmaSem sig := 65
abbrev cc8_sem6_0 : DmaSem sig := 66
abbrev cc8_sem7_0 : DmaSem sig := 67
abbrev cc8_sem8_0 : DmaSem sig := 68
abbrev cc8_sem9_0 : DmaSem sig := 69
abbrev cc8_sem10_0 : DmaSem sig := 70
abbrev cc8_sem11_0 : DmaSem sig := 71
abbrev cc8_sem12_0 : DmaSem sig := 72
abbrev cc8_sem13_0 : DmaSem sig := 73
abbrev cc8_sem14_0 : DmaSem sig := 74

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128x768 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S768x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S256x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S128x32 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x32 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S128x1 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x1 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S128x32 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 1 → Memref sig .tc .vmem S128x1 .f32 := fun | 0 => Memref.whole cc8_stg14_0 | ⟨_ + 1, h⟩ => absurd h (Nat.not_lt.2 (Nat.le_add_left _ _))
abbrev sem8_14 : Fin 1 → DmaSem sig := fun | 0 => cc8_sem14_0 | ⟨_ + 1, h⟩ => absurd h (Nat.not_lt.2 (Nat.le_add_left _ _))
abbrev reads8_14 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S384_S1x384 : S384.ShapeCasts S1x384
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  slices_S3x128x128_S1x128x128_1_0_0 : S3x128x128.Slices ![1, 0, 0] S1x128x128
  slices_S3x128x128_S1x128x128_2_0_0 : S3x128x128.Slices ![2, 0, 0] S1x128x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  reduces_S5000x128_S128 : S5000x128.Reduces [0] S128
  transposes_S1x128_S128x1_1_0 : S1x128.Transposes [1, 0] S128x1
  shapeCasts_S256_S1x256 : S256.ShapeCasts S1x256
  shapeCasts_S32_S1x32 : S32.ShapeCasts S1x32
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x768_S128x768_0_0 : ∀ a, (![0, 0] : Fin 2 → Nat) a + S128x768.size a ≤ S128x768.size a
  h_S128x768 : 0 < S128x768.numel
  inb_S768x128_S768x128_0_0 : ∀ a, (![0, 0] : Fin 2 → Nat) a + S768x128.size a ≤ S768x128.size a
  h_S768x128 : 0 < S768x128.numel
  broadcasts_S1x128_S128x128 : S1x128.Broadcasts S128x128
  concatenates_S128x128_S128x128_S128x256_d1 : Shape.Concatenates [S128x128, S128x128] S128x256 1
  reduces_S128x256_S128 : S128x256.Reduces [1] S128
  shapeCasts_S128_S128x1 : S128.ShapeCasts S128x1
  broadcasts_S128x1_S128x256 : S128x1.Broadcasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x128_S256x128_0_0 : ∀ a, (![0, 0] : Fin 2 → Nat) a + S256x128.size a ≤ S256x128.size a
  h_S256x128 : 0 < S256x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x384_S1000x384_1_0_0_1_n_n_wf : DotDims.WF S1000x128 S128x384 S1000x384 [1] [0] [0] [1] [] []
  dot_S5000x128_S5000x128_S128x128_0_0_1_1_n_n_wf : DotDims.WF S5000x128 S5000x128 S128x128 [0] [0] [1] [1] [] []
  dot_S128x768_S768x128_S128x128_1_0_0_1_n_n_wf : DotDims.WF S128x768 S768x128 S128x128 [1] [0] [0] [1] [] []
  dot_S128x256_S256x128_S128x128_1_0_0_1_n_n_wf : DotDims.WF S128x256 S256x128 S128x128 [1] [0] [0] [1] [] []
  dot_S128x128_S128x32_S128x32_1_0_0_1_n_n_wf : DotDims.WF S128x128 S128x32 S128x32 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S100000x128.size a
  hwx2_1 : ∀ i : grid2.Coords, EltTy.bits .f32 = 32 ∨ (Rect.block (s := S100000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x384.size a ≤ S1x384.size a
  hwx2_3 : ∀ i : grid2.Coords, EltTy.bits .f32 = 32 ∨ (Rect.block (s := S1x384) S1x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .f32 = 32 ∨ (Rect.block (s := S128x384) S128x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S100000x128.size a
  hwx2_6 : ∀ i : grid2.Coords, EltTy.bits .f32 = 32 ∨ (Rect.block (s := S100000x128) S1000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S100000x128.size a
  hwx4_1 : ∀ i : grid4.Coords, EltTy.bits .f32 = 32 ∨ (Rect.block (s := S100000x128) S1000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x384.size a ≤ S128x384.size a
  hwx4_2 : ∀ i : grid4.Coords, EltTy.bits .f32 = 32 ∨ (Rect.block (s := S128x384) S128x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x384.size a ≤ S1x384.size a
  hwx4_3 : ∀ i : grid4.Coords, EltTy.bits .f32 = 32 ∨ (Rect.block (s := S1x384) S1x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x384.size a ≤ S128x384.size a
  hwx4_4 : ∀ i : grid4.Coords, EltTy.bits .f32 = 32 ∨ (Rect.block (s := S128x384) S128x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x128.size a ≤ S100000x128.size a
  hwx4_6 : ∀ i : grid4.Coords, EltTy.bits .f32 = 32 ∨ (Rect.block (s := S100000x128) S1000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S100000x128.size a
  hwx6_0 : ∀ i : grid6.Coords, EltTy.bits .f32 = 32 ∨ (Rect.block (s := S100000x128) S1000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x128.size a ≤ S100000x128.size a
  hwx6_1 : ∀ i : grid6.Coords, EltTy.bits .f32 = 32 ∨ (Rect.block (s := S100000x128) S1000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x384.size a ≤ S128x384.size a
  hwx6_2 : ∀ i : grid6.Coords, EltTy.bits .f32 = 32 ∨ (Rect.block (s := S128x384) S128x384.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x384.size a ≤ S1x384.size a
  hwx6_3 : ∀ i : grid6.Coords, EltTy.bits .f32 = 32 ∨ (Rect.block (s := S1x384) S1x384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x384.size a ≤ S128x384.size a
  hwx6_4 : ∀ i : grid6.Coords, EltTy.bits .f32 = 32 ∨ (Rect.block (s := S128x384) S128x384.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x384.size a ≤ S1x384.size a
  hwx6_5 : ∀ i : grid6.Coords, EltTy.bits .f32 = 32 ∨ (Rect.block (s := S1x384) S1x384.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x128.size a ≤ S100000x128.size a
  hwx6_6 : ∀ i : grid6.Coords, EltTy.bits .f32 = 32 ∨ (Rect.block (s := S100000x128) S1000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .i32 = 32 ∨ (Rect.block (s := S100000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x128.size a ≤ S128x128.size a
  hwx8_0 : ∀ i : grid8.Coords, EltTy.bits .f32 = 32 ∨ (Rect.block (s := S128x128) S128x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x1.size a ≤ S128x1.size a
  hwx8_1 : ∀ i : grid8.Coords, EltTy.bits .f32 = 32 ∨ (Rect.block (s := S128x1) S128x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x768.size a ≤ S128x768.size a
  hwx8_2 : ∀ i : grid8.Coords, EltTy.bits .f32 = 32 ∨ (Rect.block (s := S128x768) S128x768.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S768x128.size a ≤ S768x128.size a
  hwx8_3 : ∀ i : grid8.Coords, EltTy.bits .f32 = 32 ∨ (Rect.block (s := S768x128) S768x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x256.size a ≤ S1x256.size a
  hwx8_6 : ∀ i : grid8.Coords, EltTy.bits .f32 = 32 ∨ (Rect.block (s := S1x256) S1x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S256x128.size a ≤ S256x128.size a
  hwx8_7 : ∀ i : grid8.Coords, EltTy.bits .f32 = 32 ∨ (Rect.block (s := S256x128) S256x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S128x32.size a ≤ S128x32.size a
  hwx8_9 : ∀ i : grid8.Coords, EltTy.bits .f32 = 32 ∨ (Rect.block (s := S128x32) S128x32.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x32.size a ≤ S1x32.size a
  hwx8_10 : ∀ i : grid8.Coords, EltTy.bits .f32 = 32 ∨ (Rect.block (s := S1x32) S1x32.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S128x1.size a ≤ S128x1.size a
  hwx8_11 : ∀ i : grid8.Coords, EltTy.bits .f32 = 32 ∨ (Rect.block (s := S128x1) S128x1.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x1.size a ≤ S1x1.size a
  hwx8_12 : ∀ i : grid8.Coords, EltTy.bits .f32 = 32 ∨ (Rect.block (s := S1x1) S1x1.size (cc8_transform_12 i) (hinb8_12 i)).WholeWords (EltTy.packing .f32)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S128x32.size a ≤ S128x32.size a
  hwx8_13 : ∀ i : grid8.Coords, EltTy.bits .f32 = 32 ∨ (Rect.block (s := S128x32) S128x32.size (cc8_transform_13 i) (hinb8_13 i)).WholeWords (EltTy.packing .f32)
  hstage8_14 : ∀ j, (stage8_14 j).IsWhole
  nbuf8_14 : grid8.bufCount reads8_14 true = 1
  hreads8_14 : ∀ i i' : grid8.Coords, (∀ a, reads8_14 a = true → i a = i' a) → cc8_transform_14 i = cc8_transform_14 i'
  hinb8_14 : ∀ (i : grid8.Coords) a, (cc8_transform_14 i a + 1) * S128x1.size a ≤ S128x1.size a
  hwx8_14 : ∀ i : grid8.Coords, EltTy.bits .f32 = 32 ∨ (Rect.block (s := S128x1) S128x1.size (cc8_transform_14 i) (hinb8_14 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v17) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v25) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg7) S128x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v28) S1000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v28) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v31) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v36) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v28) S1000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg5) S128x384.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v37) S1x384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg7) S128x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v38) S1x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v39) S1000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v39) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v41_0) S128x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v41_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v41_0) S128x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v42) S128x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg1) S128x768.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg9) S768x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v43) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v44) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v45) S1x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg13) S256x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v46) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_arg15) S128x32.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v47) S1x32.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_arg17) S128x1.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v48) S1x1.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v49_0) S128x32.size cc8_transform_13 reads8_13 true true 1 stage8_13 sem8_13
    hrank8 hreads8_13 hinb8_13 nbuf8_13 (Memref.isWhole_whole _) hwx8_13 hstage8_13

abbrev win8_14 : Pipeline.Window sig grid8 :=
  Pipeline.Window.ofSpec (Memref.whole main_v49_1) S128x1.size cc8_transform_14 reads8_14 true true 1 stage8_14 sem8_14
    hrank8 hreads8_14 hinb8_14 nbuf8_14 (Memref.isWhole_whole _) hwx8_14 hstage8_14

abbrev win8 : Fin 15 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | ⟨_ + 15, h⟩ => absurd h (Nat.not_lt.2 (Nat.le_add_left _ _))
abbrev spec8 : Fin 15 → Pipeline.WinSpec sig grid8.rank := fun w => (win8 w).toWinSpec

class Facts : Prop extends Facts₀ where

variable [Facts]
-- ==== ReferenceIdeal.lean ====
abbrev S100000x64 : Shape := ⟨2, ![100000, 64]⟩
abbrev S128x768 : Shape := ⟨2, ![128, 768]⟩
abbrev S64x128 : Shape := ⟨2, ![64, 128]⟩
abbrev S128 : Shape := ⟨1, ![128]⟩
abbrev S3x128x128 : Shape := ⟨3, ![3, 128, 128]⟩
abbrev S128x384 : Shape := ⟨2, ![128, 384]⟩
abbrev S384 : Shape := ⟨1, ![384]⟩
abbrev S768x128 : Shape := ⟨2, ![768, 128]⟩
abbrev S256 : Shape := ⟨1, ![256]⟩
abbrev S256x128 : Shape := ⟨2, ![256, 128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S1600000x1 : Shape := ⟨2, ![1600000, 1]⟩
abbrev S1600000x128 : Shape := ⟨2, ![1600000, 128]⟩
abbrev S100000x384 : Shape := ⟨2, ![100000, 384]⟩
abbrev S1x384 : Shape := ⟨2, ![1, 384]⟩
abbrev S100000x1 : Shape := ⟨2, ![100000, 1]⟩
abbrev S128x256 : Shape := ⟨2, ![128, 256]⟩
abbrev S1x256 : Shape := ⟨2, ![1, 256]⟩
abbrev S1x32 : Shape := ⟨2, ![1, 32]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S100000x64, .f32⟩
  | 1 => ⟨S128x768, .f32⟩
  | 2 => ⟨S64x128, .f32⟩
  | 3 => ⟨S128, .f32⟩
  | 4 => ⟨S3x128x128, .f32⟩
  | 5 => ⟨S128x384, .f32⟩
  | 6 => ⟨S384, .f32⟩
  | 7 => ⟨S128x384, .f32⟩
  | 8 => ⟨S384, .f32⟩
  | 9 => ⟨S768x128, .f32⟩
  | 10 => ⟨S128, .f32⟩
  | 11 => ⟨S256, .f32⟩
  | 12 => ⟨S256, .f32⟩
  | 13 => ⟨S256x128, .f32⟩
  | 14 => ⟨S128, .f32⟩
  | 15 => ⟨S128x32, .f32⟩
  | 16 => ⟨S32, .f32⟩
  | 17 => ⟨S128x1, .f32⟩
  | 18 => ⟨S1, .f32⟩
  | 19 => ⟨S2x1600000, .i32⟩
  | 20 => ⟨S100000, .i32⟩
  | 21 => ⟨S1x1600000, .i32⟩
  | 22 => ⟨S1600000, .i32⟩
  | 23 => ⟨S1x1600000, .i32⟩
  | 24 => ⟨S1600000, .i32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x384, .f32⟩
  | 49 => ⟨S1x384, .f32⟩
  | 50 => ⟨S100000x384, .f32⟩
  | 51 => ⟨S100000x384, .f32⟩
  | 52 => ⟨S100000x384, .f32⟩
  | 53 => ⟨S1x384, .f32⟩
  | 54 => ⟨S100000x384, .f32⟩
  | 55 => ⟨S100000x384, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S1x128x128, .f32⟩
  | 90 => ⟨S128x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x384, .f32⟩
  | 106 => ⟨S1x384, .f32⟩
  | 107 => ⟨S100000x384, .f32⟩
  | 108 => ⟨S100000x384, .f32⟩
  | 109 => ⟨S100000x384, .f32⟩
  | 110 => ⟨S1x384, .f32⟩
  | 111 => ⟨S100000x384, .f32⟩
  | 112 => ⟨S100000x384, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S100000x128, .f32⟩
  | 17 => ⟨S100000x128, .f32⟩
  | 18 => ⟨S1x128x128, .f32⟩
  | 19 => ⟨S128x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x384, .f32⟩
  | 35 => ⟨S1x384, .f32⟩
  | 36 => ⟨S100000x384, .f32⟩
  | 37 => ⟨S100000x384, .f32⟩
  | 38 => ⟨S100000x384, .f32⟩
  | 39 => ⟨S1x384, .f32⟩
  | 40 => ⟨S100000x384, .f32⟩
  | 41 => ⟨S100000x384, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S100000x128, .f32⟩
  | 74 => ⟨S100000x128, .f32⟩
  | 75 => ⟨S_, .f32⟩
  | 76 => ⟨S128x128, .f32⟩
  | 77 => ⟨S100000x1, .i32⟩
  | 78 => ⟨S128x128, .f32⟩
  | 79 => ⟨S_, .f32⟩
  | 80 => ⟨S100000, .f32⟩
  | 81 => ⟨S_, .f32⟩
  | 82 => ⟨S128, .f32⟩
  | 83 => ⟨S100000x1, .i32⟩
  | 84 => ⟨S128, .f32⟩
  | 85 => ⟨S_, .f32⟩
  | 86 => ⟨S128, .f32⟩
  | 87 => ⟨S128, .f32⟩
  | 88 => ⟨S128x1, .f32⟩
  | 89 => ⟨S128x128, .f32⟩
  | 90 => ⟨S128x128, .f32⟩
  | 91 => ⟨S128x128, .f32⟩
  | 92 => ⟨S1x128, .f32⟩
  | 93 => ⟨S128x128, .f32⟩
  | 94 => ⟨S128x128, .f32⟩
  | 95 => ⟨S_, .f32⟩
  | 96 => ⟨S128x128, .f32⟩
  | 97 => ⟨S128x128, .f32⟩
  | 98 => ⟨S128x256, .f32⟩
  | 99 => ⟨S_, .f32⟩
  | 100 => ⟨S128, .f32⟩
  | 101 => ⟨S128x1, .f32⟩
  | 102 => ⟨S_, .f32⟩
  | 103 => ⟨S128x1, .f32⟩
  | 104 => ⟨S128x1, .f32⟩
  | 105 => ⟨S128x256, .f32⟩
  | 106 => ⟨S128x256, .f32⟩
  | 107 => ⟨S128x256, .f32⟩
  | 108 => ⟨S_, .f32⟩
  | 109 => ⟨S128, .f32⟩
  | 110 => ⟨S128x1, .f32⟩
  | 111 => ⟨S_, .f32⟩
  | 112 => ⟨S128x1, .f32⟩
  | 113 => ⟨S128x1, .f32⟩
  | 114 => ⟨S128x256, .f32⟩
  | 115 => ⟨S128x256, .f32⟩
  | 116 => ⟨S_, .f32⟩
  | 117 => ⟨S128x1, .f32⟩
  | 118 => ⟨S128x1, .f32⟩
  | 119 => ⟨S128x1, .f32⟩
  | 120 => ⟨S128x256, .f32⟩
  | 121 => ⟨S128x256, .f32⟩
  | 122 => ⟨S1x256, .f32⟩
  | 123 => ⟨S128x256, .f32⟩
  | 124 => ⟨S128x256, .f32⟩
  | 125 => ⟨S1x256, .f32⟩
  | 126 => ⟨S128x256, .f32⟩
  | 127 => ⟨S128x256, .f32⟩
  | _ => ⟨S100000x64, .f32⟩

abbrev hbmTy0_2 (i : Nat) : BufTy := match i % 128 with
  | 0 => ⟨S128x128, .f32⟩
  | 1 => ⟨S1x128, .f32⟩
  | 2 => ⟨S128x128, .f32⟩
  | 3 => ⟨S128x128, .f32⟩
  | 4 => ⟨S_, .f32⟩
  | 5 => ⟨S128x128, .f32⟩
  | 6 => ⟨S128x128, .f32⟩
  | 7 => ⟨S128x32, .f32⟩
  | 8 => ⟨S1x32, .f32⟩
  | 9 => ⟨S128x32, .f32⟩
  | 10 => ⟨S128x32, .f32⟩
  | 11 => ⟨S128x1, .f32⟩
  | 12 => ⟨S1x1, .f32⟩
  | 13 => ⟨S128x1, .f32⟩
  | 14 => ⟨S128x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_cst : Ref sig .tc := ⟨.hbm, 29, rfl⟩
abbrev main_call0_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_1 : Ref sig .tc := ⟨.hbm, 65, rfl⟩
abbrev main_v39 : Ref sig .tc := ⟨.hbm, 66, rfl⟩
abbrev main_v40 : Ref sig .tc := ⟨.hbm, 67, rfl⟩
abbrev main_cst_2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_3 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_5 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_6 : Ref sig .tc := ⟨.hbm, 92, rfl⟩
abbrev main_v61 : Ref sig .tc := ⟨.hbm, 93, rfl⟩
abbrev main_v62 : Ref sig .tc := ⟨.hbm, 94, rfl⟩
abbrev main_c_7 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_8 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_9 : Ref sig .tc := ⟨.hbm, 122, rfl⟩
abbrev main_v88 : Ref sig .tc := ⟨.hbm, 123, rfl⟩
abbrev main_v89 : Ref sig .tc := ⟨.hbm, 124, rfl⟩
abbrev main_cst_10 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_11 : Ref sig .tc := ⟨.hbm, 131, rfl⟩
abbrev main_v95 : Ref sig .tc := ⟨.hbm, 132, rfl⟩
abbrev main_v96 : Ref sig .tc := ⟨.hbm, 133, rfl⟩
abbrev main_cst_12 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_13 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_14 : Ref sig .tc := ⟨.hbm, 149, rfl⟩
abbrev main_v110 : Ref sig .tc := ⟨.hbm, 150, rfl⟩
abbrev main_v111 : Ref sig .tc := ⟨.hbm, 151, rfl⟩
abbrev main_c_15 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_16 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_17 : Ref sig .tc := ⟨.hbm, 179, rfl⟩
abbrev main_v137 : Ref sig .tc := ⟨.hbm, 180, rfl⟩
abbrev main_v138 : Ref sig .tc := ⟨.hbm, 181, rfl⟩
abbrev main_cst_18 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_19 : Ref sig .tc := ⟨.hbm, 188, rfl⟩
abbrev main_v144 : Ref sig .tc := ⟨.hbm, 189, rfl⟩
abbrev main_v145 : Ref sig .tc := ⟨.hbm, 190, rfl⟩
abbrev main_cst_20 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_21 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_22 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_23 : Ref sig .tc := ⟨.hbm, 207, rfl⟩
abbrev main_v159 : Ref sig .tc := ⟨.hbm, 208, rfl⟩
abbrev main_cst_24 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_25 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_call1_cst : Ref sig .tc := ⟨.hbm, 223, rfl⟩
abbrev main_call1_v0 : Ref sig .tc := ⟨.hbm, 224, rfl⟩
abbrev main_v172 : Ref sig .tc := ⟨.hbm, 225, rfl⟩
abbrev main_v173 : Ref sig .tc := ⟨.hbm, 226, rfl⟩
abbrev main_cst_26 : Ref sig .tc := ⟨.hbm, 227, rfl⟩
abbrev main_v174 : Ref sig .tc := ⟨.hbm, 228, rfl⟩
abbrev main_v175 : Ref sig .tc := ⟨.hbm, 229, rfl⟩
abbrev main_cst_27 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_28 : Ref sig .tc := ⟨.hbm, 236, rfl⟩
abbrev main_v181 : Ref sig .tc := ⟨.hbm, 237, rfl⟩
abbrev main_v182 : Ref sig .tc := ⟨.hbm, 238, rfl⟩
abbrev main_cst_29 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_cst_30 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_call2_cst : Ref sig .tc := ⟨.hbm, 260, rfl⟩
abbrev main_call2_v0 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S3x128x128_S1x128x128_1_0_0 : S3x128x128.Slices ![1, 0, 0] S1x128x128
  slices_S3x128x128_S1x128x128_2_0_0 : S3x128x128.Slices ![2, 0, 0] S1x128x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  concatenates_S128x128_S128x128_S128x256_d1 : Shape.Concatenates [S128x128, S128x128] S128x256 1
  reducesTo_S128x256_S128_d1 : S128x256.ReducesTo [1] S128
  h_S_ : 0 < S_.numel
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x768_S768x128_S128x128_1_0_0_1_n_n_wf : DotDims.WF S128x768 S768x128 S128x128 [1] [0] [0] [1] [] []
  dot_S128x256_S256x128_S128x128_1_0_0_1_n_n_wf : DotDims.WF S128x256 S256x128 S128x128 [1] [0] [0] [1] [] []
  dot_S128x128_S128x32_S128x32_1_0_0_1_n_n_wf : DotDims.WF S128x128 S128x32 S128x32 [1] [0] [0] [1] [] []
  dot_S128x128_S128x1_S128x1_1_0_0_1_n_n_wf : DotDims.WF S128x128 S128x1 S128x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-! The network both programs compute, stage by stage, as functions of whole arrays over the extended reals; the edge aggregation is a parameter, spelt alike on both sides and never opened. -/

noncomputable section

namespace Cert.Spec

open Idealize.ShloMosaic Idealize.ShloMosaic.ValueIdx

abbrev Mat (a b : Nat) : Type := (⟨2, ![a, b]⟩ : Shape).Idx → EReal

abbrev ICol (a : Nat) : Type := (⟨2, ![a, 1]⟩ : Shape).Idx → BitVec 32

def row {h : Nat} (v : (⟨1, ![h]⟩ : Shape).Idx → EReal) : Mat 1 h := fun i => v (ix1 (i 1))
def col {n : Nat} (v : (⟨1, ![n]⟩ : Shape).Idx → BitVec 32) : ICol n := fun i => v (ix1 (i 0))
def slab (l : Fin 3) (a : (⟨3, ![3, 128, 128]⟩ : Shape).Idx → EReal) : Mat 128 128 := fun i => a (ix3 l (i 0) (i 1))

abbrev zeroW : EReal := Ideal.ofBits .f32 0x00000000#32
abbrev oneW : EReal := Ideal.ofBits .f32 0x3F800000#32
abbrev w256 : EReal := Ideal.ofBits .f32 0x43800000#32
abbrev epsW : EReal := Ideal.ofBits .f32 0x3727C5AC#32

def proj {n k h : Nat} (x : Mat n k) (w : Mat k h) : Mat n h :=
  fun i => ∑ l : Fin k, x (ix2 (i 0) l) * w (ix2 l (i 1))

def dense {n k h : Nat} (x : Mat n k) (w : Mat k h) (b : Mat 1 h) : Mat n h :=
  fun i => proj x w i + b (ix2 0 (i 1))

def relu {n h : Nat} (y : Mat n h) : Mat n h := fun i => max (y i) zeroW

theorem dense_zero {n k h : Nat} (x : Mat n k) (w : Mat k h) (b : Mat 1 h) (hb : ∀ j, b j = zeroW) :
    dense x w b = proj x w := by
  funext i
  simp only [dense, hb, zeroW, Ideal.ofBits_zero_f32, add_zero]

def g0 (j : Fin 128) : Fin 384 := ⟨j.val, by omega⟩
def g1 (j : Fin 128) : Fin 384 := ⟨j.val + 128, by omega⟩
def g2 (j : Fin 128) : Fin 384 := ⟨j.val + 256, by omega⟩

def gru {n : Nat} (a h : Mat n 128) (wih : Mat 128 384) (bih : Mat 1 384) (whh : Mat 128 384) (bhh : Mat 1 384) :
    Mat n 128 := fun i =>
  let gi : Fin 384 → EReal := fun j => dense a wih bih (ix2 (i 0) j)
  let gh : Fin 384 → EReal := fun j => dense h whh bhh (ix2 (i 0) j)
  let r := Ideal.logistic (gi (g0 (i 1)) + gh (g0 (i 1)))
  let z := Ideal.logistic (gi (g1 (i 1)) + gh (g1 (i 1)))
  let c := Ideal.tanh (gi (g2 (i 1)) + r * gh (g2 (i 1)))
  (oneW - z) * c + z * h i

def layer {n : Nat} (agg : Mat n 128 → Mat n 128) (h : Mat n 128) (w : Mat 128 128)
    (wih : Mat 128 384) (bih : Mat 1 384) (whh : Mat 128 384) (bhh : Mat 1 384) : Mat n 128 :=
  gru (agg (proj h w)) h wih bih whh bhh

def poolSum {n : Nat} (h : Mat n 128) (b : ICol n) : Mat 128 128 :=
  fun i => ∑ r : Fin n, if b (ix2 r 0) = BitVec.ofNat 32 (i 0).val then h (ix2 r (i 1)) else 0

def poolCnt {n : Nat} (b : ICol n) : Mat 1 128 :=
  fun i => ∑ r : Fin n, if b (ix2 r 0) = BitVec.ofNat 32 (i 1).val then (1 : EReal) else 0

def pooled (sums : Mat 128 128) (cnt : Mat 128 1) : Mat 128 128 :=
  fun i => Ideal.div (sums i) (max (cnt (ix2 (i 0) 0)) oneW)

def concat (p d : Mat 128 128) : Mat 128 256 :=
  fun i => if h : (i 1).val < 128 then p (ix2 (i 0) ⟨(i 1).val, h⟩)
    else d (ix2 (i 0) ⟨(i 1).val - 128, by have h2 : (i 1).val < 256 := (i 1).isLt; omega⟩)

def rowMean (f : Mat 128 256) (g : Fin 128) : EReal := Ideal.div (∑ j : Fin 256, f (ix2 g j)) w256

def rowVar (f : Mat 128 256) (g : Fin 128) : EReal :=
  Ideal.div (∑ j : Fin 256, (f (ix2 g j) - rowMean f g) * (f (ix2 g j) - rowMean f g)) w256

def layerNorm (f : Mat 128 256) (lg lb : Mat 1 256) : Mat 128 256 := fun i =>
  (f i - rowMean f (i 0)) * Ideal.rsqrt (rowVar f (i 0) + epsW) * lg (ix2 0 (i 1)) + lb (ix2 0 (i 1))

structure Inputs where
  x : Mat 100000 64
  doc : Mat 128 768
  nw : Mat 64 128
  nb : Mat 1 128
  gw0 : Mat 128 128
  gw1 : Mat 128 128
  gw2 : Mat 128 128
  wih : Mat 128 384
  bih : Mat 1 384
  whh : Mat 128 384
  bhh : Mat 1 384
  dw : Mat 768 128
  db : Mat 1 128
  lg : Mat 1 256
  lb : Mat 1 256
  fw : Mat 256 128
  fb : Mat 1 128
  tw : Mat 128 32
  tb : Mat 1 32
  mw : Mat 128 1
  mb : Mat 1 1
  batch : ICol 100000

def Inputs.ofArgs (a0 : Mat 100000 64) (a1 : Mat 128 768) (a2 : Mat 64 128) (a3 : (⟨1, ![128]⟩ : Shape).Idx → EReal)
    (a4 : (⟨3, ![3, 128, 128]⟩ : Shape).Idx → EReal) (a5 : Mat 128 384) (a6 : (⟨1, ![384]⟩ : Shape).Idx → EReal)
    (a7 : Mat 128 384) (a8 : (⟨1, ![384]⟩ : Shape).Idx → EReal) (a9 : Mat 768 128) (a10 : (⟨1, ![128]⟩ : Shape).Idx → EReal)
    (a11 a12 : (⟨1, ![256]⟩ : Shape).Idx → EReal) (a13 : Mat 256 128) (a14 : (⟨1, ![128]⟩ : Shape).Idx → EReal)
    (a15 : Mat 128 32) (a16 : (⟨1, ![32]⟩ : Shape).Idx → EReal) (a17 : Mat 128 1) (a18 : (⟨1, ![1]⟩ : Shape).Idx → EReal)
    (a20 : (⟨1, ![100000]⟩ : Shape).Idx → BitVec 32) : Inputs where
  x := a0
  doc := a1
  nw := a2
  nb := row a3
  gw0 := slab 0 a4
  gw1 := slab 1 a4
  gw2 := slab 2 a4
  wih := a5
  bih := row a6
  whh := a7
  bhh := row a8
  dw := a9
  db := row a10
  lg := row a11
  lb := row a12
  fw := a13
  fb := row a14
  tw := a15
  tb := row a16
  mw := a17
  mb := row a18
  batch := col a20

variable (agg : Mat 100000 128 → Mat 100000 128) (I : Inputs)

def h0 : Mat 100000 128 := relu (dense I.x I.nw I.nb)
def h1 : Mat 100000 128 := layer agg (h0 I) I.gw0 I.wih I.bih I.whh I.bhh
def h2 : Mat 100000 128 := layer agg (h1 agg I) I.gw1 I.wih I.bih I.whh I.bhh
def h3 : Mat 100000 128 := layer agg (h2 agg I) I.gw2 I.wih I.bih I.whh I.bhh

def sums : Mat 128 128 := poolSum (h3 agg I) I.batch
def cnt : Mat 1 128 := poolCnt I.batch

def normedOf (doc : Mat 128 768) (dw : Mat 768 128) (db : Mat 1 128) (lg lb : Mat 1 256)
    (s : Mat 128 128) (c : Mat 128 1) : Mat 128 256 :=
  layerNorm (concat (pooled s c) (relu (dense doc dw db))) lg lb

def actOf (doc : Mat 128 768) (dw : Mat 768 128) (db : Mat 1 128) (lg lb : Mat 1 256) (fw : Mat 256 128) (fb : Mat 1 128)
    (s : Mat 128 128) (c : Mat 128 1) : Mat 128 128 :=
  relu (dense (normedOf doc dw db lg lb s c) fw fb)

def taskOf (doc : Mat 128 768) (dw : Mat 768 128) (db : Mat 1 128) (lg lb : Mat 1 256) (fw : Mat 256 128) (fb : Mat 1 128)
    (tw : Mat 128 32) (tb : Mat 1 32) (s : Mat 128 128) (c : Mat 128 1) : Mat 128 32 :=
  dense (actOf doc dw db lg lb fw fb s c) tw tb
def timeOf (doc : Mat 128 768) (dw : Mat 768 128) (db : Mat 1 128) (lg lb : Mat 1 256) (fw : Mat 256 128) (fb : Mat 1 128)
    (mw : Mat 128 1) (mb : Mat 1 1) (s : Mat 128 128) (c : Mat 128 1) : Mat 128 1 :=
  dense (actOf doc dw db lg lb fw fb s c) mw mb

def cntCol : Mat 128 1 := fun i => cnt I (ix2 0 (i 0))

def task : Mat 128 32 :=
  taskOf I.doc I.dw I.db I.lg I.lb I.fw I.fb I.tw I.tb (sums agg I) (cntCol I)
def time : Mat 128 1 :=
  timeOf I.doc I.dw I.db I.lg I.lb I.fw I.fb I.mw I.mb (sums agg I) (cntCol I)

end Cert.Spec

end
-- ==== Proof.KCarry.lean ====
import proofs.«423503_j25220047962222_1_alg».proof.Proof.Gen.KernelIdeal.Frame

set_option maxRecDepth 16384

/-! A buffer keeps its contents across every segment of @main that does not write it: one step per segment, chained over any range of boundaries. -/

noncomputable section

namespace Cert.KVal.Carry

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers' contents at boundary `k` of @main. -/
def Wn : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | _ + 22 => W21 m ρ

/-- The host operations between boundaries `k` and `k + 1` (none when a region lies there) … -/
def hostAt : ℕ → List (HloOp τ sig (Elt F))
  | 0 => hostOps0
  | 2 => hostOps1
  | 4 => hostOps2
  | 5 => hostOps2_1
  | 7 => hostOps3
  | 9 => hostOps4
  | 10 => hostOps4_1
  | 12 => hostOps5
  | 14 => hostOps6
  | 15 => hostOps6_1
  | 17 => hostOps7
  | 19 => hostOps8
  | _ => []

/-- … and the buffers they write. -/
def wr : ℕ → List (Ref sig .tc)
  | 0 => [main_v0, main_v1, main_v2, main_v3, main_v4]
  | 2 => [main_cst, main_v6, main_v7, main_v8, main_v9]
  | 4 => [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v11]
  | 5 => [main_cst_0, main_v12, main_v13, main_v14, main_v15, main_v16]
  | 7 => [main_v18, main_v19, main_v20]
  | 9 => [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v22]
  | 10 => [main_cst_1, main_v23, main_v24, main_v25, main_v26, main_v27]
  | 12 => [main_v29, main_v30, main_v31]
  | 14 => [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v33]
  | 15 => [main_cst_2, main_v34, main_v35, main_v36, main_v37, main_v38]
  | 17 => [main_v40]
  | 19 => [main_v42, main_v43, main_v44, main_v45, main_v46, main_v47, main_v48]
  | _ => []

theorem host_sub (k : ℕ) : (hostAt (F := F) k).Forall fun op =>
    op.writes ⊆ ((wr k).map (Proc.devRef (τ := τ) .tc)).toFinset := by
  unfold hostAt
  split
  all_goals simp only [wr, List.Forall, hostOps0, hostOps1, hostOps2, hostOps2_1, hostOps3, hostOps4, hostOps4_1, hostOps5, hostOps6, hostOps6_1, hostOps7, hostOps8, StableHlo.nullary_writes, StableHlo.unary_writes, StableHlo.binary_writes, StableHlo.ternary_writes, StableHlo.quaternary_writes, StableHlo.reshape_writes, StableHlo.binaryIndexed_writes,
    Finset.singleton_subset_iff, List.mem_toFinset]
  all_goals repeat' apply And.intro
  all_goals exact List.mem_map_of_mem (by decide)

/-- Two valuations that agree off a region's arrays, and at those the region only reads, agree at every `r` that is none of its output arrays. -/
private theorem keep_of {n g : ℕ} (spec : Fin n → Pipeline.WinSpec sig g) (A B : Valuation τ sig (Elt F)) (out : Fin n → Bool)
    (hne : ∀ b, (∀ w, Pipeline.arrRef spec w ≠ b) → A (Proc.devRef .tc b) = B (Proc.devRef .tc b))
    (hin : ∀ w, out w = false → A (Proc.devRef .tc (Pipeline.arrRef spec w)) = B (Proc.devRef .tc (Pipeline.arrRef spec w)))
    (r : Ref sig .tc) (h : ∀ w, Pipeline.arrRef spec w = r → out w = false) : A (Proc.devRef .tc r) = B (Proc.devRef .tc r) := by
  by_cases hr : ∃ w, Pipeline.arrRef spec w = r
  · obtain ⟨w, rfl⟩ := hr; exact hin w (h w rfl)
  · exact hne r fun w e => hr ⟨w, e⟩

/-- Whether the segment from boundary `k` to `k + 1` leaves `r` alone: a host stretch that does not write it, or a
    region of which it is no output array. -/
def kept : ℕ → Ref sig .tc → Bool
  | 0, r => decide (r ∉ wr 0)
  | 1, r => decide (∀ w, Pipeline.arrRef spec0 w = r → (cfg0.win w).isOut = false)
  | 2, r => decide (r ∉ wr 2)
  | 3, r => decide (∀ w, Pipeline.arrRef spec1 w = r → (cfg1.win w).isOut = false)
  | 4, r => decide (r ∉ wr 4)
  | 5, r => decide (r ∉ wr 5)
  | 6, r => decide (∀ w, Pipeline.arrRef spec2 w = r → (cfg2.win w).isOut = false)
  | 7, r => decide (r ∉ wr 7)
  | 8, r => decide (∀ w, Pipeline.arrRef spec3 w = r → (cfg3.win w).isOut = false)
  | 9, r => decide (r ∉ wr 9)
  | 10, r => decide (r ∉ wr 10)
  | 11, r => decide (∀ w, Pipeline.arrRef spec4 w = r → (cfg4.win w).isOut = false)
  | 12, r => decide (r ∉ wr 12)
  | 13, r => decide (∀ w, Pipeline.arrRef spec5 w = r → (cfg5.win w).isOut = false)
  | 14, r => decide (r ∉ wr 14)
  | 15, r => decide (r ∉ wr 15)
  | 16, r => decide (∀ w, Pipeline.arrRef spec6 w = r → (cfg6.win w).isOut = false)
  | 17, r => decide (r ∉ wr 17)
  | 18, r => decide (∀ w, Pipeline.arrRef spec7 w = r → (cfg7.win w).isOut = false)
  | 19, r => decide (r ∉ wr 19)
  | 20, r => decide (∀ w, Pipeline.arrRef spec8 w = r → (cfg8.win w).isOut = false)
  | _, _ => false

theorem step (c : Dev nD) : ∀ (k : ℕ) (r : Ref sig .tc), kept k r = true →
    Wn m ρ (k + 1) c (Proc.devRef .tc r) = Wn m ρ k c (Proc.devRef .tc r)
  | 0, r, h => StableHlo.after_of_writes_sub _ _ (host_sub 0) (of_decide_eq_true h)
  | 1, r, h => keep_of spec0 _ _ (fun w => (cfg0.win w).isOut) (W2_of_ne m ρ c)
      (fun w hw => (W2_arr m ρ c w).trans (((dat0 (V1 m ρ) c).arrAt_in w hw _).trans (A_eq0 (V1 m ρ) c w))) r (of_decide_eq_true h)
  | 2, r, h => StableHlo.after_of_writes_sub _ _ (host_sub 2) (of_decide_eq_true h)
  | 3, r, h => keep_of spec1 _ _ (fun w => (cfg1.win w).isOut) (W4_of_ne m ρ c)
      (fun w hw => (W4_arr m ρ c w).trans (((dat1 (V3 m ρ) c).arrAt_in w hw _).trans (A_eq1 (V3 m ρ) c w))) r (of_decide_eq_true h)
  | 4, r, h => StableHlo.after_of_writes_sub _ _ (host_sub 4) (of_decide_eq_true h)
  | 5, r, h => StableHlo.after_of_writes_sub _ _ (host_sub 5) (of_decide_eq_true h)
  | 6, r, h => keep_of spec2 _ _ (fun w => (cfg2.win w).isOut) (W7_of_ne m ρ c)
      (fun w hw => (W7_arr m ρ c w).trans (((dat2 (V6 m ρ) c).arrAt_in w hw _).trans (A_eq2 (V6 m ρ) c w))) r (of_decide_eq_true h)
  | 7, r, h => StableHlo.after_of_writes_sub _ _ (host_sub 7) (of_decide_eq_true h)
  | 8, r, h => keep_of spec3 _ _ (fun w => (cfg3.win w).isOut) (W9_of_ne m ρ c)
      (fun w hw => (W9_arr m ρ c w).trans (((dat3 (V8 m ρ) c).arrAt_in w hw _).trans (A_eq3 (V8 m ρ) c w))) r (of_decide_eq_true h)
  | 9, r, h => StableHlo.after_of_writes_sub _ _ (host_sub 9) (of_decide_eq_true h)
  | 10, r, h => StableHlo.after_of_writes_sub _ _ (host_sub 10) (of_decide_eq_true h)
  | 11, r, h => keep_of spec4 _ _ (fun w => (cfg4.win w).isOut) (W12_of_ne m ρ c)
      (fun w hw => (W12_arr m ρ c w).trans (((dat4 (V11 m ρ) c).arrAt_in w hw _).trans (A_eq4 (V11 m ρ) c w))) r (of_decide_eq_true h)
  | 12, r, h => StableHlo.after_of_writes_sub _ _ (host_sub 12) (of_decide_eq_true h)
  | 13, r, h => keep_of spec5 _ _ (fun w => (cfg5.win w).isOut) (W14_of_ne m ρ c)
      (fun w hw => (W14_arr m ρ c w).trans (((dat5 (V13 m ρ) c).arrAt_in w hw _).trans (A_eq5 (V13 m ρ) c w))) r (of_decide_eq_true h)
  | 14, r, h => StableHlo.after_of_writes_sub _ _ (host_sub 14) (of_decide_eq_true h)
  | 15, r, h => StableHlo.after_of_writes_sub _ _ (host_sub 15) (of_decide_eq_true h)
  | 16, r, h => keep_of spec6 _ _ (fun w => (cfg6.win w).isOut) (W17_of_ne m ρ c)
      (fun w hw => (W17_arr m ρ c w).trans (((dat6 (V16 m ρ) c).arrAt_in w hw _).trans (A_eq6 (V16 m ρ) c w))) r (of_decide_eq_true h)
  | 17, r, h => StableHlo.after_of_writes_sub _ _ (host_sub 17) (of_decide_eq_true h)
  | 18, r, h => keep_of spec7 _ _ (fun w => (cfg7.win w).isOut) (W19_of_ne m ρ c)
      (fun w hw => (W19_arr m ρ c w).trans (((dat7 (V18 m ρ) c).arrAt_in w hw _).trans (A_eq7 (V18 m ρ) c w))) r (of_decide_eq_true h)
  | 19, r, h => StableHlo.after_of_writes_sub _ _ (host_sub 19) (of_decide_eq_true h)
  | 20, r, h => keep_of spec8 _ _ (fun w => (cfg8.win w).isOut) (W21_of_ne m ρ c)
      (fun w hw => (W21_arr m ρ c w).trans (((dat8 (V20 m ρ) c).arrAt_in w hw _).trans (A_eq8 (V20 m ρ) c w))) r (of_decide_eq_true h)
  | _ + 21, _, h => (Bool.false_ne_true h).elim

/-- A buffer that no segment between boundaries `i` and `i + n` writes holds at the later what it held at the earlier. -/
theorem carry (c : Dev nD) (i n : ℕ) (r : Ref sig .tc) (h : ∀ k < n, kept (i + k) r = true) :
    Wn m ρ (i + n) c (Proc.devRef .tc r) = Wn m ρ i c (Proc.devRef .tc r) := by
  induction n with
  | zero => rfl
  | succ n ih => exact (step m ρ c (i + n) r (h n n.lt_succ_self)).trans (ih fun k hk => h k (Nat.lt_succ_of_lt hk))

end Cert.KVal.Carry

end
-- ==== Proof.KHost.lean ====
import proofs.«423503_j25220047962222_1_alg».proof.Proof.Gen.KernelIdeal.Frame
import proofs.«423503_j25220047962222_1_alg».proof.Defs
import proofs.«423503_j25220047962222_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

set_option maxRecDepth 16384

/-! The host glue around a gather: a source s is wrapped (s + 100000 if s < 0) and rows gathered at an index outside [0, 99999] are masked; with every source in [−100000, 100000) the mask is all ones and the masked gather is the gather. -/

noncomputable section

namespace Cert.KVal

open Cert.KernelIdeal Cert.KernelIdeal.Facts₀ Cert.KernelIdeal.Facts Idealize.ShloMosaic Idealize.ShloMosaic.TcCoe
open Idealize.ShloMosaic.ValueIdx Idealize.SL.Sem

variable {F : FTy → Type} [FloatOps F]

def srcOf (e : IVec S2x1600000 32) : IVec S1600000 32 :=
  shapeCast S1600000 (extractStridedSlice S1x1600000 ![0, 0] e slices_S2x1600000_S1x1600000_0_0) shapeCasts_S1x1600000_S1600000

def dstOf (e : IVec S2x1600000 32) : IVec S1600000 32 :=
  shapeCast S1600000 (extractStridedSlice S1x1600000 ![1, 0] e slices_S2x1600000_S1x1600000_1_0) shapeCasts_S1x1600000_S1600000

def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def inRange (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def gath (msg : FVec F S100000x128 .f32) (idx : IVec S1600000x1 32) : FVec F S1600000x128 .f32 :=
  Host.gather gather_S100000x128_S1600000x1_S1600000x128_1_0_n_n_0_1_1128 msg idx

def takeMasked (s : IVec S1600000 32) (msg : FVec F S100000x128 .f32) : FVec F S1600000x128 .f32 :=
  select (broadcastInDim S1600000x128 ![0] bcast_S1600000_S1600000x128_0 (inRange (wrapIdx s)))
    (gath msg (wrapIdx s))
    (broadcastInDim S1600000x128 ![] bcast_S_S1600000x128 (constant S_ .f32 0x7FC00000#32))

def scat (d : IVec S1600000 32) (upd : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) upd

def agg (e : IVec S2x1600000 32) (msg : FVec F S100000x128 .f32) : FVec F S100000x128 .f32 :=
  scat (dstOf e) (gath msg (wrapIdx (srcOf e)))

def SrcInRange (e : IVec S2x1600000 32) : Prop :=
  ∀ k : Fin 1600000, -100000 ≤ (e (ix2 0 k)).toInt ∧ (e (ix2 0 k)).toInt < 100000

theorem row0_apply (e : IVec S2x1600000 32) (h₁ : S2x1600000.Slices ![0, 0] S1x1600000) (h₂ : S1x1600000.ShapeCasts S1600000)
    (r : Fin 1600000) :
    shapeCast S1600000 (extractStridedSlice S1x1600000 ![0, 0] e h₁) h₂ (ix1 r) = e (ix2 0 r) := by
  refine (shapeCast_apply _ h₂ (ix1 r) (ix2 0 r) ?_).trans ?_
  · rewrite [Shape.rowMajor_val_two, Shape.rowMajor_val_one]
    show 0 * 1600000 + r.val = r.val
    omega
  · exact extractStridedSlice_apply ![0, 0] e h₁ (ix2 0 r) (ix2 0 r) (fun a => match a with
      | ⟨0, _⟩ => by show (0 : Nat) = 0 + 0; omega
      | ⟨1, _⟩ => by show r.val = 0 + r.val; omega)

theorem srcOf_apply (e : IVec S2x1600000 32) (r : Fin 1600000) : srcOf e (ix1 r) = e (ix2 0 r) := by
  unfold srcOf
  exact row0_apply e _ _ r

theorem wrapIdx_apply (s : IVec S1600000 32) (i : S1600000x1.Idx) :
    ∃ k : S1600000.Idx, wrapIdx s i = Scalar.select (IntOp.cmpi .slt (s k) 0#32) (IntOp.addi (s k) 100000#32) (s k) := by
  unfold wrapIdx broadcastInDim
  exact ⟨_, rfl⟩

theorem wrap_toInt (s : BitVec 32) (h0 : -100000 ≤ s.toInt) (h1 : s.toInt < 100000) :
    0 ≤ (Scalar.select (IntOp.cmpi .slt s 0#32) (IntOp.addi s 100000#32) s).toInt
      ∧ (Scalar.select (IntOp.cmpi .slt s 0#32) (IntOp.addi s 100000#32) s).toInt ≤ 99999 := by
  have hz : (0#32 : BitVec 32).toInt = 0 := by decide
  have hk : (100000#32 : BitVec 32).toInt = 100000 := by decide
  by_cases hneg : s.toInt < 0
  · have hc : IntOp.cmpi .slt s 0#32 = 1#1 := IntOp.cmpi_slt.2 (by rw [hz]; exact hneg)
    have ha : (IntOp.addi s 100000#32).toInt = s.toInt + 100000 := by
      show (s + 100000#32).toInt = _
      rw [BitVec.toInt_add, hk]
      exact Int.bmod_eq_of_le (by omega) (by omega)
    rw [hc, select_one, ha]
    omega
  · have hc : IntOp.cmpi .slt s 0#32 = 0#1 :=
      eq_zero_of_ne_one (fun h => hneg (by have := IntOp.cmpi_slt.1 h; rwa [hz] at this))
    rw [hc, select_zero]
    omega

theorem wrap_mask (s : BitVec 32) (h0 : -100000 ≤ s.toInt) (h1 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  obtain ⟨hl, hu⟩ := wrap_toInt s h0 h1
  exact IntOp.andi_eq_one.2 ⟨IntOp.cmpi_sge.2 (by rw [show (0#32 : BitVec 32).toInt = 0 from by decide]; exact hl),
    IntOp.cmpi_sle.2 (by rw [show (99999#32 : BitVec 32).toInt = 99999 from by decide]; exact hu)⟩

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

theorem inRange_ones (e : IVec S2x1600000 32) (he : SrcInRange e) (k : S1600000.Idx) :
    inRange (wrapIdx (srcOf e)) k = 1#1 := by
  unfold inRange
  refine reduce_andi_ones _ _ _ _ (fun i => ?_) (fun _ => rfl) k
  show IntOp.andi (IntOp.cmpi .sge (wrapIdx (srcOf e) i) 0#32) (IntOp.cmpi .sle (wrapIdx (srcOf e) i) 99999#32) = 1#1
  obtain ⟨K, hK⟩ := wrapIdx_apply (srcOf e) i
  obtain ⟨r, rfl⟩ : ∃ r : Fin 1600000, K = ix1 r := ⟨K 0, eq_ix1 K⟩
  rw [hK, srcOf_apply]
  exact wrap_mask _ (he r).1 (he r).2

theorem takeMasked_eq (e : IVec S2x1600000 32) (he : SrcInRange e) (msg : FVec F S100000x128 .f32) :
    takeMasked (srcOf e) msg = gath msg (wrapIdx (srcOf e)) := by
  funext i
  unfold takeMasked
  rw [select_apply]
  have hc : broadcastInDim S1600000x128 ![0] bcast_S1600000_S1600000x128_0 (inRange (wrapIdx (srcOf e))) i = 1#1 := by
    unfold broadcastInDim
    exact inRange_ones e he _
  rw [hc, select_one]

theorem srcInRange_of_pre (m : (ℓ : Loc nD τ sig) → Buf (Elt Ideal) ℓ) (h : Cert.Pre_KernelIdeal m) (c : Dev nD) :
    SrcInRange (m ((c.tc : Thread nD τ).loc main_arg19)) := by
  intro k
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  have e2 := (IntOp.andi_eq_one.1 e).2
  haveI : Subsingleton Cert.Pre_finite_inputs.S_.Idx := ⟨fun a b => funext fun d => d.elim0⟩
  have e3 := Host.reduce_andi_all _ _ _ _ _ e2 (ix1 k)
  obtain ⟨ha, hb⟩ := IntOp.andi_eq_one.1 e3
  have ha' := IntOp.cmpi_sge.1 ha
  have hb' := IntOp.cmpi_slt.1 hb
  rw [row0_apply] at ha' hb'
  have hlo : (4294867296#32 : BitVec 32).toInt = -100000 := by decide
  have hhi : (100000#32 : BitVec 32).toInt = 100000 := by decide
  exact ⟨hlo ▸ ha', hhi ▸ hb'⟩

end Cert.KVal

end
-- ==== Proof.KLayout.lean ====
import proofs.«423503_j25220047962222_1_alg».proof.Proof.Gen.KernelIdeal.Frame
import proofs.«423503_j25220047962222_1_alg».proof.Proof.Spec
import Idealize.ShloMosaic.Lib.ValueIdx
import Idealize.ShloMosaic.Lib.ValueLayout
import Idealize.ShloMosaic.Lib.Pipeline.Value

set_option maxRecDepth 16384

/-! Reshapes, slices and the transpose of the host glue, read as the specification's layouts. -/

noncomputable section

namespace Cert.KVal

open Cert.KernelIdeal Cert.KernelIdeal.Facts₀ Cert.KernelIdeal.Facts Idealize.ShloMosaic Idealize.ShloMosaic.TcCoe
open Idealize.ShloMosaic.ValueIdx Idealize.SL.Sem Cert.Spec

namespace Layout

theorem row_of_reshape {h : Nat} (v : (⟨1, ![h]⟩ : Shape).Idx → EReal)
    (hc : (⟨1, ![h]⟩ : Shape).ShapeCasts ⟨2, ![1, h]⟩) : shapeCast ⟨2, ![1, h]⟩ v hc = row v := by
  funext i
  obtain ⟨u, j, rfl⟩ : ∃ (u : Fin 1) (j : Fin h), i = ix2 u j := ⟨i 0, i 1, eq_ix2 i⟩
  exact shapeCast_a_1a_apply v hc u j

theorem slab_of_slice (o : Nat) (l : Fin 3) (hl : l.val = o) (a : (⟨3, ![3, 128, 128]⟩ : Shape).Idx → EReal)
    (hs : (⟨3, ![3, 128, 128]⟩ : Shape).Slices ![o, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![o, 0, 0] a hs) hc = slab l a := by
  funext i
  obtain ⟨p, q, rfl⟩ : ∃ (p : Fin 128) (q : Fin 128), i = ix2 p q := ⟨i 0, i 1, eq_ix2 i⟩
  refine (shapeCast_1ab_ab_apply _ hc p q).trans ?_
  refine extractStridedSlice_apply ![o, 0, 0] a hs (ix3 (0 : Fin 1) p q) (ix3 l p q) fun ax => ?_
  match ax with
  | ⟨0, _⟩ => show l.val = o + 0; omega
  | ⟨1, _⟩ => exact (Nat.zero_add _).symm
  | ⟨2, _⟩ => exact (Nat.zero_add _).symm

theorem col_of_reshape {n : Nat} (v : (⟨1, ![n]⟩ : Shape).Idx → BitVec 32)
    (hc : (⟨1, ![n]⟩ : Shape).ShapeCasts ⟨2, ![n, 1]⟩) : shapeCast ⟨2, ![n, 1]⟩ v hc = col v := by
  funext i
  obtain ⟨r, u, rfl⟩ : ∃ (r : Fin n) (u : Fin 1), i = ix2 r u := ⟨i 0, i 1, eq_ix2 i⟩
  refine shapeCast_apply v hc (ix2 r u) (ix1 r) ?_
  rw [Shape.rowMajor_val_one, Shape.rowMajor_val_two]
  have hu : u.val = 0 := by omega
  show r.val = r.val * 1 + u.val
  omega

end Layout

theorem reshape_row128 (v : FVec Ideal S128 .f32) : shapeCast S1x128 v shapeCasts_S128_S1x128 = row (h := 128) v :=
  Layout.row_of_reshape v shapeCasts_S128_S1x128

theorem reshape_row384 (v : FVec Ideal S384 .f32) : shapeCast S1x384 v shapeCasts_S384_S1x384 = row (h := 384) v :=
  Layout.row_of_reshape v shapeCasts_S384_S1x384

theorem reshape_row256 (v : FVec Ideal S256 .f32) : shapeCast S1x256 v shapeCasts_S256_S1x256 = row (h := 256) v :=
  Layout.row_of_reshape v shapeCasts_S256_S1x256

theorem reshape_row32 (v : FVec Ideal S32 .f32) : shapeCast S1x32 v shapeCasts_S32_S1x32 = row (h := 32) v :=
  Layout.row_of_reshape v shapeCasts_S32_S1x32

theorem reshape_row1 (v : FVec Ideal S1 .f32) : shapeCast S1x1 v shapeCasts_S1_S1x1 = row (h := 1) v :=
  Layout.row_of_reshape v shapeCasts_S1_S1x1

theorem reshape_slab0 (a : FVec Ideal S3x128x128 .f32) :
    shapeCast S128x128 (extractStridedSlice S1x128x128 ![0, 0, 0] a slices_S3x128x128_S1x128x128_0_0_0) shapeCasts_S1x128x128_S128x128
      = slab 0 a :=
  Layout.slab_of_slice 0 0 rfl a slices_S3x128x128_S1x128x128_0_0_0 shapeCasts_S1x128x128_S128x128

theorem reshape_slab1 (a : FVec Ideal S3x128x128 .f32) :
    shapeCast S128x128 (extractStridedSlice S1x128x128 ![1, 0, 0] a slices_S3x128x128_S1x128x128_1_0_0) shapeCasts_S1x128x128_S128x128
      = slab 1 a :=
  Layout.slab_of_slice 1 1 rfl a slices_S3x128x128_S1x128x128_1_0_0 shapeCasts_S1x128x128_S128x128

theorem reshape_slab2 (a : FVec Ideal S3x128x128 .f32) :
    shapeCast S128x128 (extractStridedSlice S1x128x128 ![2, 0, 0] a slices_S3x128x128_S1x128x128_2_0_0) shapeCasts_S1x128x128_S128x128
      = slab 2 a :=
  Layout.slab_of_slice 2 2 rfl a slices_S3x128x128_S1x128x128_2_0_0 shapeCasts_S1x128x128_S128x128

theorem reshape_col (v : IVec S100000 32) : shapeCast S100000x1 v shapeCasts_S100000_S100000x1 = col (n := 100000) v :=
  Layout.col_of_reshape v shapeCasts_S100000_S100000x1

theorem transpose_cnt (v : FVec Ideal S1x128 .f32) :
    transpose S128x1 [1, 0] v transposes_S1x128_S128x1_1_0 = (fun i => v (ix2 0 (i 0)) : Mat 128 1) := by
  funext i
  obtain ⟨g, u, rfl⟩ : ∃ (g : Fin 128) (u : Fin 1), i = ix2 g u := ⟨i 0, i 1, eq_ix2 i⟩
  have hu : u = 0 := Fin.ext (by omega)
  subst hu
  exact transpose_ix2_apply v transposes_S1x128_S128x1_1_0 g 0

theorem zero_row (j : S1x128.Idx) :
    shapeCast S1x128 (broadcastInDim S128 ![] bcast_S_S128 (constant (F := Ideal) S_ .f32 0x00000000#32)) shapeCasts_S128_S1x128 j = zeroW := by
  obtain ⟨u, q, rfl⟩ : ∃ (u : Fin 1) (q : Fin 128), j = ix2 u q := ⟨j 0, j 1, eq_ix2 j⟩
  refine (shapeCast_a_1a_apply _ shapeCasts_S128_S1x128 u q).trans ?_
  refine (broadcastInDim_apply ![] bcast_S_S128 _ (ix1 q) ix0 fun a => a.elim0).trans ?_
  exact constant_apply _ _

end Cert.KVal

end
-- ==== Proof.KWalk.lean ====
import proofs.«423503_j25220047962222_1_alg».proof.Proof.Gen.KernelIdeal.Frame
import proofs.«423503_j25220047962222_1_alg».proof.Proof.Spec
import proofs.«423503_j25220047962222_1_alg».proof.Proof.KCarry
import proofs.«423503_j25220047962222_1_alg».proof.Proof.KHost
import proofs.«423503_j25220047962222_1_alg».proof.Proof.KLayout

set_option maxRecDepth 16384

/-! The kernel program's buffers, boundary by boundary: each region's output is its stage of the arrays its windows read, each host stretch a layout change or the edge aggregation, and a buffer read later is carried unchanged in between. -/

noncomputable section

namespace Cert.KVal

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.Spec

structure RegionFacts : Prop where
  r0 : ∀ (V : (c : Dev nD) → (b : Ref sig .tc) → Buf (Elt Ideal) ((c : Thread nD τ).loc b)) (c : Dev nD), (dat0 (F := Ideal) V c).arrAt 3 cfg0.N
    = relu (dense (n := 100000) (k := 64) (h := 128) (V c main_arg0) (V c main_arg2) (V c main_v4))
  r1 : ∀ (V : (c : Dev nD) → (b : Ref sig .tc) → Buf (Elt Ideal) ((c : Thread nD τ).loc b)) (c : Dev nD), (dat1 (F := Ideal) V c).arrAt 3 cfg1.N
    = dense (n := 100000) (k := 128) (h := 128) (V c main_v5) (V c main_v8) (V c main_v9)
  r2 : ∀ (V : (c : Dev nD) → (b : Ref sig .tc) → Buf (Elt Ideal) ((c : Thread nD τ).loc b)) (c : Dev nD), (dat2 (F := Ideal) V c).arrAt 6 cfg2.N
    = gru (n := 100000) (V c main_v14) (V c main_v5) (V c main_arg5) (V c main_v15) (V c main_arg7) (V c main_v16)
  r3 : ∀ (V : (c : Dev nD) → (b : Ref sig .tc) → Buf (Elt Ideal) ((c : Thread nD τ).loc b)) (c : Dev nD), (dat3 (F := Ideal) V c).arrAt 3 cfg3.N
    = dense (n := 100000) (k := 128) (h := 128) (V c main_v17) (V c main_v19) (V c main_v20)
  r4 : ∀ (V : (c : Dev nD) → (b : Ref sig .tc) → Buf (Elt Ideal) ((c : Thread nD τ).loc b)) (c : Dev nD), (dat4 (F := Ideal) V c).arrAt 6 cfg4.N
    = gru (n := 100000) (V c main_v25) (V c main_v17) (V c main_arg5) (V c main_v26) (V c main_arg7) (V c main_v27)
  r5 : ∀ (V : (c : Dev nD) → (b : Ref sig .tc) → Buf (Elt Ideal) ((c : Thread nD τ).loc b)) (c : Dev nD), (dat5 (F := Ideal) V c).arrAt 3 cfg5.N
    = dense (n := 100000) (k := 128) (h := 128) (V c main_v28) (V c main_v30) (V c main_v31)
  r6 : ∀ (V : (c : Dev nD) → (b : Ref sig .tc) → Buf (Elt Ideal) ((c : Thread nD τ).loc b)) (c : Dev nD), (dat6 (F := Ideal) V c).arrAt 6 cfg6.N
    = gru (n := 100000) (V c main_v36) (V c main_v28) (V c main_arg5) (V c main_v37) (V c main_arg7) (V c main_v38)
  r7s : ∀ (V : (c : Dev nD) → (b : Ref sig .tc) → Buf (Elt Ideal) ((c : Thread nD τ).loc b)) (c : Dev nD), (dat7 (F := Ideal) V c).arrAt 2 cfg7.N
    = poolSum (n := 100000) (V c main_v39) (V c main_v40)
  r7c : ∀ (V : (c : Dev nD) → (b : Ref sig .tc) → Buf (Elt Ideal) ((c : Thread nD τ).loc b)) (c : Dev nD), (dat7 (F := Ideal) V c).arrAt 3 cfg7.N = poolCnt (n := 100000) (V c main_v40)
  r8t : ∀ (V : (c : Dev nD) → (b : Ref sig .tc) → Buf (Elt Ideal) ((c : Thread nD τ).loc b)) (c : Dev nD), (dat8 (F := Ideal) V c).arrAt 13 cfg8.N
    = taskOf (V c main_arg1) (V c main_arg9) (V c main_v43) (V c main_v44) (V c main_v45) (V c main_arg13) (V c main_v46)
        (V c main_arg15) (V c main_v47) (V c main_v41_0) (V c main_v42)
  r8m : ∀ (V : (c : Dev nD) → (b : Ref sig .tc) → Buf (Elt Ideal) ((c : Thread nD τ).loc b)) (c : Dev nD), (dat8 (F := Ideal) V c).arrAt 14 cfg8.N
    = timeOf (V c main_arg1) (V c main_arg9) (V c main_v43) (V c main_v44) (V c main_v45) (V c main_arg13) (V c main_v46)
        (V c main_arg17) (V c main_v48) (V c main_v41_0) (V c main_v42)

section HostReads

variable {F : FTy → Type} [FloatOps F] (W : Valuation τ sig (Elt F))

theorem cast_round {α β : Type} (h1 : β = α) (h2 : α = β) (v : α) : cast h1 (cast h2 v) = v := by
  subst h2; rfl

theorem in_v1 : (TRef.of (T := ⟨S1600000, .i32⟩) main_v1).ofBuf (Val := Elt F) (W (Proc.devRef .tc main_v1)) = W (Proc.devRef .tc main_v1) := rfl
theorem in_v10 : (TRef.of (T := ⟨S100000x128, .f32⟩) main_v10).ofBuf (Val := Elt F) (W (Proc.devRef .tc main_v10)) = W (Proc.devRef .tc main_v10) := rfl
theorem in_v21 : (TRef.of (T := ⟨S100000x128, .f32⟩) main_v21).ofBuf (Val := Elt F) (W (Proc.devRef .tc main_v21)) = W (Proc.devRef .tc main_v21) := rfl
theorem in_v32 : (TRef.of (T := ⟨S100000x128, .f32⟩) main_v32).ofBuf (Val := Elt F) (W (Proc.devRef .tc main_v32)) = W (Proc.devRef .tc main_v32) := rfl
theorem out_v11 (x : FVec F S1600000x128 .f32) : (TRef.of (T := ⟨S1600000x128, .f32⟩) main_v11).toBuf (Val := Elt F) x = x := rfl
theorem out_v22 (x : FVec F S1600000x128 .f32) : (TRef.of (T := ⟨S1600000x128, .f32⟩) main_v22).toBuf (Val := Elt F) x = x := rfl
theorem out_v33 (x : FVec F S1600000x128 .f32) : (TRef.of (T := ⟨S1600000x128, .f32⟩) main_v33).toBuf (Val := Elt F) x = x := rfl

theorem rd_v1 : StableHlo.after (hostOps0 (F := F)) W (Proc.devRef .tc main_v1) = srcOf (W (Proc.devRef .tc main_arg19)) := by
  after_results <;> try rfl

theorem rd_v3 : StableHlo.after (hostOps0 (F := F)) W (Proc.devRef .tc main_v3) = dstOf (W (Proc.devRef .tc main_arg19)) := by
  after_results <;> try rfl

theorem rd_v4 : StableHlo.after (hostOps0 (F := F)) W (Proc.devRef .tc main_v4) = shapeCast S1x128 (W (Proc.devRef .tc main_arg3)) shapeCasts_S128_S1x128 := by
  after_results <;> try rfl

theorem rd_v6 : StableHlo.after (hostOps1 (F := F)) W (Proc.devRef .tc main_v6) = broadcastInDim S128 ![] bcast_S_S128 (constant (F := F) S_ .f32 0x00000000#32) := by
  after_results <;> try rfl

theorem rd_v8 : StableHlo.after (hostOps1 (F := F)) W (Proc.devRef .tc main_v8) = shapeCast S128x128 (extractStridedSlice S1x128x128 ![0, 0, 0] (W (Proc.devRef .tc main_arg4)) slices_S3x128x128_S1x128x128_0_0_0) shapeCasts_S1x128x128_S128x128 := by
  after_results <;> try rfl

theorem rd_v9 : StableHlo.after (hostOps1 (F := F)) W (Proc.devRef .tc main_v9) = shapeCast S1x128 (broadcastInDim S128 ![] bcast_S_S128 (constant (F := F) S_ .f32 0x00000000#32)) shapeCasts_S128_S1x128 := by
  after_results <;> try rfl

set_option maxHeartbeats 4000000 in
theorem rd_v11 : StableHlo.after (hostOps2 (F := F)) W (Proc.devRef .tc main_v11) = takeMasked (W (Proc.devRef .tc main_v1)) (W (Proc.devRef .tc main_v10)) := by
  after_results_simp
  simp only [cast_round]
  rw [in_v1 W, in_v10 W]
  exact out_v11 _

theorem rd_v14 : StableHlo.after (hostOps2_1 (F := F)) W (Proc.devRef .tc main_v14) = scat (W (Proc.devRef .tc main_v3)) (W (Proc.devRef .tc main_v11)) := by
  after_results <;> try rfl

theorem rd_v15 : StableHlo.after (hostOps2_1 (F := F)) W (Proc.devRef .tc main_v15) = shapeCast S1x384 (W (Proc.devRef .tc main_arg6)) shapeCasts_S384_S1x384 := by
  after_results <;> try rfl

theorem rd_v16 : StableHlo.after (hostOps2_1 (F := F)) W (Proc.devRef .tc main_v16) = shapeCast S1x384 (W (Proc.devRef .tc main_arg8)) shapeCasts_S384_S1x384 := by
  after_results <;> try rfl

theorem rd_v19 : StableHlo.after (hostOps3 (F := F)) W (Proc.devRef .tc main_v19) = shapeCast S128x128 (extractStridedSlice S1x128x128 ![1, 0, 0] (W (Proc.devRef .tc main_arg4)) slices_S3x128x128_S1x128x128_1_0_0) shapeCasts_S1x128x128_S128x128 := by
  after_results <;> try rfl

theorem rd_v20 : StableHlo.after (hostOps3 (F := F)) W (Proc.devRef .tc main_v20) = shapeCast S1x128 (W (Proc.devRef .tc main_v6)) shapeCasts_S128_S1x128 := by
  after_results <;> try rfl

set_option maxHeartbeats 4000000 in
theorem rd_v22 : StableHlo.after (hostOps4 (F := F)) W (Proc.devRef .tc main_v22) = takeMasked (W (Proc.devRef .tc main_v1)) (W (Proc.devRef .tc main_v21)) := by
  after_results_simp
  simp only [cast_round]
  rw [in_v1 W, in_v21 W]
  exact out_v22 _

theorem rd_v25 : StableHlo.after (hostOps4_1 (F := F)) W (Proc.devRef .tc main_v25) = scat (W (Proc.devRef .tc main_v3)) (W (Proc.devRef .tc main_v22)) := by
  after_results <;> try rfl

theorem rd_v26 : StableHlo.after (hostOps4_1 (F := F)) W (Proc.devRef .tc main_v26) = shapeCast S1x384 (W (Proc.devRef .tc main_arg6)) shapeCasts_S384_S1x384 := by
  after_results <;> try rfl

theorem rd_v27 : StableHlo.after (hostOps4_1 (F := F)) W (Proc.devRef .tc main_v27) = shapeCast S1x384 (W (Proc.devRef .tc main_arg8)) shapeCasts_S384_S1x384 := by
  after_results <;> try rfl

theorem rd_v30 : StableHlo.after (hostOps5 (F := F)) W (Proc.devRef .tc main_v30) = shapeCast S128x128 (extractStridedSlice S1x128x128 ![2, 0, 0] (W (Proc.devRef .tc main_arg4)) slices_S3x128x128_S1x128x128_2_0_0) shapeCasts_S1x128x128_S128x128 := by
  after_results <;> try rfl

theorem rd_v31 : StableHlo.after (hostOps5 (F := F)) W (Proc.devRef .tc main_v31) = shapeCast S1x128 (W (Proc.devRef .tc main_v6)) shapeCasts_S128_S1x128 := by
  after_results <;> try rfl

set_option maxHeartbeats 4000000 in
theorem rd_v33 : StableHlo.after (hostOps6 (F := F)) W (Proc.devRef .tc main_v33) = takeMasked (W (Proc.devRef .tc main_v1)) (W (Proc.devRef .tc main_v32)) := by
  after_results_simp
  simp only [cast_round]
  rw [in_v1 W, in_v32 W]
  exact out_v33 _

theorem rd_v36 : StableHlo.after (hostOps6_1 (F := F)) W (Proc.devRef .tc main_v36) = scat (W (Proc.devRef .tc main_v3)) (W (Proc.devRef .tc main_v33)) := by
  after_results <;> try rfl

theorem rd_v37 : StableHlo.after (hostOps6_1 (F := F)) W (Proc.devRef .tc main_v37) = shapeCast S1x384 (W (Proc.devRef .tc main_arg6)) shapeCasts_S384_S1x384 := by
  after_results <;> try rfl

theorem rd_v38 : StableHlo.after (hostOps6_1 (F := F)) W (Proc.devRef .tc main_v38) = shapeCast S1x384 (W (Proc.devRef .tc main_arg8)) shapeCasts_S384_S1x384 := by
  after_results <;> try rfl

theorem rd_v40 : StableHlo.after (hostOps7 (F := F)) W (Proc.devRef .tc main_v40) = shapeCast S100000x1 (W (Proc.devRef .tc main_arg20)) shapeCasts_S100000_S100000x1 := by
  after_results <;> try rfl

theorem rd_v42 : StableHlo.after (hostOps8 (F := F)) W (Proc.devRef .tc main_v42) = transpose S128x1 [1, 0] (W (Proc.devRef .tc main_v41_1)) transposes_S1x128_S128x1_1_0 := by
  after_results <;> try rfl

theorem rd_v43 : StableHlo.after (hostOps8 (F := F)) W (Proc.devRef .tc main_v43) = shapeCast S1x128 (W (Proc.devRef .tc main_arg10)) shapeCasts_S128_S1x128 := by
  after_results <;> try rfl

theorem rd_v44 : StableHlo.after (hostOps8 (F := F)) W (Proc.devRef .tc main_v44) = shapeCast S1x256 (W (Proc.devRef .tc main_arg11)) shapeCasts_S256_S1x256 := by
  after_results <;> try rfl

theorem rd_v45 : StableHlo.after (hostOps8 (F := F)) W (Proc.devRef .tc main_v45) = shapeCast S1x256 (W (Proc.devRef .tc main_arg12)) shapeCasts_S256_S1x256 := by
  after_results <;> try rfl

theorem rd_v46 : StableHlo.after (hostOps8 (F := F)) W (Proc.devRef .tc main_v46) = shapeCast S1x128 (W (Proc.devRef .tc main_arg14)) shapeCasts_S128_S1x128 := by
  after_results <;> try rfl

theorem rd_v47 : StableHlo.after (hostOps8 (F := F)) W (Proc.devRef .tc main_v47) = shapeCast S1x32 (W (Proc.devRef .tc main_arg16)) shapeCasts_S32_S1x32 := by
  after_results <;> try rfl

theorem rd_v48 : StableHlo.after (hostOps8 (F := F)) W (Proc.devRef .tc main_v48) = shapeCast S1x1 (W (Proc.devRef .tc main_arg18)) shapeCasts_S1_S1x1 := by
  after_results <;> try rfl

end HostReads
variable (m : (ℓ : Loc nD τ sig) → Buf (Elt Ideal) ℓ) (ρ : Dev nD → PrngReg) (c : Dev nD)

def ins : Inputs :=
  Inputs.ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (m ((c : Thread nD τ).loc main_arg20))

def edges : IVec S2x1600000 32 := (m ((c : Thread nD τ).loc main_arg19))

theorem w0 (b : Ref sig .tc) : W0 m ρ c (Proc.devRef .tc b) = m ((c : Thread nD τ).loc b) := rfl

theorem w1_v4 : (W1 m ρ c (Proc.devRef .tc main_v4) : Mat 1 128) = (ins m c).nb :=
  (rd_v4 (W0 m ρ c)).trans (reshape_row128 _)

theorem w2_v5 (hR : RegionFacts) : (W2 m ρ c (Proc.devRef .tc main_v5) : Mat 100000 128) = h0 (ins m c) := by
  refine (W2_arr m ρ c 3).trans ((hR.r0 (V1 m ρ) c).trans ?_)
  have e0 : V1 m ρ c main_arg0 = (ins m c).x := Carry.carry m ρ c 0 1 main_arg0 (by decide)
  have e1 : V1 m ρ c main_arg2 = (ins m c).nw := Carry.carry m ρ c 0 1 main_arg2 (by decide)
  have e2 : V1 m ρ c main_v4 = (ins m c).nb := w1_v4 m ρ c
  rw [e0, e1, e2]; rfl

theorem w3_v8 : (W3 m ρ c (Proc.devRef .tc main_v8) : Mat 128 128) = (ins m c).gw0 := by
  have e : W2 m ρ c (Proc.devRef .tc main_arg4) = m ((c : Thread nD τ).loc main_arg4) := Carry.carry m ρ c 0 2 main_arg4 (by decide)
  refine (rd_v8 (W2 m ρ c)).trans ?_
  rw [e]; exact reshape_slab0 _

theorem w3_v9 (j : S1x128.Idx) : (W3 m ρ c (Proc.devRef .tc main_v9) : Mat 1 128) j = zeroW := by
  exact (congrFun (rd_v9 (W2 m ρ c)) j).trans (zero_row j)

theorem w4_v10 (hR : RegionFacts) :
    (W4 m ρ c (Proc.devRef .tc main_v10) : Mat 100000 128) = proj (h0 (ins m c)) (ins m c).gw0 := by
  refine (W4_arr m ρ c 3).trans ((hR.r1 (V3 m ρ) c).trans ?_)
  have e0 : V3 m ρ c main_v5 = h0 (ins m c) := (Carry.carry m ρ c 2 1 main_v5 (by decide)).trans (w2_v5 m ρ c hR)
  have e1 : V3 m ρ c main_v8 = (ins m c).gw0 := w3_v8 m ρ c
  rw [e0, e1]
  exact dense_zero _ _ _ (w3_v9 m ρ c)

theorem w6_v14 (hR : RegionFacts) (hp : SrcInRange (edges m c)) :
    (W6 m ρ c (Proc.devRef .tc main_v14) : Mat 100000 128) = agg (F := Ideal) (edges m c) (proj (h0 (ins m c)) (ins m c).gw0) := by
  have e3 : W5 m ρ c (Proc.devRef .tc main_v3) = dstOf (edges m c) := (Carry.carry m ρ c 1 4 main_v3 (by decide)).trans (rd_v3 (W0 m ρ c))
  have e1 : W4 m ρ c (Proc.devRef .tc main_v1) = srcOf (edges m c) := (Carry.carry m ρ c 1 3 main_v1 (by decide)).trans (rd_v1 (W0 m ρ c))
  have em : W4 m ρ c (Proc.devRef .tc main_v10) = proj (h0 (ins m c)) (ins m c).gw0 := w4_v10 m ρ c hR
  have e11 : W5 m ρ c (Proc.devRef .tc main_v11)
      = gath (F := Ideal) (proj (h0 (ins m c)) (ins m c).gw0) (wrapIdx (srcOf (edges m c))) := by
    refine (rd_v11 (W4 m ρ c)).trans ?_
    rw [e1, em]
    exact takeMasked_eq _ hp _
  refine (rd_v14 (W5 m ρ c)).trans ?_
  rw [e3, e11]; rfl

theorem w6_v15 : (W6 m ρ c (Proc.devRef .tc main_v15) : Mat 1 384) = (ins m c).bih := by
  have e : W5 m ρ c (Proc.devRef .tc main_arg6) = m ((c : Thread nD τ).loc main_arg6) := Carry.carry m ρ c 0 5 main_arg6 (by decide)
  refine (rd_v15 (W5 m ρ c)).trans ?_
  rw [e]; exact reshape_row384 _

theorem w6_v16 : (W6 m ρ c (Proc.devRef .tc main_v16) : Mat 1 384) = (ins m c).bhh := by
  have e : W5 m ρ c (Proc.devRef .tc main_arg8) = m ((c : Thread nD τ).loc main_arg8) := Carry.carry m ρ c 0 5 main_arg8 (by decide)
  refine (rd_v16 (W5 m ρ c)).trans ?_
  rw [e]; exact reshape_row384 _

theorem w7_v17 (hR : RegionFacts) (hp : SrcInRange (edges m c)) :
    (W7 m ρ c (Proc.devRef .tc main_v17) : Mat 100000 128) = h1 (agg (F := Ideal) (edges m c)) (ins m c) := by
  refine (W7_arr m ρ c 6).trans ((hR.r2 (V6 m ρ) c).trans ?_)
  have e0 : V6 m ρ c main_v14 = agg (F := Ideal) (edges m c) (proj (h0 (ins m c)) (ins m c).gw0) := w6_v14 m ρ c hR hp
  have e1 : V6 m ρ c main_v5 = h0 (ins m c) := (Carry.carry m ρ c 2 4 main_v5 (by decide)).trans (w2_v5 m ρ c hR)
  have e2 : V6 m ρ c main_arg5 = (ins m c).wih := Carry.carry m ρ c 0 6 main_arg5 (by decide)
  have e3 : V6 m ρ c main_v15 = (ins m c).bih := w6_v15 m ρ c
  have e4 : V6 m ρ c main_arg7 = (ins m c).whh := Carry.carry m ρ c 0 6 main_arg7 (by decide)
  have e5 : V6 m ρ c main_v16 = (ins m c).bhh := w6_v16 m ρ c
  rw [e0, e1, e2, e3, e4, e5]; rfl

theorem w8_v19 : (W8 m ρ c (Proc.devRef .tc main_v19) : Mat 128 128) = (ins m c).gw1 := by
  have e : W7 m ρ c (Proc.devRef .tc main_arg4) = m ((c : Thread nD τ).loc main_arg4) := Carry.carry m ρ c 0 7 main_arg4 (by decide)
  refine (rd_v19 (W7 m ρ c)).trans ?_
  rw [e]; exact reshape_slab1 _

theorem w8_v20 (j : S1x128.Idx) : (W8 m ρ c (Proc.devRef .tc main_v20) : Mat 1 128) j = zeroW := by
  have e : W7 m ρ c (Proc.devRef .tc main_v6) = broadcastInDim S128 ![] bcast_S_S128 (constant (F := Ideal) S_ .f32 0x00000000#32) :=
    (Carry.carry m ρ c 3 4 main_v6 (by decide)).trans (rd_v6 (W2 m ρ c))
  refine (congrFun (rd_v20 (W7 m ρ c)) j).trans ?_
  rw [e]; exact zero_row j

theorem w9_v21 (hR : RegionFacts) (hp : SrcInRange (edges m c)) :
    (W9 m ρ c (Proc.devRef .tc main_v21) : Mat 100000 128) = proj (h1 (agg (F := Ideal) (edges m c)) (ins m c)) (ins m c).gw1 := by
  refine (W9_arr m ρ c 3).trans ((hR.r3 (V8 m ρ) c).trans ?_)
  have e0 : V8 m ρ c main_v17 = h1 (agg (F := Ideal) (edges m c)) (ins m c) := (Carry.carry m ρ c 7 1 main_v17 (by decide)).trans (w7_v17 m ρ c hR hp)
  have e1 : V8 m ρ c main_v19 = (ins m c).gw1 := w8_v19 m ρ c
  rw [e0, e1]
  exact dense_zero _ _ _ (w8_v20 m ρ c)

theorem w11_v25 (hR : RegionFacts) (hp : SrcInRange (edges m c)) :
    (W11 m ρ c (Proc.devRef .tc main_v25) : Mat 100000 128) = agg (F := Ideal) (edges m c) (proj (h1 (agg (F := Ideal) (edges m c)) (ins m c)) (ins m c).gw1) := by
  have e3 : W10 m ρ c (Proc.devRef .tc main_v3) = dstOf (edges m c) := (Carry.carry m ρ c 1 9 main_v3 (by decide)).trans (rd_v3 (W0 m ρ c))
  have e1 : W9 m ρ c (Proc.devRef .tc main_v1) = srcOf (edges m c) := (Carry.carry m ρ c 1 8 main_v1 (by decide)).trans (rd_v1 (W0 m ρ c))
  have em : W9 m ρ c (Proc.devRef .tc main_v21) = proj (h1 (agg (F := Ideal) (edges m c)) (ins m c)) (ins m c).gw1 := w9_v21 m ρ c hR hp
  have e11 : W10 m ρ c (Proc.devRef .tc main_v22)
      = gath (F := Ideal) (proj (h1 (agg (F := Ideal) (edges m c)) (ins m c)) (ins m c).gw1) (wrapIdx (srcOf (edges m c))) := by
    refine (rd_v22 (W9 m ρ c)).trans ?_
    rw [e1, em]
    exact takeMasked_eq _ hp _
  refine (rd_v25 (W10 m ρ c)).trans ?_
  rw [e3, e11]; rfl

theorem w11_v26 : (W11 m ρ c (Proc.devRef .tc main_v26) : Mat 1 384) = (ins m c).bih := by
  have e : W10 m ρ c (Proc.devRef .tc main_arg6) = m ((c : Thread nD τ).loc main_arg6) := Carry.carry m ρ c 0 10 main_arg6 (by decide)
  refine (rd_v26 (W10 m ρ c)).trans ?_
  rw [e]; exact reshape_row384 _

theorem w11_v27 : (W11 m ρ c (Proc.devRef .tc main_v27) : Mat 1 384) = (ins m c).bhh := by
  have e : W10 m ρ c (Proc.devRef .tc main_arg8) = m ((c : Thread nD τ).loc main_arg8) := Carry.carry m ρ c 0 10 main_arg8 (by decide)
  refine (rd_v27 (W10 m ρ c)).trans ?_
  rw [e]; exact reshape_row384 _

theorem w12_v28 (hR : RegionFacts) (hp : SrcInRange (edges m c)) :
    (W12 m ρ c (Proc.devRef .tc main_v28) : Mat 100000 128) = h2 (agg (F := Ideal) (edges m c)) (ins m c) := by
  refine (W12_arr m ρ c 6).trans ((hR.r4 (V11 m ρ) c).trans ?_)
  have e0 : V11 m ρ c main_v25 = agg (F := Ideal) (edges m c) (proj (h1 (agg (F := Ideal) (edges m c)) (ins m c)) (ins m c).gw1) := w11_v25 m ρ c hR hp
  have e1 : V11 m ρ c main_v17 = h1 (agg (F := Ideal) (edges m c)) (ins m c) := (Carry.carry m ρ c 7 4 main_v17 (by decide)).trans (w7_v17 m ρ c hR hp)
  have e2 : V11 m ρ c main_arg5 = (ins m c).wih := Carry.carry m ρ c 0 11 main_arg5 (by decide)
  have e3 : V11 m ρ c main_v26 = (ins m c).bih := w11_v26 m ρ c
  have e4 : V11 m ρ c main_arg7 = (ins m c).whh := Carry.carry m ρ c 0 11 main_arg7 (by decide)
  have e5 : V11 m ρ c main_v27 = (ins m c).bhh := w11_v27 m ρ c
  rw [e0, e1, e2, e3, e4, e5]; rfl

theorem w13_v30 : (W13 m ρ c (Proc.devRef .tc main_v30) : Mat 128 128) = (ins m c).gw2 := by
  have e : W12 m ρ c (Proc.devRef .tc main_arg4) = m ((c : Thread nD τ).loc main_arg4) := Carry.carry m ρ c 0 12 main_arg4 (by decide)
  refine (rd_v30 (W12 m ρ c)).trans ?_
  rw [e]; exact reshape_slab2 _

theorem w13_v31 (j : S1x128.Idx) : (W13 m ρ c (Proc.devRef .tc main_v31) : Mat 1 128) j = zeroW := by
  have e : W12 m ρ c (Proc.devRef .tc main_v6) = broadcastInDim S128 ![] bcast_S_S128 (constant (F := Ideal) S_ .f32 0x00000000#32) :=
    (Carry.carry m ρ c 3 9 main_v6 (by decide)).trans (rd_v6 (W2 m ρ c))
  refine (congrFun (rd_v31 (W12 m ρ c)) j).trans ?_
  rw [e]; exact zero_row j

theorem w14_v32 (hR : RegionFacts) (hp : SrcInRange (edges m c)) :
    (W14 m ρ c (Proc.devRef .tc main_v32) : Mat 100000 128) = proj (h2 (agg (F := Ideal) (edges m c)) (ins m c)) (ins m c).gw2 := by
  refine (W14_arr m ρ c 3).trans ((hR.r5 (V13 m ρ) c).trans ?_)
  have e0 : V13 m ρ c main_v28 = h2 (agg (F := Ideal) (edges m c)) (ins m c) := (Carry.carry m ρ c 12 1 main_v28 (by decide)).trans (w12_v28 m ρ c hR hp)
  have e1 : V13 m ρ c main_v30 = (ins m c).gw2 := w13_v30 m ρ c
  rw [e0, e1]
  exact dense_zero _ _ _ (w13_v31 m ρ c)

theorem w16_v36 (hR : RegionFacts) (hp : SrcInRange (edges m c)) :
    (W16 m ρ c (Proc.devRef .tc main_v36) : Mat 100000 128) = agg (F := Ideal) (edges m c) (proj (h2 (agg (F := Ideal) (edges m c)) (ins m c)) (ins m c).gw2) := by
  have e3 : W15 m ρ c (Proc.devRef .tc main_v3) = dstOf (edges m c) := (Carry.carry m ρ c 1 14 main_v3 (by decide)).trans (rd_v3 (W0 m ρ c))
  have e1 : W14 m ρ c (Proc.devRef .tc main_v1) = srcOf (edges m c) := (Carry.carry m ρ c 1 13 main_v1 (by decide)).trans (rd_v1 (W0 m ρ c))
  have em : W14 m ρ c (Proc.devRef .tc main_v32) = proj (h2 (agg (F := Ideal) (edges m c)) (ins m c)) (ins m c).gw2 := w14_v32 m ρ c hR hp
  have e11 : W15 m ρ c (Proc.devRef .tc main_v33)
      = gath (F := Ideal) (proj (h2 (agg (F := Ideal) (edges m c)) (ins m c)) (ins m c).gw2) (wrapIdx (srcOf (edges m c))) := by
    refine (rd_v33 (W14 m ρ c)).trans ?_
    rw [e1, em]
    exact takeMasked_eq _ hp _
  refine (rd_v36 (W15 m ρ c)).trans ?_
  rw [e3, e11]; rfl

theorem w16_v37 : (W16 m ρ c (Proc.devRef .tc main_v37) : Mat 1 384) = (ins m c).bih := by
  have e : W15 m ρ c (Proc.devRef .tc main_arg6) = m ((c : Thread nD τ).loc main_arg6) := Carry.carry m ρ c 0 15 main_arg6 (by decide)
  refine (rd_v37 (W15 m ρ c)).trans ?_
  rw [e]; exact reshape_row384 _

theorem w16_v38 : (W16 m ρ c (Proc.devRef .tc main_v38) : Mat 1 384) = (ins m c).bhh := by
  have e : W15 m ρ c (Proc.devRef .tc main_arg8) = m ((c : Thread nD τ).loc main_arg8) := Carry.carry m ρ c 0 15 main_arg8 (by decide)
  refine (rd_v38 (W15 m ρ c)).trans ?_
  rw [e]; exact reshape_row384 _

theorem w17_v39 (hR : RegionFacts) (hp : SrcInRange (edges m c)) :
    (W17 m ρ c (Proc.devRef .tc main_v39) : Mat 100000 128) = h3 (agg (F := Ideal) (edges m c)) (ins m c) := by
  refine (W17_arr m ρ c 6).trans ((hR.r6 (V16 m ρ) c).trans ?_)
  have e0 : V16 m ρ c main_v36 = agg (F := Ideal) (edges m c) (proj (h2 (agg (F := Ideal) (edges m c)) (ins m c)) (ins m c).gw2) := w16_v36 m ρ c hR hp
  have e1 : V16 m ρ c main_v28 = h2 (agg (F := Ideal) (edges m c)) (ins m c) := (Carry.carry m ρ c 12 4 main_v28 (by decide)).trans (w12_v28 m ρ c hR hp)
  have e2 : V16 m ρ c main_arg5 = (ins m c).wih := Carry.carry m ρ c 0 16 main_arg5 (by decide)
  have e3 : V16 m ρ c main_v37 = (ins m c).bih := w16_v37 m ρ c
  have e4 : V16 m ρ c main_arg7 = (ins m c).whh := Carry.carry m ρ c 0 16 main_arg7 (by decide)
  have e5 : V16 m ρ c main_v38 = (ins m c).bhh := w16_v38 m ρ c
  rw [e0, e1, e2, e3, e4, e5]; rfl

theorem w18_v40 : (W18 m ρ c (Proc.devRef .tc main_v40) : ICol 100000) = (ins m c).batch := by
  have e : W17 m ρ c (Proc.devRef .tc main_arg20) = m ((c : Thread nD τ).loc main_arg20) := Carry.carry m ρ c 0 17 main_arg20 (by decide)
  refine (rd_v40 (W17 m ρ c)).trans ?_
  rw [e]; exact reshape_col _

theorem w19_sums (hR : RegionFacts) (hp : SrcInRange (edges m c)) :
    (W19 m ρ c (Proc.devRef .tc main_v41_0) : Mat 128 128) = sums (agg (F := Ideal) (edges m c)) (ins m c) := by
  refine (W19_arr m ρ c 2).trans ((hR.r7s (V18 m ρ) c).trans ?_)
  have e0 : V18 m ρ c main_v39 = h3 (agg (F := Ideal) (edges m c)) (ins m c) := (Carry.carry m ρ c 17 1 main_v39 (by decide)).trans (w17_v39 m ρ c hR hp)
  have e1 : V18 m ρ c main_v40 = (ins m c).batch := w18_v40 m ρ c
  rw [e0, e1]; rfl

theorem w19_cnt (hR : RegionFacts) : (W19 m ρ c (Proc.devRef .tc main_v41_1) : Mat 1 128) = cnt (ins m c) := by
  refine (W19_arr m ρ c 3).trans ((hR.r7c (V18 m ρ) c).trans ?_)
  have e1 : V18 m ρ c main_v40 = (ins m c).batch := w18_v40 m ρ c
  rw [e1]; rfl

theorem w20_v42 (hR : RegionFacts) : (W20 m ρ c (Proc.devRef .tc main_v42) : Mat 128 1) = cntCol (ins m c) := by
  have e : W19 m ρ c (Proc.devRef .tc main_v41_1) = cnt (ins m c) := w19_cnt m ρ c hR
  refine (rd_v42 (W19 m ρ c)).trans ?_
  rw [e]; exact transpose_cnt _

theorem w20_v43 : (W20 m ρ c (Proc.devRef .tc main_v43) : Mat 1 128) = (ins m c).db := by
  have e : W19 m ρ c (Proc.devRef .tc main_arg10) = m ((c : Thread nD τ).loc main_arg10) := Carry.carry m ρ c 0 19 main_arg10 (by decide)
  refine (rd_v43 (W19 m ρ c)).trans ?_
  rw [e]; exact reshape_row128 _

theorem w20_v44 : (W20 m ρ c (Proc.devRef .tc main_v44) : Mat 1 256) = (ins m c).lg := by
  have e : W19 m ρ c (Proc.devRef .tc main_arg11) = m ((c : Thread nD τ).loc main_arg11) := Carry.carry m ρ c 0 19 main_arg11 (by decide)
  refine (rd_v44 (W19 m ρ c)).trans ?_
  rw [e]; exact reshape_row256 _

theorem w20_v45 : (W20 m ρ c (Proc.devRef .tc main_v45) : Mat 1 256) = (ins m c).lb := by
  have e : W19 m ρ c (Proc.devRef .tc main_arg12) = m ((c : Thread nD τ).loc main_arg12) := Carry.carry m ρ c 0 19 main_arg12 (by decide)
  refine (rd_v45 (W19 m ρ c)).trans ?_
  rw [e]; exact reshape_row256 _

theorem w20_v46 : (W20 m ρ c (Proc.devRef .tc main_v46) : Mat 1 128) = (ins m c).fb := by
  have e : W19 m ρ c (Proc.devRef .tc main_arg14) = m ((c : Thread nD τ).loc main_arg14) := Carry.carry m ρ c 0 19 main_arg14 (by decide)
  refine (rd_v46 (W19 m ρ c)).trans ?_
  rw [e]; exact reshape_row128 _

theorem w20_v47 : (W20 m ρ c (Proc.devRef .tc main_v47) : Mat 1 32) = (ins m c).tb := by
  have e : W19 m ρ c (Proc.devRef .tc main_arg16) = m ((c : Thread nD τ).loc main_arg16) := Carry.carry m ρ c 0 19 main_arg16 (by decide)
  refine (rd_v47 (W19 m ρ c)).trans ?_
  rw [e]; exact reshape_row32 _

theorem w20_v48 : (W20 m ρ c (Proc.devRef .tc main_v48) : Mat 1 1) = (ins m c).mb := by
  have e : W19 m ρ c (Proc.devRef .tc main_arg18) = m ((c : Thread nD τ).loc main_arg18) := Carry.carry m ρ c 0 19 main_arg18 (by decide)
  refine (rd_v48 (W19 m ρ c)).trans ?_
  rw [e]; exact reshape_row1 _

theorem result_task (hR : RegionFacts) (hp : SrcInRange (edges m c)) :
    (W21 m ρ c (Proc.devRef .tc main_v49_0) : Mat 128 32) = task (agg (F := Ideal) (edges m c)) (ins m c) := by
  refine (W21_arr m ρ c 13).trans ((hR.r8t (V20 m ρ) c).trans ?_)
  have a1 : V20 m ρ c main_arg1 = (ins m c).doc := Carry.carry m ρ c 0 20 main_arg1 (by decide)
  have a9 : V20 m ρ c main_arg9 = (ins m c).dw := Carry.carry m ρ c 0 20 main_arg9 (by decide)
  have a13 : V20 m ρ c main_arg13 = (ins m c).fw := Carry.carry m ρ c 0 20 main_arg13 (by decide)
  have a15 : V20 m ρ c main_arg15 = (ins m c).tw := Carry.carry m ρ c 0 20 main_arg15 (by decide)
  have es : V20 m ρ c main_v41_0 = sums (agg (F := Ideal) (edges m c)) (ins m c) := (Carry.carry m ρ c 19 1 main_v41_0 (by decide)).trans (w19_sums m ρ c hR hp)
  have ec : V20 m ρ c main_v42 = cntCol (ins m c) := w20_v42 m ρ c hR
  have b43 : V20 m ρ c main_v43 = (ins m c).db := w20_v43 m ρ c
  have b44 : V20 m ρ c main_v44 = (ins m c).lg := w20_v44 m ρ c
  have b45 : V20 m ρ c main_v45 = (ins m c).lb := w20_v45 m ρ c
  have b46 : V20 m ρ c main_v46 = (ins m c).fb := w20_v46 m ρ c
  have b47 : V20 m ρ c main_v47 = (ins m c).tb := w20_v47 m ρ c
  rw [a1, a9, a13, a15, es, ec, b43, b44, b45, b46, b47]; rfl

theorem result_time (hR : RegionFacts) (hp : SrcInRange (edges m c)) :
    (W21 m ρ c (Proc.devRef .tc main_v49_1) : Mat 128 1) = time (agg (F := Ideal) (edges m c)) (ins m c) := by
  refine (W21_arr m ρ c 14).trans ((hR.r8m (V20 m ρ) c).trans ?_)
  have a1 : V20 m ρ c main_arg1 = (ins m c).doc := Carry.carry m ρ c 0 20 main_arg1 (by decide)
  have a9 : V20 m ρ c main_arg9 = (ins m c).dw := Carry.carry m ρ c 0 20 main_arg9 (by decide)
  have a13 : V20 m ρ c main_arg13 = (ins m c).fw := Carry.carry m ρ c 0 20 main_arg13 (by decide)
  have a17 : V20 m ρ c main_arg17 = (ins m c).mw := Carry.carry m ρ c 0 20 main_arg17 (by decide)
  have es : V20 m ρ c main_v41_0 = sums (agg (F := Ideal) (edges m c)) (ins m c) := (Carry.carry m ρ c 19 1 main_v41_0 (by decide)).trans (w19_sums m ρ c hR hp)
  have ec : V20 m ρ c main_v42 = cntCol (ins m c) := w20_v42 m ρ c hR
  have b43 : V20 m ρ c main_v43 = (ins m c).db := w20_v43 m ρ c
  have b44 : V20 m ρ c main_v44 = (ins m c).lg := w20_v44 m ρ c
  have b45 : V20 m ρ c main_v45 = (ins m c).lb := w20_v45 m ρ c
  have b46 : V20 m ρ c main_v46 = (ins m c).fb := w20_v46 m ρ c
  have b48 : V20 m ρ c main_v48 = (ins m c).mb := w20_v48 m ρ c
  rw [a1, a9, a13, a17, es, ec, b43, b44, b45, b46, b48]; rfl

end Cert.KVal

end
-- ==== Proof.KLin0.lean ====
import proofs.«423503_j25220047962222_1_alg».proof.Proof.Gen.KernelIdeal.Frame
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! The node projection: block t is rows 2000·t … 2000·t + 1999, the 50 blocks tile the output, and entry (r, q) is relu of row r of x against column q of W plus b[q]. -/

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

namespace NodeProj

theorem zeroOffsets : (![0, 0] : Fin 2 → Nat) = fun _ => 0 :=
  funext fun a => match a with | ⟨0, _⟩ => rfl | ⟨1, _⟩ => rfl

theorem leftRow (i : S2000x128.Idx) (r : dot_S2000x64_S64x128_S2000x128_1_0_0_1_n_n.contr.Idx) :
    (dot_S2000x64_S64x128_S2000x128_1_0_0_1_n_n.lhsIdx i r 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl

theorem leftCol (i : S2000x128.Idx) (r : dot_S2000x64_S64x128_S2000x128_1_0_0_1_n_n.contr.Idx) :
    (dot_S2000x64_S64x128_S2000x128_1_0_0_1_n_n.lhsIdx i r 1).val = (r ⟨0, by decide⟩).val :=
  dot_S2000x64_S64x128_S2000x128_1_0_0_1_n_n.lhsIdx_val_of_single rfl i r

theorem rightRow (i : S2000x128.Idx) (r : dot_S2000x64_S64x128_S2000x128_1_0_0_1_n_n.contr.Idx) :
    (dot_S2000x64_S64x128_S2000x128_1_0_0_1_n_n.rhsIdx i r 0).val = (r ⟨0, by decide⟩).val :=
  dot_S2000x64_S64x128_S2000x128_1_0_0_1_n_n.rhsIdx_val_of_single rfl i r

theorem rightCol (i : S2000x128.Idx) (r : dot_S2000x64_S64x128_S2000x128_1_0_0_1_n_n.contr.Idx) :
    (dot_S2000x64_S64x128_S2000x128_1_0_0_1_n_n.rhsIdx i r 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

theorem product_at (x : FVec Ideal S2000x64 .bf16) (w : FVec Ideal S64x128 .bf16) (p : Fin 2000) (q : Fin 128) :
    matmul dot_S2000x64_S64x128_S2000x128_1_0_0_1_n_n none x w (constant (F := Ideal) S2000x128 .f32 0x00000000#32) (ix2 p q)
      = ∑ l : Fin 64, x (ix2 p l) * w (ix2 l q) := by
  simp only [matmul]
  rw [Ideal.matmul_constant_zero_apply, ← Equiv.sum_comp (contrEquiv1 dot_S2000x64_S64x128_S2000x128_1_0_0_1_n_n 64 rfl rfl).symm]
  refine Finset.sum_congr rfl fun l _ => ?_
  have hl := contrEquiv1_symm_val dot_S2000x64_S64x128_S2000x128_1_0_0_1_n_n 64 rfl rfl l
  have el : dot_S2000x64_S64x128_S2000x128_1_0_0_1_n_n.lhsIdx (ix2 p q) ((contrEquiv1 dot_S2000x64_S64x128_S2000x128_1_0_0_1_n_n 64 rfl rfl).symm l) = ix2 p l := funext fun a => Fin.ext (by
    match a with
    | ⟨0, _⟩ => exact leftRow _ _
    | ⟨1, _⟩ => exact (leftCol _ _).trans hl)
  have er : dot_S2000x64_S64x128_S2000x128_1_0_0_1_n_n.rhsIdx (ix2 p q) ((contrEquiv1 dot_S2000x64_S64x128_S2000x128_1_0_0_1_n_n 64 rfl rfl).symm l) = ix2 l q := funext fun a => Fin.ext (by
    match a with
    | ⟨0, _⟩ => exact (rightRow _ _).trans hl
    | ⟨1, _⟩ => exact rightCol _ _)
  rw [el, er]

theorem payload_at (x : Vec Ideal S2000x64 .f32) (w : Vec Ideal S64x128 .f32) (b : Vec Ideal S1x128 .f32)
    (p : Fin 2000) (q : Fin 128) :
    k0_pay1 (F := Ideal) x w b (ix2 p q)
      = max ((∑ l : Fin 64, x (ix2 p l) * w (ix2 l q)) + b (ix2 (0 : Fin 1) q)) (Ideal.ofBits .f32 0x00000000#32) := by
  unfold k0_pay1
  rw [maximumf_apply, addf_apply, broadcast_apply, product_at, shapeCast_self, broadcastTo_1b_ab_apply]
  simp only [truncf_apply]
  rfl

end NodeProj

variable (V : (c : Dev nD) → (b : Ref sig .tc) → Buf (Elt Ideal) ((c : Thread nD τ).loc b))

namespace NodeProj

theorem entry_eq (x : Vec Ideal S2000x64 .f32) (w : Vec Ideal S64x128 .f32) (b : Vec Ideal S1x128 .f32)
    (X : Mat 100000 64) (W : Mat 64 128) (B : Mat 1 128) (j : S2000x128.Idx) (i : S100000x128.Idx)
    (hq : (i 1).val = (j 1).val)
    (hx : ∀ l : Fin 64, x (ix2 (j 0) l) = X (ix2 (i 0) l))
    (hw : ∀ (l : Fin 64) (q : Fin 128), w (ix2 l q) = W (ix2 l q))
    (hb : ∀ q : Fin 128, b (ix2 (0 : Fin 1) q) = B (ix2 (0 : Fin 1) q)) :
    k0_pay1 (F := Ideal) x w b j = relu (dense X W B) i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hq
  subst hs
  have hx' : ∀ l : Fin 64, x (ix2 p l) = X (ix2 r l) := hx
  rw [payload_at, hb, Finset.sum_congr rfl fun l _ => by rw [hx' l, hw l]]
  rfl

theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem writtenBack_eq (c : Dev nD) (t : Fin cfg0.N) :
    (dat0 (F := Ideal) V c).flushed 3 t
      = ((cfg0.win 3).blk t).view.read (Elt Ideal) (relu (dense (n := 100000) (k := 64) (h := 128) (V c main_arg0) (V c main_arg2) (V c main_v4))) := by
  show (cfg0.win 3).cut (grid0.coords t) ((dat0 (F := Ideal) V c).after 3 t) = _
  rw [after0_3]
  unfold out0_3
  rw [View.canon_unit_zero zeroOffsets]
  simp only [View.ld_unit_zero (S := S2000x64) zeroOffsets, View.ld_unit_zero (S := S64x128) zeroOffsets,
    View.ld_unit_zero (S := S1x128) zeroOffsets]
  obtain ⟨e00, e01, e10, e11, e20, e21, e30, e31⟩ := blockIndices t
  funext j
  show k0_pay1 (F := Ideal) (iblk0 V c 0 t) (iblk0 V c 1 t) (iblk0 V c 2 t) j
    = relu (dense (n := 100000) (k := 64) (h := 128) (V c main_arg0) (V c main_arg2) (V c main_v4)) (((cfg0.win 3).blk t).view.emb j)
  refine entry_eq (iblk0 V c 0 t) (iblk0 V c 1 t) (iblk0 V c 2 t) (V c main_arg0) (V c main_arg2) (V c main_v4) j
    (((cfg0.win 3).blk t).view.emb j) ?_ ?_ ?_ ?_
  ·
    show win0_3.index t (1 : Fin 2) * 128 + 1 * (j 1).val = (j 1).val
    omega
  ·
    intro l
    show V c main_arg0 (((cfg0.win 0).blk t).view.emb (ix2 (j 0) l)) = V c main_arg0 (ix2 ((((cfg0.win 3).blk t).view.emb j) 0) l)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 64 + 1 * l.val = l.val; omega
  ·
    intro l q
    show V c main_arg2 (((cfg0.win 1).blk t).view.emb (ix2 l q)) = V c main_arg2 (ix2 l q)
    refine congrArg (V c main_arg2) (funext fun a => Fin.ext ?_)
    match a with
    | ⟨0, _⟩ => show win0_1.index t (0 : Fin 2) * 64 + 1 * l.val = l.val; omega
    | ⟨1, _⟩ => show win0_1.index t (1 : Fin 2) * 128 + 1 * q.val = q.val; omega
  ·
    intro q
    show V c main_v4 (((cfg0.win 2).blk t).view.emb (ix2 (0 : Fin 1) q)) = V c main_v4 (ix2 (0 : Fin 1) q)
    refine congrArg (V c main_v4) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega

theorem mem_block (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v5).slice (win0_3.rect t)).set ↔ _
  rw [View.set_slice_whole, Rect.mem_set_unit]
  exact Iff.rfl

theorem covered (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  have hN : grid0.N = 50 := N_0
  have ht : (i 0).val / 2000 < grid0.N := by rw [hN]; omega
  obtain ⟨-, -, -, -, -, -, e30, e31⟩ := blockIndices ⟨(i 0).val / 2000, ht⟩
  refine ⟨⟨(i 0).val / 2000, ht⟩, flush0_3 _, ?_⟩
  rw [mem_block]
  have e30' : win0_3.index ⟨(i 0).val / 2000, ht⟩ (0 : Fin 2) = (i 0).val / 2000 := e30
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    omega

end NodeProj

theorem region0 (c : Dev nD) :
    (dat0 (F := Ideal) V c).arrAt 3 cfg0.N
      = relu (dense (n := 100000) (k := 64) (h := 128) (V c main_arg0) (V c main_arg2) (V c main_v4)) :=
  (dat0 (F := Ideal) V c).arrAt_eq_of_cover 3 _ (fun t _ => NodeProj.writtenBack_eq V c t) NodeProj.covered

end Cert.KVal

end
-- ==== Proof.KLin1.lean ====
import proofs.«423503_j25220047962222_1_alg».proof.Proof.Gen.KernelIdeal.Frame
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! A message projection. The body's arithmetic at (p, q) is row p of the state block against column q of the weights plus the bias at q: stated once, for all three layers. Then layer 1's region: block t is rows 2000·t … 2000·t + 1999, and the 50 blocks tile the output. -/

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero_off : (![0, 0] : Fin 2 → Nat) = fun _ => 0 := funext fun a => by fin_cases a <;> rfl

private theorem lhs_lin1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhs_lin1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem rhs_lin1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem rhs_lin1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

private theorem matmul_lin1_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ l : Fin 128, x (ix2 p l) * w (ix2 l q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun l _ => ?_
  have hl := ValueIdx.contrEquiv1_symm_val dot_S2000x128_S128x128_S2000x128_1_0_0_1_n_n 128 rfl rfl l
  have el : dot_S2000x128_S128x128_S2000x128_1_0_0_1_n_n.lhsIdx (ix2 p q) ((ValueIdx.contrEquiv1 dot_S2000x128_S128x128_S2000x128_1_0_0_1_n_n 128 rfl rfl).symm l) = ix2 p l := funext fun a => Fin.ext (by
    match a with
    | ⟨0, _⟩ => exact lhs_lin1_0 _ _
    | ⟨1, _⟩ => exact (lhs_lin1_1 _ _).trans hl)
  have er : dot_S2000x128_S128x128_S2000x128_1_0_0_1_n_n.rhsIdx (ix2 p q) ((ValueIdx.contrEquiv1 dot_S2000x128_S128x128_S2000x128_1_0_0_1_n_n 128 rfl rfl).symm l) = ix2 l q := funext fun a => Fin.ext (by
    match a with
    | ⟨0, _⟩ => exact (rhs_lin1_0 _ _).trans hl
    | ⟨1, _⟩ => exact rhs_lin1_1 _ _)
  rw [el, er]

private theorem bias_lin1_apply (b : Vec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

private theorem pay_lin1_apply (x0 : Vec Ideal S2000x128 .f32) (x1 : Vec Ideal S128x128 .f32) (x2 : Vec Ideal S1x128 .f32)
    (p : Fin 2000) (q : Fin 128) :
    (k1_pay1 (F := Ideal) x0 x1 x2) (ix2 p q) = (∑ l : Fin 128, x0 (ix2 p l) * x1 (ix2 l q)) + x2 (ix2 0 q) := by
  unfold k1_pay1
  simp only [shapeCast_self]
  refine (addf_apply _ _ _).trans ?_
  rw [matmul_lin1_apply, bias_lin1_apply]
  rfl

theorem dense_pay (x0 : Vec Ideal S2000x128 .f32) (x1 : Vec Ideal S128x128 .f32) (x2 : Vec Ideal S1x128 .f32)
    (X : Mat 100000 128) (W : Mat 128 128) (B : Mat 1 128) (p : Fin 2000) (q : Fin 128) (r : Fin 100000)
    (hx : ∀ l : Fin 128, x0 (ix2 p l) = X (ix2 r l)) (hw : ∀ l : Fin 128, x1 (ix2 l q) = W (ix2 l q))
    (hb : x2 (ix2 0 q) = B (ix2 0 q)) :
    (k1_pay1 (F := Ideal) x0 x1 x2) (ix2 p q) = dense X W B (ix2 r q) := by
  refine (pay_lin1_apply x0 x1 x2 p q).trans ?_
  show _ = (∑ l : Fin 128, X (ix2 r l) * W (ix2 l q)) + B (ix2 0 q)
  rw [hb]
  exact congrArg (· + B (ix2 0 q)) (Finset.sum_congr rfl fun l _ => by rw [hx l, hw l])

section Region

variable (V : (c : Dev nD) → (b : Ref sig .tc) → Buf (Elt Ideal) ((c : Thread nD τ).loc b))

private theorem idx_lin1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

private theorem xblk_lin1_apply (c : Dev nD) (t : Fin cfg1.N) (p : Fin 2000) (l : Fin 128) (r : Fin 100000)
    (hr : r.val = 2000 * t.val + p.val) :
    (iblk1 (F := Ideal) V c 0 t : Vec Ideal S2000x128 .f32) (ix2 p l) = (V c main_v5 : S100000x128.Idx → EReal) (ix2 r l) := by
  obtain ⟨e0, e1, -⟩ := idx_lin1 t
  unfold iblk1
  rw [View.read_apply]
  show V c main_v5 _ = V c main_v5 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * l.val = l.val; rw [e1]; omega

private theorem wblk_lin1_apply (c : Dev nD) (t : Fin cfg1.N) (l : Fin 128) (q : Fin 128) :
    (iblk1 (F := Ideal) V c 1 t : Vec Ideal S128x128 .f32) (ix2 l q) = (V c main_v8 : S128x128.Idx → EReal) (ix2 l q) := by
  obtain ⟨-, -, e2, e3, -⟩ := idx_lin1 t
  unfold iblk1
  rw [View.read_apply]
  show V c main_v8 _ = V c main_v8 _
  congr 1
  funext a
  apply Fin.ext
  match a with
  | ⟨0, _⟩ => show win1_1.index t (0 : Fin 2) * 128 + 1 * l.val = l.val; rw [e2]; omega
  | ⟨1, _⟩ => show win1_1.index t (1 : Fin 2) * 128 + 1 * q.val = q.val; rw [e3]; omega

private theorem bblk_lin1_apply (c : Dev nD) (t : Fin cfg1.N) (q : Fin 128) :
    (iblk1 (F := Ideal) V c 2 t : Vec Ideal S1x128 .f32) (ix2 0 q) = (V c main_v9 : S1x128.Idx → EReal) (ix2 0 q) := by
  obtain ⟨-, -, -, -, e4, e5, -⟩ := idx_lin1 t
  unfold iblk1
  rw [View.read_apply]
  show V c main_v9 _ = V c main_v9 _
  congr 1
  funext a
  apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

private theorem flushed_lin1 (c : Dev nD) (t : Fin cfg1.N) :
    (dat1 (F := Ideal) V c).flushed 3 t
      = ((cfg1.win 3).blk t).view.read (Elt Ideal)
          (dense (n := 100000) (k := 128) (h := 128) (V c main_v5) (V c main_v8) (V c main_v9)) := by
  show (cfg1.win 3).cut (grid1.coords t) ((dat1 (F := Ideal) V c).after 3 t) = _
  rw [after1_3]
  unfold out1_3
  rw [View.canon_unit_zero zero_off]
  simp only [View.ld_unit_zero (S := S2000x128) zero_off, View.ld_unit_zero (S := S128x128) zero_off,
    View.ld_unit_zero (S := S1x128) zero_off]
  obtain ⟨-, -, -, -, -, -, e6, e7⟩ := idx_lin1 t
  have hN : grid1.N = 50 := N_1
  have ht : t.val < 50 := hN ▸ t.isLt
  funext j
  obtain ⟨p, q, rfl⟩ : ∃ (p : Fin 2000) (q : Fin 128), j = ix2 p q := ⟨j 0, j 1, eq_ix2 j⟩
  have hemb : ((cfg1.win 3).blk t).view.emb (ix2 p q) = (ix2 (⟨2000 * t.val + p.val, by have := p.isLt; omega⟩ : Fin 100000) q : S100000x128.Idx) := by
    funext a
    apply Fin.ext
    match a with
    | ⟨0, _⟩ => show win1_3.index t (0 : Fin 2) * 2000 + 1 * p.val = 2000 * t.val + p.val; rw [e6]; omega
    | ⟨1, _⟩ => show win1_3.index t (1 : Fin 2) * 128 + 1 * q.val = q.val; rw [e7]; omega
  rw [View.read_apply, hemb]
  exact dense_pay (iblk1 (F := Ideal) V c 0 t) (iblk1 (F := Ideal) V c 1 t) (iblk1 (F := Ideal) V c 2 t)
    (V c main_v5) (V c main_v8) (V c main_v9) p q ⟨2000 * t.val + p.val, by have := p.isLt; omega⟩
    (fun l => xblk_lin1_apply V c t p l _ rfl) (fun l => wblk_lin1_apply V c t l q) (bblk_lin1_apply V c t q)

private theorem mem_blk_lin1 (t : Fin cfg1.N) (i : S100000x128.Idx) :
    i ∈ ((cfg1.win 3).blk t).view.set
      ↔ ∀ a : Fin 2, win1_3.index t a * S2000x128.size a ≤ (i a).val ∧ (i a).val < win1_3.index t a * S2000x128.size a + S2000x128.size a := by
  show i ∈ ((View.whole main_v10).slice (win1_3.rect t)).set ↔ _
  rw [View.set_slice_whole, Rect.mem_set_unit]
  exact Iff.rfl

private theorem cover_lin1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 50 := N_1
  obtain ⟨t, ht⟩ : ∃ t : Fin cfg1.N, t.val = (i 0).val / 2000 :=
    ⟨⟨(i 0).val / 2000, by show (i 0).val / 2000 < grid1.N; rw [hN]; omega⟩, rfl⟩
  obtain ⟨-, -, -, -, -, -, e6, e7⟩ := idx_lin1 t
  refine ⟨t, flush1_3 t, ?_⟩
  rw [mem_blk_lin1]
  intro a
  match a with
  | ⟨0, _⟩ => show win1_3.index t (0 : Fin 2) * 2000 ≤ (i 0).val ∧ (i 0).val < win1_3.index t (0 : Fin 2) * 2000 + 2000; rw [e6, ht]; omega
  | ⟨1, _⟩ => show win1_3.index t (1 : Fin 2) * 128 ≤ (i 1).val ∧ (i 1).val < win1_3.index t (1 : Fin 2) * 128 + 128; rw [e7]; omega

theorem region1 (c : Dev nD) :
    (dat1 (F := Ideal) V c).arrAt 3 cfg1.N
      = dense (n := 100000) (k := 128) (h := 128) (V c main_v5) (V c main_v8) (V c main_v9) :=
  (dat1 (F := Ideal) V c).arrAt_eq_of_cover 3 _ (fun t _ => flushed_lin1 V c t) cover_lin1

end Region

end Cert.KVal

end
-- ==== Proof.KLin3.lean ====
import proofs.«423503_j25220047962222_1_alg».proof.Proof.KLin1

set_option maxRecDepth 16384

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

section Region

variable (V : (c : Dev nD) → (b : Ref sig .tc) → Buf (Elt Ideal) ((c : Thread nD τ).loc b))

private theorem idx_lin3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

private theorem xblk_lin3_apply (c : Dev nD) (t : Fin cfg3.N) (p : Fin 2000) (l : Fin 128) (r : Fin 100000)
    (hr : r.val = 2000 * t.val + p.val) :
    (iblk3 (F := Ideal) V c 0 t : Vec Ideal S2000x128 .f32) (ix2 p l) = (V c main_v17 : S100000x128.Idx → EReal) (ix2 r l) := by
  obtain ⟨e0, e1, -⟩ := idx_lin3 t
  unfold iblk3
  rw [View.read_apply]
  show V c main_v17 _ = V c main_v17 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * l.val = l.val; rw [e1]; omega

private theorem wblk_lin3_apply (c : Dev nD) (t : Fin cfg3.N) (l : Fin 128) (q : Fin 128) :
    (iblk3 (F := Ideal) V c 1 t : Vec Ideal S128x128 .f32) (ix2 l q) = (V c main_v19 : S128x128.Idx → EReal) (ix2 l q) := by
  obtain ⟨-, -, e2, e3, -⟩ := idx_lin3 t
  unfold iblk3
  rw [View.read_apply]
  show V c main_v19 _ = V c main_v19 _
  congr 1
  funext a
  apply Fin.ext
  match a with
  | ⟨0, _⟩ => show win3_1.index t (0 : Fin 2) * 128 + 1 * l.val = l.val; rw [e2]; omega
  | ⟨1, _⟩ => show win3_1.index t (1 : Fin 2) * 128 + 1 * q.val = q.val; rw [e3]; omega

private theorem bblk_lin3_apply (c : Dev nD) (t : Fin cfg3.N) (q : Fin 128) :
    (iblk3 (F := Ideal) V c 2 t : Vec Ideal S1x128 .f32) (ix2 0 q) = (V c main_v20 : S1x128.Idx → EReal) (ix2 0 q) := by
  obtain ⟨-, -, -, -, e4, e5, -⟩ := idx_lin3 t
  unfold iblk3
  rw [View.read_apply]
  show V c main_v20 _ = V c main_v20 _
  congr 1
  funext a
  apply Fin.ext
  match a with
  | ⟨0, _⟩ => show win3_2.index t (0 : Fin 2) * 1 + 1 * 0 = 0; rw [e4]
  | ⟨1, _⟩ => show win3_2.index t (1 : Fin 2) * 128 + 1 * q.val = q.val; rw [e5]; omega

private theorem flushed_lin3 (c : Dev nD) (t : Fin cfg3.N) :
    (dat3 (F := Ideal) V c).flushed 3 t
      = ((cfg3.win 3).blk t).view.read (Elt Ideal)
          (dense (n := 100000) (k := 128) (h := 128) (V c main_v17) (V c main_v19) (V c main_v20)) := by
  show (cfg3.win 3).cut (grid3.coords t) ((dat3 (F := Ideal) V c).after 3 t) = _
  rw [after3_3]
  unfold out3_3
  rw [View.canon_unit_zero zero_off]
  simp only [View.ld_unit_zero (S := S2000x128) zero_off, View.ld_unit_zero (S := S128x128) zero_off,
    View.ld_unit_zero (S := S1x128) zero_off]
  obtain ⟨-, -, -, -, -, -, e6, e7⟩ := idx_lin3 t
  have hN : grid3.N = 50 := N_3
  have ht : t.val < 50 := hN ▸ t.isLt
  funext j
  obtain ⟨p, q, rfl⟩ : ∃ (p : Fin 2000) (q : Fin 128), j = ix2 p q := ⟨j 0, j 1, eq_ix2 j⟩
  have hemb : ((cfg3.win 3).blk t).view.emb (ix2 p q) = (ix2 (⟨2000 * t.val + p.val, by have := p.isLt; omega⟩ : Fin 100000) q : S100000x128.Idx) := by
    funext a
    apply Fin.ext
    match a with
    | ⟨0, _⟩ => show win3_3.index t (0 : Fin 2) * 2000 + 1 * p.val = 2000 * t.val + p.val; rw [e6]; omega
    | ⟨1, _⟩ => show win3_3.index t (1 : Fin 2) * 128 + 1 * q.val = q.val; rw [e7]; omega
  rw [View.read_apply, hemb]
  exact dense_pay (iblk3 (F := Ideal) V c 0 t) (iblk3 (F := Ideal) V c 1 t) (iblk3 (F := Ideal) V c 2 t)
    (V c main_v17) (V c main_v19) (V c main_v20) p q ⟨2000 * t.val + p.val, by have := p.isLt; omega⟩
    (fun l => xblk_lin3_apply V c t p l _ rfl) (fun l => wblk_lin3_apply V c t l q) (bblk_lin3_apply V c t q)

private theorem mem_blk_lin3 (t : Fin cfg3.N) (i : S100000x128.Idx) :
    i ∈ ((cfg3.win 3).blk t).view.set
      ↔ ∀ a : Fin 2, win3_3.index t a * S2000x128.size a ≤ (i a).val ∧ (i a).val < win3_3.index t a * S2000x128.size a + S2000x128.size a := by
  show i ∈ ((View.whole main_v21).slice (win3_3.rect t)).set ↔ _
  rw [View.set_slice_whole, Rect.mem_set_unit]
  exact Iff.rfl

private theorem cover_lin3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 50 := N_3
  obtain ⟨t, ht⟩ : ∃ t : Fin cfg3.N, t.val = (i 0).val / 2000 :=
    ⟨⟨(i 0).val / 2000, by show (i 0).val / 2000 < grid3.N; rw [hN]; omega⟩, rfl⟩
  obtain ⟨-, -, -, -, -, -, e6, e7⟩ := idx_lin3 t
  refine ⟨t, flush3_3 t, ?_⟩
  rw [mem_blk_lin3]
  intro a
  match a with
  | ⟨0, _⟩ => show win3_3.index t (0 : Fin 2) * 2000 ≤ (i 0).val ∧ (i 0).val < win3_3.index t (0 : Fin 2) * 2000 + 2000; rw [e6, ht]; omega
  | ⟨1, _⟩ => show win3_3.index t (1 : Fin 2) * 128 ≤ (i 1).val ∧ (i 1).val < win3_3.index t (1 : Fin 2) * 128 + 128; rw [e7]; omega

theorem region3 (c : Dev nD) :
    (dat3 (F := Ideal) V c).arrAt 3 cfg3.N
      = dense (n := 100000) (k := 128) (h := 128) (V c main_v17) (V c main_v19) (V c main_v20) :=
  (dat3 (F := Ideal) V c).arrAt_eq_of_cover 3 _ (fun t _ => flushed_lin3 V c t) cover_lin3

end Region

end Cert.KVal

end
-- ==== Proof.KLin5.lean ====
import proofs.«423503_j25220047962222_1_alg».proof.Proof.KLin1

set_option maxRecDepth 16384

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

section Region

variable (V : (c : Dev nD) → (b : Ref sig .tc) → Buf (Elt Ideal) ((c : Thread nD τ).loc b))

private theorem idx_lin5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

private theorem xblk_lin5_apply (c : Dev nD) (t : Fin cfg5.N) (p : Fin 2000) (l : Fin 128) (r : Fin 100000)
    (hr : r.val = 2000 * t.val + p.val) :
    (iblk5 (F := Ideal) V c 0 t : Vec Ideal S2000x128 .f32) (ix2 p l) = (V c main_v28 : S100000x128.Idx → EReal) (ix2 r l) := by
  obtain ⟨e0, e1, -⟩ := idx_lin5 t
  unfold iblk5
  rw [View.read_apply]
  show V c main_v28 _ = V c main_v28 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * l.val = l.val; rw [e1]; omega

private theorem wblk_lin5_apply (c : Dev nD) (t : Fin cfg5.N) (l : Fin 128) (q : Fin 128) :
    (iblk5 (F := Ideal) V c 1 t : Vec Ideal S128x128 .f32) (ix2 l q) = (V c main_v30 : S128x128.Idx → EReal) (ix2 l q) := by
  obtain ⟨-, -, e2, e3, -⟩ := idx_lin5 t
  unfold iblk5
  rw [View.read_apply]
  show V c main_v30 _ = V c main_v30 _
  congr 1
  funext a
  apply Fin.ext
  match a with
  | ⟨0, _⟩ => show win5_1.index t (0 : Fin 2) * 128 + 1 * l.val = l.val; rw [e2]; omega
  | ⟨1, _⟩ => show win5_1.index t (1 : Fin 2) * 128 + 1 * q.val = q.val; rw [e3]; omega

private theorem bblk_lin5_apply (c : Dev nD) (t : Fin cfg5.N) (q : Fin 128) :
    (iblk5 (F := Ideal) V c 2 t : Vec Ideal S1x128 .f32) (ix2 0 q) = (V c main_v31 : S1x128.Idx → EReal) (ix2 0 q) := by
  obtain ⟨-, -, -, -, e4, e5, -⟩ := idx_lin5 t
  unfold iblk5
  rw [View.read_apply]
  show V c main_v31 _ = V c main_v31 _
  congr 1
  funext a
  apply Fin.ext
  match a with
  | ⟨0, _⟩ => show win5_2.index t (0 : Fin 2) * 1 + 1 * 0 = 0; rw [e4]
  | ⟨1, _⟩ => show win5_2.index t (1 : Fin 2) * 128 + 1 * q.val = q.val; rw [e5]; omega

private theorem flushed_lin5 (c : Dev nD) (t : Fin cfg5.N) :
    (dat5 (F := Ideal) V c).flushed 3 t
      = ((cfg5.win 3).blk t).view.read (Elt Ideal)
          (dense (n := 100000) (k := 128) (h := 128) (V c main_v28) (V c main_v30) (V c main_v31)) := by
  show (cfg5.win 3).cut (grid5.coords t) ((dat5 (F := Ideal) V c).after 3 t) = _
  rw [after5_3]
  unfold out5_3
  rw [View.canon_unit_zero zero_off]
  simp only [View.ld_unit_zero (S := S2000x128) zero_off, View.ld_unit_zero (S := S128x128) zero_off,
    View.ld_unit_zero (S := S1x128) zero_off]
  obtain ⟨-, -, -, -, -, -, e6, e7⟩ := idx_lin5 t
  have hN : grid5.N = 50 := N_5
  have ht : t.val < 50 := hN ▸ t.isLt
  funext j
  obtain ⟨p, q, rfl⟩ : ∃ (p : Fin 2000) (q : Fin 128), j = ix2 p q := ⟨j 0, j 1, eq_ix2 j⟩
  have hemb : ((cfg5.win 3).blk t).view.emb (ix2 p q) = (ix2 (⟨2000 * t.val + p.val, by have := p.isLt; omega⟩ : Fin 100000) q : S100000x128.Idx) := by
    funext a
    apply Fin.ext
    match a with
    | ⟨0, _⟩ => show win5_3.index t (0 : Fin 2) * 2000 + 1 * p.val = 2000 * t.val + p.val; rw [e6]; omega
    | ⟨1, _⟩ => show win5_3.index t (1 : Fin 2) * 128 + 1 * q.val = q.val; rw [e7]; omega
  rw [View.read_apply, hemb]
  exact dense_pay (iblk5 (F := Ideal) V c 0 t) (iblk5 (F := Ideal) V c 1 t) (iblk5 (F := Ideal) V c 2 t)
    (V c main_v28) (V c main_v30) (V c main_v31) p q ⟨2000 * t.val + p.val, by have := p.isLt; omega⟩
    (fun l => xblk_lin5_apply V c t p l _ rfl) (fun l => wblk_lin5_apply V c t l q) (bblk_lin5_apply V c t q)

private theorem mem_blk_lin5 (t : Fin cfg5.N) (i : S100000x128.Idx) :
    i ∈ ((cfg5.win 3).blk t).view.set
      ↔ ∀ a : Fin 2, win5_3.index t a * S2000x128.size a ≤ (i a).val ∧ (i a).val < win5_3.index t a * S2000x128.size a + S2000x128.size a := by
  show i ∈ ((View.whole main_v32).slice (win5_3.rect t)).set ↔ _
  rw [View.set_slice_whole, Rect.mem_set_unit]
  exact Iff.rfl

private theorem cover_lin5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : grid5.N = 50 := N_5
  obtain ⟨t, ht⟩ : ∃ t : Fin cfg5.N, t.val = (i 0).val / 2000 :=
    ⟨⟨(i 0).val / 2000, by show (i 0).val / 2000 < grid5.N; rw [hN]; omega⟩, rfl⟩
  obtain ⟨-, -, -, -, -, -, e6, e7⟩ := idx_lin5 t
  refine ⟨t, flush5_3 t, ?_⟩
  rw [mem_blk_lin5]
  intro a
  match a with
  | ⟨0, _⟩ => show win5_3.index t (0 : Fin 2) * 2000 ≤ (i 0).val ∧ (i 0).val < win5_3.index t (0 : Fin 2) * 2000 + 2000; rw [e6, ht]; omega
  | ⟨1, _⟩ => show win5_3.index t (1 : Fin 2) * 128 ≤ (i 1).val ∧ (i 1).val < win5_3.index t (1 : Fin 2) * 128 + 128; rw [e7]; omega

theorem region5 (c : Dev nD) :
    (dat5 (F := Ideal) V c).arrAt 3 cfg5.N
      = dense (n := 100000) (k := 128) (h := 128) (V c main_v28) (V c main_v30) (V c main_v31) :=
  (dat5 (F := Ideal) V c).arrAt_eq_of_cover 3 _ (fun t _ => flushed_lin5 V c t) cover_lin5

end Region

end Cert.KVal

end
-- ==== Proof.KGru2.lean ====
import proofs.«423503_j25220047962222_1_alg».proof.Proof.Gen.KernelIdeal.Frame
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! A GRU cell. Entry (p, q) of a block depends on the messages and the state through their row p only, and the body's arithmetic there is the specification's cell: stated once, for all three layers. Then layer 1's region: block t is rows 1000·t … 1000·t + 999, and the 100 blocks tile the output. -/

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem gruDot2_lhs_0 (i : S1000x384.Idx) (k : dot_S1000x128_S128x384_S1000x384_1_0_0_1_n_n.contr.Idx) :
    (dot_S1000x128_S128x384_S1000x384_1_0_0_1_n_n.lhsIdx i k 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl

theorem gruDot2_lhs_1 (i : S1000x384.Idx) (k : dot_S1000x128_S128x384_S1000x384_1_0_0_1_n_n.contr.Idx) :
    (dot_S1000x128_S128x384_S1000x384_1_0_0_1_n_n.lhsIdx i k 1).val = (k ⟨0, by decide⟩).val :=
  dot_S1000x128_S128x384_S1000x384_1_0_0_1_n_n.lhsIdx_val_of_single rfl i k

theorem gruDot2_rhs_0 (i : S1000x384.Idx) (k : dot_S1000x128_S128x384_S1000x384_1_0_0_1_n_n.contr.Idx) :
    (dot_S1000x128_S128x384_S1000x384_1_0_0_1_n_n.rhsIdx i k 0).val = (k ⟨0, by decide⟩).val :=
  dot_S1000x128_S128x384_S1000x384_1_0_0_1_n_n.rhsIdx_val_of_single rfl i k

theorem gruDot2_rhs_1 (i : S1000x384.Idx) (k : dot_S1000x128_S128x384_S1000x384_1_0_0_1_n_n.contr.Idx) :
    (dot_S1000x128_S128x384_S1000x384_1_0_0_1_n_n.rhsIdx i k 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

theorem gruMatmul2 (x : FVec Ideal S1000x128 .bf16) (w : FVec Ideal S128x384 .bf16) (p : Fin 1000) (j : Fin 384) :
    matmul dot_S1000x128_S128x384_S1000x384_1_0_0_1_n_n none x w (constant (F := Ideal) S1000x384 .f32 0x00000000#32) (ix2 p j)
      = ∑ l : Fin 128, x (ix2 p l) * w (ix2 l j) := by
  refine (Ideal.matmul_constant_zero_apply dot_S1000x128_S128x384_S1000x384_1_0_0_1_n_n none x w (ix2 p j)).trans ?_
  rw [← Equiv.sum_comp (contrEquiv1 dot_S1000x128_S128x384_S1000x384_1_0_0_1_n_n 128 rfl rfl).symm]
  refine Finset.sum_congr rfl fun l _ => ?_
  have hl := contrEquiv1_symm_val dot_S1000x128_S128x384_S1000x384_1_0_0_1_n_n 128 rfl rfl l
  have el : dot_S1000x128_S128x384_S1000x384_1_0_0_1_n_n.lhsIdx (ix2 p j) ((contrEquiv1 dot_S1000x128_S128x384_S1000x384_1_0_0_1_n_n 128 rfl rfl).symm l) = ix2 p l := funext fun a => Fin.ext (by
    match a with
    | ⟨0, _⟩ => exact gruDot2_lhs_0 _ _
    | ⟨1, _⟩ => exact (gruDot2_lhs_1 _ _).trans hl)
  have er : dot_S1000x128_S128x384_S1000x384_1_0_0_1_n_n.rhsIdx (ix2 p j) ((contrEquiv1 dot_S1000x128_S128x384_S1000x384_1_0_0_1_n_n 128 rfl rfl).symm l) = ix2 l j := funext fun a => Fin.ext (by
    match a with
    | ⟨0, _⟩ => exact (gruDot2_rhs_0 _ _).trans hl
    | ⟨1, _⟩ => exact gruDot2_rhs_1 _ _)
  rw [el, er]

theorem gruProj2 (x : FVec Ideal S1000x128 .f32) (w : FVec Ideal S128x384 .f32) (p : Fin 1000) (j : Fin 384) :
    matmul dot_S1000x128_S128x384_S1000x384_1_0_0_1_n_n none
        (truncf .bf16 x bitsLt_bf16_f32) (truncf .bf16 w bitsLt_bf16_f32)
        (constant (F := Ideal) S1000x384 .f32 0x00000000#32) (ix2 p j)
      = proj x w (ix2 p j) := by
  rw [gruMatmul2]
  rfl

theorem gruBias2 (b : FVec Ideal S1x384 .f32) (p : Fin 1000) (j : Fin 384) :
    broadcastTo S1000x384 b broadcasts_S1x384_S1000x384 (ix2 p j) = b (ix2 0 j) :=
  broadcastTo_1b_ab_apply b broadcasts_S1x384_S1000x384 p j

theorem gruSlice2_0 (X : FVec Ideal S1000x384 .f32) (p : Fin 1000) (q : Fin 128) :
    extractStridedSlice S1000x128 ![0, 0] X slices_S1000x384_o0_0_S1000x128 (ix2 p q) = X (ix2 p (g0 q)) :=
  slice2_axis1_apply 0 X slices_S1000x384_o0_0_S1000x128 p q (g0 q) (Nat.zero_add _).symm

theorem gruSlice2_1 (X : FVec Ideal S1000x384 .f32) (p : Fin 1000) (q : Fin 128) :
    extractStridedSlice S1000x128 ![0, 128] X slices_S1000x384_o0_128_S1000x128 (ix2 p q) = X (ix2 p (g1 q)) :=
  slice2_axis1_apply 128 X slices_S1000x384_o0_128_S1000x128 p q (g1 q) (Nat.add_comm _ _)

theorem gruSlice2_2 (X : FVec Ideal S1000x384 .f32) (p : Fin 1000) (q : Fin 128) :
    extractStridedSlice S1000x128 ![0, 256] X slices_S1000x384_o0_256_S1000x128 (ix2 p q) = X (ix2 p (g2 q)) :=
  slice2_axis1_apply 256 X slices_S1000x384_o0_256_S1000x128 p q (g2 q) (Nat.add_comm _ _)

theorem gruLogistic2 {s : Shape} (x : FVec Ideal s .f32) (i : s.Idx) : logistic x i = Ideal.logistic (x i) := rfl
theorem gruTanh2 {s : Shape} (x : FVec Ideal s .f32) (i : s.Idx) : tanh x i = Ideal.tanh (x i) := rfl

theorem gruPay2 (a h : Vec Ideal S1000x128 .f32) (wih whh : Vec Ideal S128x384 .f32) (bih bhh : Vec Ideal S1x384 .f32)
    (p : Fin 1000) (q : Fin 128) :
    k2_pay1 (F := Ideal) a h wih whh bih bhh (ix2 p q) = gru (n := 1000) a h wih bih whh bhh (ix2 p q) := by
  unfold k2_pay1
  simp only [addf_apply, mulf_apply, subf_apply, broadcast_apply, gruLogistic2, gruTanh2, gruSlice2_0, gruSlice2_1, gruSlice2_2,
    shapeCast_self, gruProj2, gruBias2]
  rfl

theorem gruRows2 {n n' : Nat} (a h : Mat n 128) (a' h' : Mat n' 128) (wih : Mat 128 384) (bih : Mat 1 384) (whh : Mat 128 384) (bhh : Mat 1 384)
    (i : Fin n) (i' : Fin n') (q : Fin 128)
    (ha : ∀ l : Fin 128, a (ix2 i l) = a' (ix2 i' l)) (hh : ∀ l : Fin 128, h (ix2 i l) = h' (ix2 i' l)) :
    gru a h wih bih whh bhh (ix2 i q) = gru a' h' wih bih whh bhh (ix2 i' q) := by
  have da : ∀ j : Fin 384, dense a wih bih (ix2 i j) = dense a' wih bih (ix2 i' j) := fun j => by
    show (∑ l : Fin 128, a (ix2 i l) * wih (ix2 l j)) + bih (ix2 0 j) = (∑ l : Fin 128, a' (ix2 i' l) * wih (ix2 l j)) + bih (ix2 0 j)
    simp only [ha]
  have dh : ∀ j : Fin 384, dense h whh bhh (ix2 i j) = dense h' whh bhh (ix2 i' j) := fun j => by
    show (∑ l : Fin 128, h (ix2 i l) * whh (ix2 l j)) + bhh (ix2 0 j) = (∑ l : Fin 128, h' (ix2 i' l) * whh (ix2 l j)) + bhh (ix2 0 j)
    simp only [hh]
  show (oneW - Ideal.logistic (dense a wih bih (ix2 i (g1 q)) + dense h whh bhh (ix2 i (g1 q))))
        * Ideal.tanh (dense a wih bih (ix2 i (g2 q)) + Ideal.logistic (dense a wih bih (ix2 i (g0 q)) + dense h whh bhh (ix2 i (g0 q))) * dense h whh bhh (ix2 i (g2 q)))
      + Ideal.logistic (dense a wih bih (ix2 i (g1 q)) + dense h whh bhh (ix2 i (g1 q))) * h (ix2 i q)
    = (oneW - Ideal.logistic (dense a' wih bih (ix2 i' (g1 q)) + dense h' whh bhh (ix2 i' (g1 q))))
        * Ideal.tanh (dense a' wih bih (ix2 i' (g2 q)) + Ideal.logistic (dense a' wih bih (ix2 i' (g0 q)) + dense h' whh bhh (ix2 i' (g0 q))) * dense h' whh bhh (ix2 i' (g2 q)))
      + Ideal.logistic (dense a' wih bih (ix2 i' (g1 q)) + dense h' whh bhh (ix2 i' (g1 q))) * h' (ix2 i' q)
  simp only [da, dh, hh]

theorem gruCell (A H : Mat 100000 128) (Wih : Mat 128 384) (Bih : Mat 1 384) (Whh : Mat 128 384) (Bhh : Mat 1 384)
    (a h : Vec Ideal S1000x128 .f32) (wih whh : Vec Ideal S128x384 .f32) (bih bhh : Vec Ideal S1x384 .f32)
    (p : Fin 1000) (q : Fin 128) (r : Fin 100000)
    (ha : ∀ l : Fin 128, a (ix2 p l) = A (ix2 r l)) (hh : ∀ l : Fin 128, h (ix2 p l) = H (ix2 r l))
    (hwih : wih = Wih) (hbih : bih = Bih) (hwhh : whh = Whh) (hbhh : bhh = Bhh) :
    k2_pay1 (F := Ideal) a h wih whh bih bhh (ix2 p q) = gru (n := 100000) A H Wih Bih Whh Bhh (ix2 r q) := by
  subst hwih hbih hwhh hbhh
  exact (gruPay2 a h wih whh bih bhh p q).trans (gruRows2 a h A H wih bih whh bhh p r q ha hh)

theorem gruHz : (![0, 0] : Fin 2 → Nat) = fun _ => 0 := funext fun a => by fin_cases a <;> rfl

section Region

theorem gruIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

theorem gruMsgRow2 (c : Dev nD) (t : Fin cfg2.N) (p : Fin 1000) (l : Fin 128) (r : Fin 100000) (hr : r.val = t.val * 1000 + p.val) :
    (iblk2 V c 0 t : Vec Ideal S1000x128 .f32) (ix2 p l) = (V c main_v14 : Mat 100000 128) (ix2 r l) := by
  obtain ⟨e0, e1, -⟩ := gruIdx2 t
  show V c main_v14 (((cfg2.win 0).blk t).view.emb (ix2 p l)) = V c main_v14 (ix2 r l)
  refine congrArg _ (funext fun a => Fin.ext ?_)
  match a with
  | ⟨0, _⟩ => show win2_0.index t (0 : Fin 2) * 1000 + 1 * p.val = r.val; omega
  | ⟨1, _⟩ => show win2_0.index t (1 : Fin 2) * 128 + 1 * l.val = l.val; omega

theorem gruStateRow2 (c : Dev nD) (t : Fin cfg2.N) (p : Fin 1000) (l : Fin 128) (r : Fin 100000) (hr : r.val = t.val * 1000 + p.val) :
    (iblk2 V c 1 t : Vec Ideal S1000x128 .f32) (ix2 p l) = (V c main_v5 : Mat 100000 128) (ix2 r l) := by
  obtain ⟨-, -, e0, e1, -⟩ := gruIdx2 t
  show V c main_v5 (((cfg2.win 1).blk t).view.emb (ix2 p l)) = V c main_v5 (ix2 r l)
  refine congrArg _ (funext fun a => Fin.ext ?_)
  match a with
  | ⟨0, _⟩ => show win2_1.index t (0 : Fin 2) * 1000 + 1 * p.val = r.val; omega
  | ⟨1, _⟩ => show win2_1.index t (1 : Fin 2) * 128 + 1 * l.val = l.val; omega

theorem gruWih2 (c : Dev nD) (t : Fin cfg2.N) : (iblk2 V c 2 t : Vec Ideal S128x384 .f32) = V c main_arg5 := by
  obtain ⟨-, -, -, -, e0, e1, -⟩ := gruIdx2 t
  funext y
  show V c main_arg5 (((cfg2.win 2).blk t).view.emb y) = V c main_arg5 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 384 + 1 * (y 1).val = (y 1).val; omega

theorem gruBih2 (c : Dev nD) (t : Fin cfg2.N) : (iblk2 V c 3 t : Vec Ideal S1x384 .f32) = V c main_v15 := by
  obtain ⟨-, -, -, -, -, -, e0, e1, -⟩ := gruIdx2 t
  funext y
  show V c main_v15 (((cfg2.win 3).blk t).view.emb y) = V c main_v15 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 384 + 1 * (y 1).val = (y 1).val; omega

theorem gruWhh2 (c : Dev nD) (t : Fin cfg2.N) : (iblk2 V c 4 t : Vec Ideal S128x384 .f32) = V c main_arg7 := by
  obtain ⟨-, -, -, -, -, -, -, -, e0, e1, -⟩ := gruIdx2 t
  funext y
  show V c main_arg7 (((cfg2.win 4).blk t).view.emb y) = V c main_arg7 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 384 + 1 * (y 1).val = (y 1).val; omega

theorem gruBhh2 (c : Dev nD) (t : Fin cfg2.N) : (iblk2 V c 5 t : Vec Ideal S1x384 .f32) = V c main_v16 := by
  obtain ⟨-, -, -, -, -, -, -, -, -, -, e0, e1, -⟩ := gruIdx2 t
  funext y
  show V c main_v16 (((cfg2.win 5).blk t).view.emb y) = V c main_v16 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 384 + 1 * (y 1).val = (y 1).val; omega

theorem gruFlushed2 (c : Dev nD) (t : Fin cfg2.N) :
    (dat2 (F := Ideal) V c).flushed 6 t
      = ((cfg2.win 6).blk t).view.read (Elt Ideal)
          (gru (n := 100000) (V c main_v14) (V c main_v5) (V c main_arg5) (V c main_v15) (V c main_arg7) (V c main_v16)) := by
  show (cfg2.win 6).cut (grid2.coords t) ((dat2 V c).after 6 t) = _
  rw [after2_6]
  unfold out2_6
  rw [View.canon_unit_zero gruHz]
  simp only [View.ld_unit_zero (S := S1000x128) gruHz, View.ld_unit_zero (S := S128x384) gruHz, View.ld_unit_zero (S := S1x384) gruHz]
  obtain ⟨-, -, -, -, -, -, -, -, -, -, -, -, e0, e1⟩ := gruIdx2 t
  have ht : t.val < 100 := lt_of_lt_of_eq t.isLt N_2
  funext j
  obtain ⟨p, q, rfl⟩ : ∃ (p : Fin 1000) (q : Fin 128), j = ix2 p q := ⟨j 0, j 1, eq_ix2 (n0 := 1000) (n1 := 128) j⟩
  have hp : p.val < 1000 := p.isLt
  show k2_pay1 (F := Ideal) (iblk2 V c 0 t) (iblk2 V c 1 t) (iblk2 V c 2 t) (iblk2 V c 4 t) (iblk2 V c 3 t) (iblk2 V c 5 t) (ix2 p q)
      = gru (n := 100000) (V c main_v14) (V c main_v5) (V c main_arg5) (V c main_v15) (V c main_arg7) (V c main_v16)
          (((cfg2.win 6).blk t).view.emb (ix2 p q))
  have hemb : ((cfg2.win 6).blk t).view.emb (ix2 p q) = ix2 (⟨t.val * 1000 + p.val, by omega⟩ : Fin 100000) q :=
    funext fun a => Fin.ext (by
      match a with
      | ⟨0, _⟩ => show win2_6.index t (0 : Fin 2) * 1000 + 1 * p.val = t.val * 1000 + p.val; omega
      | ⟨1, _⟩ => show win2_6.index t (1 : Fin 2) * 128 + 1 * q.val = q.val; omega)
  rw [hemb]
  exact gruCell (V c main_v14) (V c main_v5) (V c main_arg5) (V c main_v15) (V c main_arg7) (V c main_v16)
    (iblk2 V c 0 t) (iblk2 V c 1 t) (iblk2 V c 2 t) (iblk2 V c 4 t) (iblk2 V c 3 t) (iblk2 V c 5 t) p q ⟨t.val * 1000 + p.val, by omega⟩
    (fun l => gruMsgRow2 V c t p l _ rfl) (fun l => gruStateRow2 V c t p l _ rfl)
    (gruWih2 V c t) (gruBih2 V c t) (gruWhh2 V c t) (gruBhh2 V c t)

theorem gruMem2 (t : Fin cfg2.N) (i : S100000x128.Idx) :
    i ∈ ((cfg2.win 6).blk t).view.set ↔ ∀ a : Fin 2, win2_6.index t a * S1000x128.size a ≤ (i a).val ∧ (i a).val < win2_6.index t a * S1000x128.size a + S1000x128.size a := by
  show i ∈ ((View.whole main_v17).slice (win2_6.rect t)).set ↔ _
  rw [View.set_slice_whole, Rect.mem_set_unit]
  exact Iff.rfl

theorem gruCover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 1000 :=
    ⟨⟨(i 0).val / 1000, lt_of_lt_of_eq (by omega : (i 0).val / 1000 < 100) N_2.symm⟩, rfl⟩
  obtain ⟨-, -, -, -, -, -, -, -, -, -, -, -, e0, e1⟩ := gruIdx2 t
  refine ⟨t, flush2_6 t, ?_⟩
  rw [gruMem2]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 128 ≤ (i 1).val ∧ (i 1).val < win2_6.index t (1 : Fin 2) * 128 + 128; omega

theorem region2 (c : Dev nD) :
    (dat2 (F := Ideal) V c).arrAt 6 cfg2.N
      = gru (n := 100000) (V c main_v14) (V c main_v5) (V c main_arg5) (V c main_v15) (V c main_arg7) (V c main_v16) :=
  (dat2 (F := Ideal) V c).arrAt_eq_of_cover 6 _ (fun t _ => gruFlushed2 V c t) gruCover2

end Region

end Cert.KVal

end
-- ==== Proof.KGru4.lean ====
import proofs.«423503_j25220047962222_1_alg».proof.Proof.KGru2

set_option maxRecDepth 16384

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

section Region

theorem gruIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b))

theorem gruMsgRow4 (c : Dev nD) (t : Fin cfg4.N) (p : Fin 1000) (l : Fin 128) (r : Fin 100000) (hr : r.val = t.val * 1000 + p.val) :
    (iblk4 V c 0 t : Vec Ideal S1000x128 .f32) (ix2 p l) = (V c main_v25 : Mat 100000 128) (ix2 r l) := by
  obtain ⟨e0, e1, -⟩ := gruIdx4 t
  show V c main_v25 (((cfg4.win 0).blk t).view.emb (ix2 p l)) = V c main_v25 (ix2 r l)
  refine congrArg _ (funext fun a => Fin.ext ?_)
  match a with
  | ⟨0, _⟩ => show win4_0.index t (0 : Fin 2) * 1000 + 1 * p.val = r.val; omega
  | ⟨1, _⟩ => show win4_0.index t (1 : Fin 2) * 128 + 1 * l.val = l.val; omega

theorem gruStateRow4 (c : Dev nD) (t : Fin cfg4.N) (p : Fin 1000) (l : Fin 128) (r : Fin 100000) (hr : r.val = t.val * 1000 + p.val) :
    (iblk4 V c 1 t : Vec Ideal S1000x128 .f32) (ix2 p l) = (V c main_v17 : Mat 100000 128) (ix2 r l) := by
  obtain ⟨-, -, e0, e1, -⟩ := gruIdx4 t
  show V c main_v17 (((cfg4.win 1).blk t).view.emb (ix2 p l)) = V c main_v17 (ix2 r l)
  refine congrArg _ (funext fun a => Fin.ext ?_)
  match a with
  | ⟨0, _⟩ => show win4_1.index t (0 : Fin 2) * 1000 + 1 * p.val = r.val; omega
  | ⟨1, _⟩ => show win4_1.index t (1 : Fin 2) * 128 + 1 * l.val = l.val; omega

theorem gruWih4 (c : Dev nD) (t : Fin cfg4.N) : (iblk4 V c 2 t : Vec Ideal S128x384 .f32) = V c main_arg5 := by
  obtain ⟨-, -, -, -, e0, e1, -⟩ := gruIdx4 t
  funext y
  show V c main_arg5 (((cfg4.win 2).blk t).view.emb y) = V c main_arg5 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 384 + 1 * (y 1).val = (y 1).val; omega

theorem gruBih4 (c : Dev nD) (t : Fin cfg4.N) : (iblk4 V c 3 t : Vec Ideal S1x384 .f32) = V c main_v26 := by
  obtain ⟨-, -, -, -, -, -, e0, e1, -⟩ := gruIdx4 t
  funext y
  show V c main_v26 (((cfg4.win 3).blk t).view.emb y) = V c main_v26 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 384 + 1 * (y 1).val = (y 1).val; omega

theorem gruWhh4 (c : Dev nD) (t : Fin cfg4.N) : (iblk4 V c 4 t : Vec Ideal S128x384 .f32) = V c main_arg7 := by
  obtain ⟨-, -, -, -, -, -, -, -, e0, e1, -⟩ := gruIdx4 t
  funext y
  show V c main_arg7 (((cfg4.win 4).blk t).view.emb y) = V c main_arg7 y
  refine congrArg _ (funext fun a => Fin.ext ?_)
  match a with
  | ⟨0, _⟩ => show win4_4.index t (0 : Fin 2) * 128 + 1 * (y 0).val = (y 0).val; omega
  | ⟨1, _⟩ => show win4_4.index t (1 : Fin 2) * 384 + 1 * (y 1).val = (y 1).val; omega

theorem gruBhh4 (c : Dev nD) (t : Fin cfg4.N) : (iblk4 V c 5 t : Vec Ideal S1x384 .f32) = V c main_v27 := by
  obtain ⟨-, -, -, -, -, -, -, -, -, -, e0, e1, -⟩ := gruIdx4 t
  funext y
  show V c main_v27 (((cfg4.win 5).blk t).view.emb y) = V c main_v27 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 384 + 1 * (y 1).val = (y 1).val; omega

theorem gruFlushed4 (c : Dev nD) (t : Fin cfg4.N) :
    (dat4 (F := Ideal) V c).flushed 6 t
      = ((cfg4.win 6).blk t).view.read (Elt Ideal)
          (gru (n := 100000) (V c main_v25) (V c main_v17) (V c main_arg5) (V c main_v26) (V c main_arg7) (V c main_v27)) := by
  show (cfg4.win 6).cut (grid4.coords t) ((dat4 V c).after 6 t) = _
  rw [after4_6]
  unfold out4_6
  rw [View.canon_unit_zero gruHz]
  simp only [View.ld_unit_zero (S := S1000x128) gruHz, View.ld_unit_zero (S := S128x384) gruHz, View.ld_unit_zero (S := S1x384) gruHz]
  obtain ⟨-, -, -, -, -, -, -, -, -, -, -, -, e0, e1⟩ := gruIdx4 t
  have ht : t.val < 100 := lt_of_lt_of_eq t.isLt N_4
  funext j
  obtain ⟨p, q, rfl⟩ : ∃ (p : Fin 1000) (q : Fin 128), j = ix2 p q := ⟨j 0, j 1, eq_ix2 (n0 := 1000) (n1 := 128) j⟩
  have hp : p.val < 1000 := p.isLt
  show k4_pay1 (F := Ideal) (iblk4 V c 0 t) (iblk4 V c 1 t) (iblk4 V c 2 t) (iblk4 V c 4 t) (iblk4 V c 3 t) (iblk4 V c 5 t) (ix2 p q)
      = gru (n := 100000) (V c main_v25) (V c main_v17) (V c main_arg5) (V c main_v26) (V c main_arg7) (V c main_v27)
          (((cfg4.win 6).blk t).view.emb (ix2 p q))
  have hemb : ((cfg4.win 6).blk t).view.emb (ix2 p q) = ix2 (⟨t.val * 1000 + p.val, by omega⟩ : Fin 100000) q :=
    funext fun a => Fin.ext (by
      match a with
      | ⟨0, _⟩ => show win4_6.index t (0 : Fin 2) * 1000 + 1 * p.val = t.val * 1000 + p.val; omega
      | ⟨1, _⟩ => show win4_6.index t (1 : Fin 2) * 128 + 1 * q.val = q.val; omega)
  rw [hemb]
  exact gruCell (V c main_v25) (V c main_v17) (V c main_arg5) (V c main_v26) (V c main_arg7) (V c main_v27)
    (iblk4 V c 0 t) (iblk4 V c 1 t) (iblk4 V c 2 t) (iblk4 V c 4 t) (iblk4 V c 3 t) (iblk4 V c 5 t) p q ⟨t.val * 1000 + p.val, by omega⟩
    (fun l => gruMsgRow4 V c t p l _ rfl) (fun l => gruStateRow4 V c t p l _ rfl)
    (gruWih4 V c t) (gruBih4 V c t) (gruWhh4 V c t) (gruBhh4 V c t)

theorem gruMem4 (t : Fin cfg4.N) (i : S100000x128.Idx) :
    i ∈ ((cfg4.win 6).blk t).view.set ↔ ∀ a : Fin 2, win4_6.index t a * S1000x128.size a ≤ (i a).val ∧ (i a).val < win4_6.index t a * S1000x128.size a + S1000x128.size a := by
  show i ∈ ((View.whole main_v28).slice (win4_6.rect t)).set ↔ _
  rw [View.set_slice_whole, Rect.mem_set_unit]
  exact Iff.rfl

theorem gruCover4 (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  obtain ⟨t, ht⟩ : ∃ t : Fin cfg4.N, t.val = (i 0).val / 1000 :=
    ⟨⟨(i 0).val / 1000, lt_of_lt_of_eq (by omega : (i 0).val / 1000 < 100) N_4.symm⟩, rfl⟩
  obtain ⟨-, -, -, -, -, -, -, -, -, -, -, -, e0, e1⟩ := gruIdx4 t
  refine ⟨t, flush4_6 t, ?_⟩
  rw [gruMem4]
  intro a
  match a with
  | ⟨0, _⟩ => show win4_6.index t (0 : Fin 2) * 1000 ≤ (i 0).val ∧ (i 0).val < win4_6.index t (0 : Fin 2) * 1000 + 1000; omega
  | ⟨1, _⟩ => show win4_6.index t (1 : Fin 2) * 128 ≤ (i 1).val ∧ (i 1).val < win4_6.index t (1 : Fin 2) * 128 + 128; omega

theorem region4 (c : Dev nD) :
    (dat4 (F := Ideal) V c).arrAt 6 cfg4.N
      = gru (n := 100000) (V c main_v25) (V c main_v17) (V c main_arg5) (V c main_v26) (V c main_arg7) (V c main_v27) :=
  (dat4 (F := Ideal) V c).arrAt_eq_of_cover 6 _ (fun t _ => gruFlushed4 V c t) gruCover4

end Region

end Cert.KVal

end
-- ==== Proof.KGru6.lean ====
import proofs.«423503_j25220047962222_1_alg».proof.Proof.KGru2

set_option maxRecDepth 16384

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

section Region

theorem gruIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

variable (V : (c : Dev nD) → (b : Ref sig .tc) → Buf (Elt Ideal) ((c : Thread nD τ).loc b))

theorem gruMsgRow6 (c : Dev nD) (t : Fin cfg6.N) (p : Fin 1000) (l : Fin 128) (r : Fin 100000) (hr : r.val = t.val * 1000 + p.val) :
    (iblk6 V c 0 t : Vec Ideal S1000x128 .f32) (ix2 p l) = (V c main_v36 : Mat 100000 128) (ix2 r l) := by
  obtain ⟨e0, e1, -⟩ := gruIdx6 t
  show V c main_v36 (((cfg6.win 0).blk t).view.emb (ix2 p l)) = V c main_v36 (ix2 r l)
  refine congrArg _ (funext fun a => Fin.ext ?_)
  match a with
  | ⟨0, _⟩ => show win6_0.index t (0 : Fin 2) * 1000 + 1 * p.val = r.val; omega
  | ⟨1, _⟩ => show win6_0.index t (1 : Fin 2) * 128 + 1 * l.val = l.val; omega

theorem gruStateRow6 (c : Dev nD) (t : Fin cfg6.N) (p : Fin 1000) (l : Fin 128) (r : Fin 100000) (hr : r.val = t.val * 1000 + p.val) :
    (iblk6 V c 1 t : Vec Ideal S1000x128 .f32) (ix2 p l) = (V c main_v28 : Mat 100000 128) (ix2 r l) := by
  obtain ⟨-, -, e0, e1, -⟩ := gruIdx6 t
  show V c main_v28 (((cfg6.win 1).blk t).view.emb (ix2 p l)) = V c main_v28 (ix2 r l)
  refine congrArg _ (funext fun a => Fin.ext ?_)
  match a with
  | ⟨0, _⟩ => show win6_1.index t (0 : Fin 2) * 1000 + 1 * p.val = r.val; omega
  | ⟨1, _⟩ => show win6_1.index t (1 : Fin 2) * 128 + 1 * l.val = l.val; omega

theorem gruWih6 (c : Dev nD) (t : Fin cfg6.N) : (iblk6 V c 2 t : Vec Ideal S128x384 .f32) = V c main_arg5 := by
  obtain ⟨-, -, -, -, e0, e1, -⟩ := gruIdx6 t
  funext y
  show V c main_arg5 (((cfg6.win 2).blk t).view.emb y) = V c main_arg5 y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 384 + 1 * (y 1).val = (y 1).val; omega

theorem gruBih6 (c : Dev nD) (t : Fin cfg6.N) : (iblk6 V c 3 t : Vec Ideal S1x384 .f32) = V c main_v37 := by
  obtain ⟨-, -, -, -, -, -, e0, e1, -⟩ := gruIdx6 t
  funext y
  show V c main_v37 (((cfg6.win 3).blk t).view.emb y) = V c main_v37 y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 384 + 1 * (y 1).val = (y 1).val; omega

theorem gruWhh6 (c : Dev nD) (t : Fin cfg6.N) : (iblk6 V c 4 t : Vec Ideal S128x384 .f32) = V c main_arg7 := by
  obtain ⟨-, -, -, -, -, -, -, -, e0, e1, -⟩ := gruIdx6 t
  funext y
  show V c main_arg7 (((cfg6.win 4).blk t).view.emb y) = V c main_arg7 y
  refine congrArg _ (funext fun a => Fin.ext ?_)
  match a with
  | ⟨0, _⟩ => show win6_4.index t (0 : Fin 2) * 128 + 1 * (y 0).val = (y 0).val; omega
  | ⟨1, _⟩ => show win6_4.index t (1 : Fin 2) * 384 + 1 * (y 1).val = (y 1).val; omega

theorem gruBhh6 (c : Dev nD) (t : Fin cfg6.N) : (iblk6 V c 5 t : Vec Ideal S1x384 .f32) = V c main_v38 := by
  obtain ⟨-, -, -, -, -, -, -, -, -, -, e0, e1, -⟩ := gruIdx6 t
  funext y
  show V c main_v38 (((cfg6.win 5).blk t).view.emb y) = V c main_v38 y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 384 + 1 * (y 1).val = (y 1).val; omega

theorem gruFlushed6 (c : Dev nD) (t : Fin cfg6.N) :
    (dat6 (F := Ideal) V c).flushed 6 t
      = ((cfg6.win 6).blk t).view.read (Elt Ideal)
          (gru (n := 100000) (V c main_v36) (V c main_v28) (V c main_arg5) (V c main_v37) (V c main_arg7) (V c main_v38)) := by
  show (cfg6.win 6).cut (grid6.coords t) ((dat6 V c).after 6 t) = _
  rw [after6_6]
  unfold out6_6
  rw [View.canon_unit_zero gruHz]
  simp only [View.ld_unit_zero (S := S1000x128) gruHz, View.ld_unit_zero (S := S128x384) gruHz, View.ld_unit_zero (S := S1x384) gruHz]
  obtain ⟨-, -, -, -, -, -, -, -, -, -, -, -, e0, e1⟩ := gruIdx6 t
  have ht : t.val < 100 := lt_of_lt_of_eq t.isLt N_6
  funext j
  obtain ⟨p, q, rfl⟩ : ∃ (p : Fin 1000) (q : Fin 128), j = ix2 p q := ⟨j 0, j 1, eq_ix2 (n0 := 1000) (n1 := 128) j⟩
  have hp : p.val < 1000 := p.isLt
  show k6_pay1 (F := Ideal) (iblk6 V c 0 t) (iblk6 V c 1 t) (iblk6 V c 2 t) (iblk6 V c 4 t) (iblk6 V c 3 t) (iblk6 V c 5 t) (ix2 p q)
      = gru (n := 100000) (V c main_v36) (V c main_v28) (V c main_arg5) (V c main_v37) (V c main_arg7) (V c main_v38)
          (((cfg6.win 6).blk t).view.emb (ix2 p q))
  have hemb : ((cfg6.win 6).blk t).view.emb (ix2 p q) = ix2 (⟨t.val * 1000 + p.val, by omega⟩ : Fin 100000) q :=
    funext fun a => Fin.ext (by
      match a with
      | ⟨0, _⟩ => show win6_6.index t (0 : Fin 2) * 1000 + 1 * p.val = t.val * 1000 + p.val; omega
      | ⟨1, _⟩ => show win6_6.index t (1 : Fin 2) * 128 + 1 * q.val = q.val; omega)
  rw [hemb]
  exact gruCell (V c main_v36) (V c main_v28) (V c main_arg5) (V c main_v37) (V c main_arg7) (V c main_v38)
    (iblk6 V c 0 t) (iblk6 V c 1 t) (iblk6 V c 2 t) (iblk6 V c 4 t) (iblk6 V c 3 t) (iblk6 V c 5 t) p q ⟨t.val * 1000 + p.val, by omega⟩
    (fun l => gruMsgRow6 V c t p l _ rfl) (fun l => gruStateRow6 V c t p l _ rfl)
    (gruWih6 V c t) (gruBih6 V c t) (gruWhh6 V c t) (gruBhh6 V c t)

theorem gruMem6 (t : Fin cfg6.N) (i : S100000x128.Idx) :
    i ∈ ((cfg6.win 6).blk t).view.set ↔ ∀ a : Fin 2, win6_6.index t a * S1000x128.size a ≤ (i a).val ∧ (i a).val < win6_6.index t a * S1000x128.size a + S1000x128.size a := by
  show i ∈ ((View.whole main_v39).slice (win6_6.rect t)).set ↔ _
  rw [View.set_slice_whole, Rect.mem_set_unit]
  exact Iff.rfl

theorem gruCover6 (i : S100000x128.Idx) : ∃ t : Fin cfg6.N, (cfg6.win 6).flush t = true ∧ i ∈ ((cfg6.win 6).blk t).view.set := by
  have hi0 : (i 0).val < 100000 := (i 0).isLt
  have hi1 : (i 1).val < 128 := (i 1).isLt
  obtain ⟨t, ht⟩ : ∃ t : Fin cfg6.N, t.val = (i 0).val / 1000 :=
    ⟨⟨(i 0).val / 1000, lt_of_lt_of_eq (by omega : (i 0).val / 1000 < 100) N_6.symm⟩, rfl⟩
  obtain ⟨-, -, -, -, -, -, -, -, -, -, -, -, e0, e1⟩ := gruIdx6 t
  refine ⟨t, flush6_6 t, ?_⟩
  rw [gruMem6]
  intro a
  match a with
  | ⟨0, _⟩ => show win6_6.index t (0 : Fin 2) * 1000 ≤ (i 0).val ∧ (i 0).val < win6_6.index t (0 : Fin 2) * 1000 + 1000; omega
  | ⟨1, _⟩ => show win6_6.index t (1 : Fin 2) * 128 ≤ (i 1).val ∧ (i 1).val < win6_6.index t (1 : Fin 2) * 128 + 128; omega

theorem region6 (c : Dev nD) :
    (dat6 (F := Ideal) V c).arrAt 6 cfg6.N
      = gru (n := 100000) (V c main_v36) (V c main_v28) (V c main_arg5) (V c main_v37) (V c main_arg7) (V c main_v38) :=
  (dat6 (F := Ideal) V c).arrAt_eq_of_cover 6 _ (fun t _ => gruFlushed6 V c t) gruCover6

end Region

end Cert.KVal

end
-- ==== Proof.KPool.lean ====
import proofs.«423503_j25220047962222_1_alg».proof.Proof.Gen.KernelIdeal.Frame
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

/-! Pooling: over 20 points of 5000 rows the two carried outputs accumulate, for each graph g, the sum over the point's rows of e(r, g) · h[r, j] and of e(r, g), where e(r, g) is 1 if row r's graph id is g and 0 otherwise; the first point resets both, so after the last they hold the per-graph sums and counts over all 100000 rows. -/

noncomputable section

namespace Cert.KVal

open Cert.KernelIdeal Cert.KernelIdeal.Gen Idealize.ShloMosaic Idealize.ShloMosaic.TcCoe Idealize.ShloMosaic.ValueIdx
open Idealize.SL.Sem Cert.Spec Idealize.ShloMosaic.Tactic
open Idealize.ShloMosaic.Pipeline (Dat Cfg Window)

theorem hz : (![0, 0] : Fin 2 → Nat) = fun _ => 0 := funext fun a => by fin_cases a <;> rfl

theorem zeroSums_apply (j : S128x128.Idx) : k7_pay1 (F := Ideal) j = 0 := by
  unfold k7_pay1
  show Ideal.ofBits .f32 0x00000000#32 = 0
  exact Ideal.ofBits_zero_f32

theorem zeroCnt_apply (j : S1x128.Idx) : k7_pay2 (F := Ideal) j = 0 := by
  unfold k7_pay2
  show Ideal.ofBits .f32 0x00000000#32 = 0
  exact Ideal.ofBits_zero_f32

theorem bit_toEReal (b : BitVec 1) :
    FloatOps.sitofp (F := Ideal) .f32 (b.setWidth 32) = if b = 1#1 then (1 : EReal) else 0 := by
  show Scalar.sitofp (F := Ideal) .f32 (b.setWidth 32) = _
  rcases BitVec.eq_zero_or_eq_one b with h | h <;> subst h <;> simp [Ideal.scalar_sitofp_def]

theorem onehot_apply (b : Vec Ideal S5000x1 .i32) (r : Fin 5000) (g : Fin 128) :
    k7_pay3 (F := Ideal) b (ix2 r g) = if b (ix2 r 0) = BitVec.ofNat 32 g.val then (1 : EReal) else 0 := by
  unfold k7_pay3
  show FloatOps.sitofp (F := Ideal) .f32
      ((IntOp.cmpi .eq (broadcastTo S5000x128 (shapeCast S5000x1 b shapeCasts_S5000x1_S5000x1) broadcasts_S5000x1_S5000x128 (ix2 r g))
        (iota .tc S5000x128 32 [1] iota_S5000x128_d1_w32 (ix2 r g))).setWidth 32) = _
  rw [shapeCast_self, iota_single_apply,
    broadcastTo_apply b broadcasts_S5000x1_S5000x128 (ix2 r g) (ix2 r 0) (fun a => by
      match a with
      | ⟨0, _⟩ => rfl
      | ⟨1, _⟩ => rfl)]
  show FloatOps.sitofp (F := Ideal) .f32 ((IntOp.cmpi .eq (b (ix2 r 0)) (BitVec.ofNat 32 g.val)).setWidth 32) = _
  rw [bit_toEReal]
  exact if_congr StableHlo.Predicate.cmpi_eq_iff rfl rfl

theorem lift_eq (g : Fin 128) (k : Fin 5000) :
    reduces_S5000x128_S128.lift (ix1 g) k = ix2 (n0 := 5000) (n1 := 128) k g :=
  funext fun a => Fin.ext (by
    match a with
    | ⟨0, _⟩ => rfl
    | ⟨1, _⟩ => rfl)

theorem cntPay_apply (b : Vec Ideal S5000x1 .i32) (acc : Vec Ideal S1x128 .f32) (g : Fin 128) :
    k7_pay5 (F := Ideal) b acc (ix2 0 g)
      = acc (ix2 0 g) + ∑ r : Fin 5000, if b (ix2 r 0) = BitVec.ofNat 32 g.val then (1 : EReal) else 0 := by
  unfold k7_pay5
  show shapeCast S1x128 acc shapeCasts_S1x128_S1x128 (ix2 0 g)
      + shapeCast S1x128 (multiReduction .add [0] S128 (k7_pay3 (F := Ideal) b) 0x00000000#32 reduces_S5000x128_S128 (.inl rfl) rfl)
          shapeCasts_S128_S1x128 (ix2 0 g) = _
  rw [shapeCast_self]
  refine congrArg (acc (ix2 0 g) + ·) ?_
  refine (shapeCast_apply _ shapeCasts_S128_S1x128 (ix2 0 g) (ix1 g) (by
    rw [Shape.rowMajor_val_one, Shape.rowMajor_val_two]; show g.val = 0 * 128 + g.val; omega)).trans ?_
  refine (Ideal.multiReduction_add_single (k7_pay3 (F := Ideal) b) 0x00000000#32 reduces_S5000x128_S128 (.inl rfl) rfl (ix1 g)).trans ?_
  show ∑ k : Fin 5000, k7_pay3 (F := Ideal) b (reduces_S5000x128_S128.lift (ix1 g) k) = _
  refine Finset.sum_congr rfl fun r _ => ?_
  exact (congrArg (k7_pay3 (F := Ideal) b) (lift_eq g r)).trans (onehot_apply b r g)

theorem lhs_pool_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_pool_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_pool_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_pool_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

theorem sumsPay_apply (h : Vec Ideal S5000x128 .f32) (b : Vec Ideal S5000x1 .i32) (acc : Vec Ideal S128x128 .f32) (g j : Fin 128) :
    k7_pay4 (F := Ideal) h b acc (ix2 g j)
      = acc (ix2 g j) + ∑ r : Fin 5000, (if b (ix2 r 0) = BitVec.ofNat 32 g.val then (1 : EReal) else 0) * h (ix2 r j) := by
  unfold k7_pay4
  show shapeCast S128x128 acc shapeCasts_S128x128_S128x128 (ix2 g j)
      + FloatOps.matmul dot_S5000x128_S5000x128_S128x128_0_0_1_1_n_n none
          (truncf .bf16 (k7_pay3 (F := Ideal) b) bitsLt_bf16_f32)
          (truncf .bf16 (shapeCast S5000x128 h shapeCasts_S5000x128_S5000x128) bitsLt_bf16_f32)
          (constant S128x128 .f32 0x00000000#32) (ix2 g j) = _
  rw [shapeCast_self, shapeCast_self]
  refine congrArg (acc (ix2 g j) + ·) ?_
  refine (Ideal.matmul_constant_zero_apply dot_S5000x128_S5000x128_S128x128_0_0_1_1_n_n none _ _ (ix2 g j)).trans ?_
  rw [← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g j) ((contrEquiv1 dot_S5000x128_S5000x128_S128x128_0_0_1_1_n_n 5000 rfl rfl).symm k) = ix2 (n0 := 5000) (n1 := 128) k g := funext fun a => Fin.ext (by
    match a with
    | ⟨0, _⟩ => exact (lhs_pool_0 _ _).trans hk
    | ⟨1, _⟩ => exact lhs_pool_1 _ _)
  have er : dot_S5000x128_S5000x128_S128x128_0_0_1_1_n_n.rhsIdx (ix2 g j) ((contrEquiv1 dot_S5000x128_S5000x128_S128x128_0_0_1_1_n_n 5000 rfl rfl).symm k) = ix2 (n0 := 5000) (n1 := 128) k j := funext fun a => Fin.ext (by
    match a with
    | ⟨0, _⟩ => exact (rhs_pool_0 _ _).trans hk
    | ⟨1, _⟩ => exact rhs_pool_1 _ _)
  rw [el, er]
  show k7_pay3 (F := Ideal) b (ix2 k g) * h (ix2 k j) = _
  rw [onehot_apply]

section Pieces
variable {F : FTy → Type} [FloatOps F]

theorem later_sums (c : Dev nD) (i : grid7.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond7_0 i)
    (x0 : Vec F S5000x128 .f32) (x1 : Vec F S5000x1 .i32) (xo2 : Vec F S128x128 .f32) (xo3 : Vec F S1x128 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S128x128) hz]

theorem later_cnt (c : Dev nD) (i : grid7.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond7_0 i)
    (x0 : Vec F S5000x128 .f32) (x1 : Vec F S5000x1 .i32) (xo2 : Vec F S128x128 .f32) (xo3 : Vec F S1x128 .f32) :
    out7_B_3 c i a1 h1 a2 h2 a3 h3 a4 h4 hc x0 x1 xo2 xo3 = k7_pay5 x1 xo3 := by
  unfold out7_B_3
  rw [View.read_writes_eq_canon _ _ _ (cover7_B_3 c i a1 h1 a2 h2 a3 h3 a4 h4 hc x0 x1 xo2 xo3)]
  unfold kernelRun7_B
  dsimp only
  sl_unfold_words
  rw [View.canon_unit_zero hz]
  simp only [View.readAt_eq_ld, h2.read_unread, h4.read_unread, View.ld_unit_zero (S := S5000x1) hz,
    View.ld_unit_zero (S := S1x128) hz]

theorem first_sums (c : Dev nD) (i : grid7.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond7_0 i)
    (x0 : Vec F S5000x128 .f32) (x1 : Vec F S5000x1 .i32) :
    out7_A_2 c i a1 h1 a2 h2 a3 h3 a4 h4 hc x0 x1 = k7_pay4 x0 x1 (k7_pay1 (F := F)) := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S128x128) hz]
  simp only [View.readAt_eq_ld, h1.read_unread, h2.read_unread, View.ld_unit_zero (S := S5000x128) hz,
    View.ld_unit_zero (S := S5000x1) hz, View.readCov_unit_zero (S := S128x128) _ hz]

theorem first_cnt (c : Dev nD) (i : grid7.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond7_0 i)
    (x0 : Vec F S5000x128 .f32) (x1 : Vec F S5000x1 .i32) :
    out7_A_3 c i a1 h1 a2 h2 a3 h3 a4 h4 hc x0 x1 = k7_pay5 x1 (k7_pay2 (F := F)) := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x128) hz]
  simp only [View.readAt_eq_ld, h2.read_unread, View.ld_unit_zero (S := S5000x1) hz,
    View.readCov_unit_zero (S := S1x128) _ hz]

end Pieces

variable (V : (c : Dev nD) → (b : Ref sig .tc) → Buf (Elt Ideal) ((c : Thread nD τ).loc b))

abbrev harr (c : Dev nD) : Mat 100000 128 := V c main_v39
abbrev barr (c : Dev nD) : ICol 100000 := V c main_v40
abbrev hblk (c : Dev nD) (t : Fin cfg7.N) : Vec Ideal S5000x128 .f32 := iblk7 V c 0 t
abbrev bblk (c : Dev nD) (t : Fin cfg7.N) : Vec Ideal S5000x1 .i32 := iblk7 V c 1 t

def sumsAt (c : Dev nD) : (n : ℕ) → n < cfg7.N → Vec Ideal S128x128 .f32
  | 0, h => k7_pay4 (hblk V c ⟨0, h⟩) (bblk V c ⟨0, h⟩) (k7_pay1 (F := Ideal))
  | n + 1, h => k7_pay4 (hblk V c ⟨n + 1, h⟩) (bblk V c ⟨n + 1, h⟩) (sumsAt c n (Nat.lt_of_succ_lt h))

def cntAt (c : Dev nD) : (n : ℕ) → n < cfg7.N → Vec Ideal S1x128 .f32
  | 0, h => k7_pay5 (bblk V c ⟨0, h⟩) (k7_pay2 (F := Ideal))
  | n + 1, h => k7_pay5 (bblk V c ⟨n + 1, h⟩) (cntAt c n (Nat.lt_of_succ_lt h))

theorem outsAt_eq (c : Dev nD) : ∀ (n : ℕ) (h : n < cfg7.N), outsAt7 (F := Ideal) V c n h = (sumsAt V c n h, cntAt V c n h)
  | 0, h => by
    rw [outsAt7_A V c ⟨0, h⟩ rfl, first_sums, first_cnt]
    rfl
  | n + 1, h => by
    have hN : cfg7.N = 20 := N_7
    have hB : ¬(⟨n + 1, h⟩ : Fin cfg7.N).val % 20 = 0 := by dsimp only; omega
    rw [outsAt7_B V c ⟨n + 1, h⟩ hB, later_sums, later_cnt]
    show (k7_pay4 _ _ (outsAt7 V c n _).1, k7_pay5 _ (outsAt7 V c n _).2) = _
    rw [outsAt_eq c n]
    rfl

theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

theorem hblk_apply (c : Dev nD) (t : Fin cfg7.N) (r : Fin 5000) (j : Fin 128) (hR : 5000 * t.val + r.val < 100000) :
    hblk V c t (ix2 r j) = harr V c (ix2 ⟨5000 * t.val + r.val, hR⟩ j) := by
  obtain ⟨e0, e1, -⟩ := idx_facts t
  show iblk7 V c 0 t (ix2 r j) = _
  unfold iblk7
  rw [View.read_apply]
  show V c main_v39 _ = V c main_v39 _
  refine congrArg (V c main_v39) (funext fun a => Fin.ext ?_)
  match a with
  | ⟨0, _⟩ => show win7_0.index t (0 : Fin 2) * 5000 + 1 * r.val = 5000 * t.val + r.val; rw [e0]; omega
  | ⟨1, _⟩ => show win7_0.index t (1 : Fin 2) * 128 + 1 * j.val = j.val; rw [e1]; omega

theorem bblk_apply (c : Dev nD) (t : Fin cfg7.N) (r : Fin 5000) (hR : 5000 * t.val + r.val < 100000) :
    bblk V c t (ix2 r 0) = barr V c (ix2 ⟨5000 * t.val + r.val, hR⟩ 0) := by
  obtain ⟨-, -, e0, e1, -⟩ := idx_facts t
  show iblk7 V c 1 t (ix2 r 0) = _
  unfold iblk7
  rw [View.read_apply]
  show V c main_v40 _ = V c main_v40 _
  refine congrArg (V c main_v40) (funext fun a => Fin.ext ?_)
  match a with
  | ⟨0, _⟩ => show win7_1.index t (0 : Fin 2) * 5000 + 1 * r.val = 5000 * t.val + r.val; rw [e0]; omega
  | ⟨1, _⟩ => show win7_1.index t (1 : Fin 2) * 1 + 1 * 0 = 0; rw [e1]

def sumTerm (hA : Mat 100000 128) (bA : ICol 100000) (g j : Fin 128) (R : ℕ) : EReal :=
  if h : R < 100000 then (if bA (ix2 ⟨R, h⟩ 0) = BitVec.ofNat 32 g.val then hA (ix2 ⟨R, h⟩ j) else 0) else 0

def cntTerm (bA : ICol 100000) (g : Fin 128) (R : ℕ) : EReal :=
  if h : R < 100000 then (if bA (ix2 ⟨R, h⟩ 0) = BitVec.ofNat 32 g.val then 1 else 0) else 0

theorem point_sums (c : Dev nD) (t : Fin cfg7.N) (g j : Fin 128) :
    ∑ r : Fin 5000, (if bblk V c t (ix2 r 0) = BitVec.ofNat 32 g.val then (1 : EReal) else 0) * hblk V c t (ix2 r j)
      = ∑ r ∈ Finset.range 5000, sumTerm (harr V c) (barr V c) g j (5000 * t.val + r) := by
  rw [Finset.sum_range]
  refine Finset.sum_congr rfl fun r _ => ?_
  have ht : t.val < 20 := lt_of_lt_of_eq t.isLt N_7
  have hR : 5000 * t.val + r.val < 100000 := by have := r.isLt; omega
  rw [hblk_apply V c t r j hR, bblk_apply V c t r hR, boole_mul]
  unfold sumTerm
  rw [dif_pos hR]

theorem point_cnt (c : Dev nD) (t : Fin cfg7.N) (g : Fin 128) :
    ∑ r : Fin 5000, (if bblk V c t (ix2 r 0) = BitVec.ofNat 32 g.val then (1 : EReal) else 0)
      = ∑ r ∈ Finset.range 5000, cntTerm (barr V c) g (5000 * t.val + r) := by
  rw [Finset.sum_range]
  refine Finset.sum_congr rfl fun r _ => ?_
  have ht : t.val < 20 := lt_of_lt_of_eq t.isLt N_7
  have hR : 5000 * t.val + r.val < 100000 := by have := r.isLt; omega
  rw [bblk_apply V c t r hR]
  unfold cntTerm
  rw [dif_pos hR]

theorem sumsAt_apply (c : Dev nD) : ∀ (n : ℕ) (h : n < cfg7.N) (g j : Fin 128),
    sumsAt V c n h (ix2 g j) = ∑ R ∈ Finset.range (5000 * (n + 1)), sumTerm (harr V c) (barr V c) g j R
  | 0, h, g, j => by
    show k7_pay4 (F := Ideal) (hblk V c ⟨0, h⟩) (bblk V c ⟨0, h⟩) (k7_pay1 (F := Ideal)) (ix2 g j) = _
    rw [sumsPay_apply, zeroSums_apply, zero_add, point_sums V c ⟨0, h⟩ g j]
    refine Finset.sum_congr rfl fun r _ => ?_
    show sumTerm _ _ g j (5000 * 0 + r) = _
    rw [Nat.mul_zero, Nat.zero_add]
  | n + 1, h, g, j => by
    show k7_pay4 (F := Ideal) (hblk V c ⟨n + 1, h⟩) (bblk V c ⟨n + 1, h⟩) (sumsAt V c n (Nat.lt_of_succ_lt h)) (ix2 g j) = _
    rw [sumsPay_apply, sumsAt_apply c n (Nat.lt_of_succ_lt h) g j, point_sums V c ⟨n + 1, h⟩ g j,
      show 5000 * (n + 1 + 1) = 5000 * (n + 1) + 5000 by omega, Finset.sum_range_add]

theorem cntAt_apply (c : Dev nD) : ∀ (n : ℕ) (h : n < cfg7.N) (g : Fin 128),
    cntAt V c n h (ix2 0 g) = ∑ R ∈ Finset.range (5000 * (n + 1)), cntTerm (barr V c) g R
  | 0, h, g => by
    show k7_pay5 (F := Ideal) (bblk V c ⟨0, h⟩) (k7_pay2 (F := Ideal)) (ix2 0 g) = _
    rw [cntPay_apply, zeroCnt_apply, zero_add, point_cnt V c ⟨0, h⟩ g]
    refine Finset.sum_congr rfl fun r _ => ?_
    show cntTerm _ g (5000 * 0 + r) = _
    rw [Nat.mul_zero, Nat.zero_add]
  | n + 1, h, g => by
    show k7_pay5 (F := Ideal) (bblk V c ⟨n + 1, h⟩) (cntAt V c n (Nat.lt_of_succ_lt h)) (ix2 0 g) = _
    rw [cntPay_apply, cntAt_apply c n (Nat.lt_of_succ_lt h) g, point_cnt V c ⟨n + 1, h⟩ g,
      show 5000 * (n + 1 + 1) = 5000 * (n + 1) + 5000 by omega, Finset.sum_range_add]

abbrev lastPt : Fin cfg7.N := ⟨19, lt_of_lt_of_eq (by decide : 19 < 20) N_7.symm⟩

theorem flushed_sums (c : Dev nD) (t : Fin cfg7.N) (hf : (cfg7.win 2).flush t = true) :
    (dat7 (F := Ideal) V c).flushed 2 t = ((cfg7.win 2).blk t).view.read (Elt Ideal) (sumsAt V c 19 lastPt.isLt) := by
  have hN : cfg7.N = 20 := N_7
  have h19 : t.val = 19 := by have := (flush7_2 t).mp hf; have := t.isLt; omega
  obtain rfl : t = lastPt := Fin.ext h19
  show (cfg7.win 2).cut (grid7.coords lastPt) ((dat7 V c).after 2 lastPt) = _
  rw [after7_2, outsAt_eq]
  obtain ⟨-, -, -, -, e0, e1, -⟩ := idx_facts lastPt
  have hz' : (fun a => win7_2.index lastPt a * main_v41_0.ty.shape.size a) = fun _ => 0 := funext fun a => by
    match a with
    | ⟨0, _⟩ => show win7_2.index lastPt (0 : Fin 2) * 128 = 0; rw [e0]
    | ⟨1, _⟩ => show win7_2.index lastPt (1 : Fin 2) * 128 = 0; rw [e1]
  exact (Memref.read_access_unit_zero (Elt Ideal) main_v41_0 hz' (fun a => by rw [congrFun hz' a]; simp) (sumsAt V c 19 lastPt.isLt)).symm

theorem flushed_cnt (c : Dev nD) (t : Fin cfg7.N) (hf : (cfg7.win 3).flush t = true) :
    (dat7 (F := Ideal) V c).flushed 3 t = ((cfg7.win 3).blk t).view.read (Elt Ideal) (cntAt V c 19 lastPt.isLt) := by
  have hN : cfg7.N = 20 := N_7
  have h19 : t.val = 19 := by have := (flush7_3 t).mp hf; have := t.isLt; omega
  obtain rfl : t = lastPt := Fin.ext h19
  show (cfg7.win 3).cut (grid7.coords lastPt) ((dat7 V c).after 3 lastPt) = _
  rw [after7_3, outsAt_eq]
  obtain ⟨-, -, -, -, -, -, e0, e1⟩ := idx_facts lastPt
  have hz' : (fun a => win7_3.index lastPt a * main_v41_1.ty.shape.size a) = fun _ => 0 := funext fun a => by
    match a with
    | ⟨0, _⟩ => show win7_3.index lastPt (0 : Fin 2) * 1 = 0; rw [e0]
    | ⟨1, _⟩ => show win7_3.index lastPt (1 : Fin 2) * 128 = 0; rw [e1]
  exact (Memref.read_access_unit_zero (Elt Ideal) main_v41_1 hz' (fun a => by rw [congrFun hz' a]; simp) (cntAt V c 19 lastPt.isLt)).symm

theorem mem_sumsBlk (t : Fin cfg7.N) (i : S128x128.Idx) :
    i ∈ ((cfg7.win 2).blk t).view.set ↔ ∀ a : Fin 2, win7_2.index t a * S128x128.size a ≤ (i a).val ∧ (i a).val < win7_2.index t a * S128x128.size a + S128x128.size a := by
  show i ∈ ((View.whole main_v41_0).slice (win7_2.rect t)).set ↔ _
  rw [View.set_slice_whole, Rect.mem_set_unit]
  exact Iff.rfl

theorem mem_cntBlk (t : Fin cfg7.N) (i : S1x128.Idx) :
    i ∈ ((cfg7.win 3).blk t).view.set ↔ ∀ a : Fin 2, win7_3.index t a * S1x128.size a ≤ (i a).val ∧ (i a).val < win7_3.index t a * S1x128.size a + S1x128.size a := by
  show i ∈ ((View.whole main_v41_1).slice (win7_3.rect t)).set ↔ _
  rw [View.set_slice_whole, Rect.mem_set_unit]
  exact Iff.rfl

theorem final_sums (c : Dev nD) : (dat7 (F := Ideal) V c).arrAt 2 cfg7.N = sumsAt V c 19 lastPt.isLt :=
  (dat7 V c).arrAt_eq_of_cover 2 (sumsAt V c 19 lastPt.isLt) (flushed_sums V c) fun i =>
    ⟨lastPt, (flush7_2 lastPt).mpr rfl, by
      rw [mem_sumsBlk]
      obtain ⟨-, -, -, -, e0, e1, -⟩ := idx_facts lastPt
      have h0 : (i 0).val < 128 := (i 0).isLt
      have h1 : (i 1).val < 128 := (i 1).isLt
      intro a
      match a with
      | ⟨0, _⟩ => show win7_2.index lastPt (0 : Fin 2) * 128 ≤ (i 0).val ∧ (i 0).val < win7_2.index lastPt (0 : Fin 2) * 128 + 128; rw [e0]; omega
      | ⟨1, _⟩ => show win7_2.index lastPt (1 : Fin 2) * 128 ≤ (i 1).val ∧ (i 1).val < win7_2.index lastPt (1 : Fin 2) * 128 + 128; rw [e1]; omega⟩

theorem final_cnt (c : Dev nD) : (dat7 (F := Ideal) V c).arrAt 3 cfg7.N = cntAt V c 19 lastPt.isLt :=
  (dat7 V c).arrAt_eq_of_cover 3 (cntAt V c 19 lastPt.isLt) (flushed_cnt V c) fun i =>
    ⟨lastPt, (flush7_3 lastPt).mpr rfl, by
      rw [mem_cntBlk]
      obtain ⟨-, -, -, -, -, -, e0, e1⟩ := idx_facts lastPt
      have h0 : (i 0).val < 1 := (i 0).isLt
      have h1 : (i 1).val < 128 := (i 1).isLt
      intro a
      match a with
      | ⟨0, _⟩ => show win7_3.index lastPt (0 : Fin 2) * 1 ≤ (i 0).val ∧ (i 0).val < win7_3.index lastPt (0 : Fin 2) * 1 + 1; rw [e0]; omega
      | ⟨1, _⟩ => show win7_3.index lastPt (1 : Fin 2) * 128 ≤ (i 1).val ∧ (i 1).val < win7_3.index lastPt (1 : Fin 2) * 128 + 128; rw [e1]; omega⟩

theorem sumsAt_last (c : Dev nD) : sumsAt V c 19 lastPt.isLt = poolSum (n := 100000) (harr V c) (barr V c) := by
  funext i
  obtain ⟨g, j, rfl⟩ : ∃ (g j : Fin 128), i = ix2 g j := ⟨i 0, i 1, eq_ix2 i⟩
  rw [sumsAt_apply]
  show ∑ R ∈ Finset.range 100000, sumTerm (harr V c) (barr V c) g j R
    = ∑ r : Fin 100000, if barr V c (ix2 r 0) = BitVec.ofNat 32 g.val then harr V c (ix2 r j) else 0
  rw [Finset.sum_range]
  refine Finset.sum_congr rfl fun R _ => ?_
  unfold sumTerm
  rw [dif_pos R.isLt]

theorem cntAt_last (c : Dev nD) : cntAt V c 19 lastPt.isLt = poolCnt (n := 100000) (barr V c) := by
  funext i
  obtain ⟨z, g, rfl⟩ : ∃ (z : Fin 1) (g : Fin 128), i = ix2 z g := ⟨i 0, i 1, eq_ix2 i⟩
  obtain rfl : z = 0 := Subsingleton.elim _ _
  rw [cntAt_apply]
  show ∑ R ∈ Finset.range 100000, cntTerm (barr V c) g R
    = ∑ r : Fin 100000, if barr V c (ix2 r 0) = BitVec.ofNat 32 g.val then (1 : EReal) else 0
  rw [Finset.sum_range]
  refine Finset.sum_congr rfl fun R _ => ?_
  unfold cntTerm
  rw [dif_pos R.isLt]

theorem region7_sums (c : Dev nD) :
    (dat7 (F := Ideal) V c).arrAt 2 cfg7.N = poolSum (n := 100000) (V c main_v39) (V c main_v40) :=
  (final_sums V c).trans (sumsAt_last V c)

theorem region7_cnt (c : Dev nD) :
    (dat7 (F := Ideal) V c).arrAt 3 cfg7.N = poolCnt (n := 100000) (V c main_v40) :=
  (final_cnt V c).trans (cntAt_last V c)

end Cert.KVal

end
-- ==== Proof.KFusion.lean ====
import proofs.«423503_j25220047962222_1_alg».proof.Proof.Gen.KernelIdeal.Frame
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! The head (one grid point holding every array whole): each operation of the body read at an entry, every sum over an axis as the sum over its coordinates, gives the specification's expression for the two results. -/

noncomputable section

namespace Cert.KVal

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

namespace Fusion

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem concat_read (x₁ x₂ : S128x128.Idx → EReal) (g : Fin 128) (j : Fin 256) :
    concatenate S128x256 1 [⟨S128x128, x₁⟩, ⟨S128x128, x₂⟩] concatenates_S128x128_S128x128_S128x256_d1 (ix2 g j)
      = if h : j.val < 128 then x₁ (ix2 g ⟨j.val, h⟩) else x₂ (ix2 g ⟨j.val - 128, by have := j.isLt; omega⟩) := by
  by_cases h : j.val < 128
  · rw [dif_pos h]
    exact concatenate_pair_apply_left 1 x₁ x₂ _ (ix2 g j) rfl (ix2 g ⟨j.val, h⟩)
      (fun b => match b with | ⟨0, _⟩ => rfl | ⟨1, _⟩ => rfl)
  · rw [dif_neg h]
    exact concatenate_pair_apply_right 1 x₁ x₂ _ (ix2 g j) rfl rfl (ix2 g ⟨j.val - 128, by have := j.isLt; omega⟩)
      (fun b hb => match b, hb with | ⟨0, _⟩, _ => rfl | ⟨1, _⟩, hb => absurd rfl hb)
      (by show j.val - 128 + 128 = j.val; omega)

theorem rowSum_read (v : S128x256.Idx → EReal) (g : Fin 128) :
    Ideal.reduceAdd reduces_S128x256_S128 v (ix1 g) = ∑ k : Fin 256, v (ix2 g k) := by
  refine (Ideal.reduceAdd_single reduces_S128x256_S128 v (ix1 g)).trans ?_
  show ∑ k : Fin 256, v (reduces_S128x256_S128.lift (ix1 g) k) = _
  refine Finset.sum_congr rfl fun k _ => congrArg v ?_
  funext a
  apply Fin.ext
  match a with
  | ⟨0, _⟩ => rfl
  | ⟨1, _⟩ => rfl

theorem lhs_doc_0 (i : S128x128.Idx) (q : dot_S128x768_S768x128_S128x128_1_0_0_1_n_n.contr.Idx) :
    (dot_S128x768_S768x128_S128x128_1_0_0_1_n_n.lhsIdx i q 0).val = (i 0).val := by
  unfold DotDims.lhsIdx
  rw [dif_neg (show ¬(0 : Fin S128x768.rank) ∈ dot_S128x768_S768x128_S128x128_1_0_0_1_n_n.lhsBatch by decide), dif_pos (show (0 : Fin S128x768.rank) ∈ dot_S128x768_S768x128_S128x128_1_0_0_1_n_n.lhsNonContracting by decide)]
  rfl
theorem lhs_doc_1 (i : S128x128.Idx) (q : dot_S128x768_S768x128_S128x128_1_0_0_1_n_n.contr.Idx) :
    (dot_S128x768_S768x128_S128x128_1_0_0_1_n_n.lhsIdx i q 1).val = (q ⟨0, by decide⟩).val :=
  dot_S128x768_S768x128_S128x128_1_0_0_1_n_n.lhsIdx_val_of_single rfl i q
theorem rhs_doc_0 (i : S128x128.Idx) (q : dot_S128x768_S768x128_S128x128_1_0_0_1_n_n.contr.Idx) :
    (dot_S128x768_S768x128_S128x128_1_0_0_1_n_n.rhsIdx i q 0).val = (q ⟨0, by decide⟩).val :=
  dot_S128x768_S768x128_S128x128_1_0_0_1_n_n.rhsIdx_val_of_single rfl i q
theorem rhs_doc_1 (i : S128x128.Idx) (q : dot_S128x768_S768x128_S128x128_1_0_0_1_n_n.contr.Idx) :
    (dot_S128x768_S768x128_S128x128_1_0_0_1_n_n.rhsIdx i q 1).val = (i 1).val := by
  unfold DotDims.rhsIdx
  rw [dif_neg (show ¬(1 : Fin S768x128.rank) ∈ dot_S128x768_S768x128_S128x128_1_0_0_1_n_n.rhsBatch by decide), dif_pos (show (1 : Fin S768x128.rank) ∈ dot_S128x768_S768x128_S128x128_1_0_0_1_n_n.rhsNonContracting by decide)]
  rfl

theorem matmul_doc_read (x : FVec Ideal S128x768 .bf16) (w : FVec Ideal S768x128 .bf16) (p q : Fin 128) :
    matmul dot_S128x768_S768x128_S128x128_1_0_0_1_n_n none x w (constant (F := Ideal) S128x128 .f32 0x00000000#32) (ix2 p q)
      = ∑ k : Fin 768, x (ix2 p k) * w (ix2 k q) := by
  simp only [matmul]
  rw [Ideal.matmul_constant_zero_apply, ← Equiv.sum_comp (ValueIdx.contrEquiv1 dot_S128x768_S768x128_S128x128_1_0_0_1_n_n 768 rfl rfl).symm]
  refine Finset.sum_congr rfl fun k _ => ?_
  have hk := ValueIdx.contrEquiv1_symm_val dot_S128x768_S768x128_S128x128_1_0_0_1_n_n 768 rfl rfl k
  have el : dot_S128x768_S768x128_S128x128_1_0_0_1_n_n.lhsIdx (ix2 p q) ((ValueIdx.contrEquiv1 dot_S128x768_S768x128_S128x128_1_0_0_1_n_n 768 rfl rfl).symm k) = ix2 p k := funext fun a => Fin.ext (by
    match a with
    | ⟨0, _⟩ => exact lhs_doc_0 _ _
    | ⟨1, _⟩ => exact (lhs_doc_1 _ _).trans hk)
  have er : dot_S128x768_S768x128_S128x128_1_0_0_1_n_n.rhsIdx (ix2 p q) ((ValueIdx.contrEquiv1 dot_S128x768_S768x128_S128x128_1_0_0_1_n_n 768 rfl rfl).symm k) = ix2 k q := funext fun a => Fin.ext (by
    match a with
    | ⟨0, _⟩ => exact (rhs_doc_0 _ _).trans hk
    | ⟨1, _⟩ => exact rhs_doc_1 _ _)
  rw [el, er]

theorem lhs_fus_0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem lhs_fus_1 (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q
theorem rhs_fus_0 (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q
theorem rhs_fus_1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

theorem matmul_fus_read (x : FVec Ideal S128x256 .bf16) (w : FVec Ideal S256x128 .bf16) (p q : Fin 128) :
    matmul dot_S128x256_S256x128_S128x128_1_0_0_1_n_n none x w (constant (F := Ideal) S128x128 .f32 0x00000000#32) (ix2 p q)
      = ∑ k : Fin 256, x (ix2 p k) * w (ix2 k q) := by
  simp only [matmul]
  rw [Ideal.matmul_constant_zero_apply, ← Equiv.sum_comp (ValueIdx.contrEquiv1 dot_S128x256_S256x128_S128x128_1_0_0_1_n_n 256 rfl rfl).symm]
  refine Finset.sum_congr rfl fun k _ => ?_
  have hk := ValueIdx.contrEquiv1_symm_val dot_S128x256_S256x128_S128x128_1_0_0_1_n_n 256 rfl rfl k
  have el : dot_S128x256_S256x128_S128x128_1_0_0_1_n_n.lhsIdx (ix2 p q) ((ValueIdx.contrEquiv1 dot_S128x256_S256x128_S128x128_1_0_0_1_n_n 256 rfl rfl).symm k) = ix2 p k := funext fun a => Fin.ext (by
    match a with
    | ⟨0, _⟩ => exact lhs_fus_0 _ _
    | ⟨1, _⟩ => exact (lhs_fus_1 _ _).trans hk)
  have er : dot_S128x256_S256x128_S128x128_1_0_0_1_n_n.rhsIdx (ix2 p q) ((ValueIdx.contrEquiv1 dot_S128x256_S256x128_S128x128_1_0_0_1_n_n 256 rfl rfl).symm k) = ix2 k q := funext fun a => Fin.ext (by
    match a with
    | ⟨0, _⟩ => exact (rhs_fus_0 _ _).trans hk
    | ⟨1, _⟩ => exact rhs_fus_1 _ _)
  rw [el, er]

theorem lhs_task_0 (i : S128x32.Idx) (q : dot_S128x128_S128x32_S128x32_1_0_0_1_n_n.contr.Idx) :
    (dot_S128x128_S128x32_S128x32_1_0_0_1_n_n.lhsIdx i q 0).val = (i 0).val := by
  unfold DotDims.lhsIdx
  rw [dif_neg (show ¬(0 : Fin S128x128.rank) ∈ dot_S128x128_S128x32_S128x32_1_0_0_1_n_n.lhsBatch by decide), dif_pos (show (0 : Fin S128x128.rank) ∈ dot_S128x128_S128x32_S128x32_1_0_0_1_n_n.lhsNonContracting by decide)]
  rfl
theorem lhs_task_1 (i : S128x32.Idx) (q : dot_S128x128_S128x32_S128x32_1_0_0_1_n_n.contr.Idx) :
    (dot_S128x128_S128x32_S128x32_1_0_0_1_n_n.lhsIdx i q 1).val = (q ⟨0, by decide⟩).val :=
  dot_S128x128_S128x32_S128x32_1_0_0_1_n_n.lhsIdx_val_of_single rfl i q
theorem rhs_task_0 (i : S128x32.Idx) (q : dot_S128x128_S128x32_S128x32_1_0_0_1_n_n.contr.Idx) :
    (dot_S128x128_S128x32_S128x32_1_0_0_1_n_n.rhsIdx i q 0).val = (q ⟨0, by decide⟩).val :=
  dot_S128x128_S128x32_S128x32_1_0_0_1_n_n.rhsIdx_val_of_single rfl i q
theorem rhs_task_1 (i : S128x32.Idx) (q : dot_S128x128_S128x32_S128x32_1_0_0_1_n_n.contr.Idx) :
    (dot_S128x128_S128x32_S128x32_1_0_0_1_n_n.rhsIdx i q 1).val = (i 1).val := by
  unfold DotDims.rhsIdx
  rw [dif_neg (show ¬(1 : Fin S128x32.rank) ∈ dot_S128x128_S128x32_S128x32_1_0_0_1_n_n.rhsBatch by decide), dif_pos (show (1 : Fin S128x32.rank) ∈ dot_S128x128_S128x32_S128x32_1_0_0_1_n_n.rhsNonContracting by decide)]
  rfl

theorem matmul_task_read (x : FVec Ideal S128x128 .bf16) (w : FVec Ideal S128x32 .bf16) (p : Fin 128) (q : Fin 32) :
    matmul dot_S128x128_S128x32_S128x32_1_0_0_1_n_n none x w (constant (F := Ideal) S128x32 .f32 0x00000000#32) (ix2 p q)
      = ∑ k : Fin 128, x (ix2 p k) * w (ix2 k q) := by
  simp only [matmul]
  rw [Ideal.matmul_constant_zero_apply, ← Equiv.sum_comp (ValueIdx.contrEquiv1 dot_S128x128_S128x32_S128x32_1_0_0_1_n_n 128 rfl rfl).symm]
  refine Finset.sum_congr rfl fun k _ => ?_
  have hk := ValueIdx.contrEquiv1_symm_val dot_S128x128_S128x32_S128x32_1_0_0_1_n_n 128 rfl rfl k
  have el : dot_S128x128_S128x32_S128x32_1_0_0_1_n_n.lhsIdx (ix2 p q) ((ValueIdx.contrEquiv1 dot_S128x128_S128x32_S128x32_1_0_0_1_n_n 128 rfl rfl).symm k) = ix2 p k := funext fun a => Fin.ext (by
    match a with
    | ⟨0, _⟩ => exact lhs_task_0 _ _
    | ⟨1, _⟩ => exact (lhs_task_1 _ _).trans hk)
  have er : dot_S128x128_S128x32_S128x32_1_0_0_1_n_n.rhsIdx (ix2 p q) ((ValueIdx.contrEquiv1 dot_S128x128_S128x32_S128x32_1_0_0_1_n_n 128 rfl rfl).symm k) = ix2 k q := funext fun a => Fin.ext (by
    match a with
    | ⟨0, _⟩ => exact (rhs_task_0 _ _).trans hk
    | ⟨1, _⟩ => exact rhs_task_1 _ _)
  rw [el, er]

theorem lhs_time_0 (i : S128x1.Idx) (q : dot_S128x128_S128x1_S128x1_1_0_0_1_n_n.contr.Idx) :
    (dot_S128x128_S128x1_S128x1_1_0_0_1_n_n.lhsIdx i q 0).val = (i 0).val := by
  unfold DotDims.lhsIdx
  rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
  rfl
theorem lhs_time_1 (i : S128x1.Idx) (q : dot_S128x128_S128x1_S128x1_1_0_0_1_n_n.contr.Idx) :
    (dot_S128x128_S128x1_S128x1_1_0_0_1_n_n.lhsIdx i q 1).val = (q ⟨0, by decide⟩).val :=
  dot_S128x128_S128x1_S128x1_1_0_0_1_n_n.lhsIdx_val_of_single rfl i q
theorem rhs_time_0 (i : S128x1.Idx) (q : dot_S128x128_S128x1_S128x1_1_0_0_1_n_n.contr.Idx) :
    (dot_S128x128_S128x1_S128x1_1_0_0_1_n_n.rhsIdx i q 0).val = (q ⟨0, by decide⟩).val :=
  dot_S128x128_S128x1_S128x1_1_0_0_1_n_n.rhsIdx_val_of_single rfl i q
theorem rhs_time_1 (i : S128x1.Idx) (q : dot_S128x128_S128x1_S128x1_1_0_0_1_n_n.contr.Idx) :
    (dot_S128x128_S128x1_S128x1_1_0_0_1_n_n.rhsIdx i q 1).val = (i 1).val := by
  unfold DotDims.rhsIdx
  rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
  rfl

theorem matmul_time_read (x : FVec Ideal S128x128 .bf16) (w : FVec Ideal S128x1 .bf16) (p : Fin 128) (q : Fin 1) :
    matmul dot_S128x128_S128x1_S128x1_1_0_0_1_n_n none x w (constant (F := Ideal) S128x1 .f32 0x00000000#32) (ix2 p q)
      = ∑ k : Fin 128, x (ix2 p k) * w (ix2 k q) := by
  simp only [matmul]
  rw [Ideal.matmul_constant_zero_apply, ← Equiv.sum_comp (ValueIdx.contrEquiv1 dot_S128x128_S128x1_S128x1_1_0_0_1_n_n 128 rfl rfl).symm]
  refine Finset.sum_congr rfl fun k _ => ?_
  have hk := ValueIdx.contrEquiv1_symm_val dot_S128x128_S128x1_S128x1_1_0_0_1_n_n 128 rfl rfl k
  have el : dot_S128x128_S128x1_S128x1_1_0_0_1_n_n.lhsIdx (ix2 p q) ((ValueIdx.contrEquiv1 dot_S128x128_S128x1_S128x1_1_0_0_1_n_n 128 rfl rfl).symm k) = ix2 p k := funext fun a => Fin.ext (by
    match a with
    | ⟨0, _⟩ => exact lhs_time_0 _ _
    | ⟨1, _⟩ => exact (lhs_time_1 _ _).trans hk)
  have er : dot_S128x128_S128x1_S128x1_1_0_0_1_n_n.rhsIdx (ix2 p q) ((ValueIdx.contrEquiv1 dot_S128x128_S128x1_S128x1_1_0_0_1_n_n 128 rfl rfl).symm k) = ix2 k q := funext fun a => Fin.ext (by
    match a with
    | ⟨0, _⟩ => exact (rhs_time_0 _ _).trans hk
    | ⟨1, _⟩ => exact rhs_time_1 _ _)
  rw [el, er]

theorem rsqrt_read {s : Shape} {φ : FTy} (a : FVec Ideal s φ) (i : s.Idx) : rsqrt a i = Ideal.rsqrt (a i) := rfl

def normCore (f : Mat 128 256) : Mat 128 256 := fun i =>
  (f i - rowMean f (i 0)) * Ideal.rsqrt (rowVar f (i 0) + epsW)

theorem pay4_read (s : Vec Ideal S128x128 .f32) (cn : Vec Ideal S128x1 .f32) (doc : Vec Ideal S128x768 .f32)
    (dw : Vec Ideal S768x128 .f32) (db : Vec Ideal S1x128 .f32) (g : Fin 128) (j : Fin 256) :
    k8_pay4 (F := Ideal) s cn doc dw db (ix2 g j)
      = normCore (concat (pooled s cn) (relu (dense doc dw db))) (ix2 g j) := by
  unfold k8_pay4 multiReduction
  simp only [mulf_apply, subf_apply, addf_apply, divf_apply, maximumf_apply, broadcast_apply, truncf_apply, rsqrt_read,
    shapeCast_self, broadcastTo_a1_ab_apply, broadcastTo_1b_ab_apply, shapeCast_a_a1_apply, Ideal.reduceAdd_def, rowSum_read,
    concat_read, matmul_doc_read]
  rfl

theorem pay1_read (n : FVec Ideal S128x256 .f32) (lg lb : Vec Ideal S1x256 .f32) (fw : Vec Ideal S256x128 .f32)
    (fb : Vec Ideal S1x128 .f32) (g j : Fin 128) :
    k8_pay1 (F := Ideal) n lg lb fw fb (ix2 g j)
      = relu (dense (fun i => n i * lg (ix2 0 (i 1)) + lb (ix2 0 (i 1))) fw fb) (ix2 g j) := by
  unfold k8_pay1
  simp only [mulf_apply, addf_apply, maximumf_apply, broadcast_apply, truncf_apply, shapeCast_self,
    broadcastTo_1b_ab_apply, matmul_fus_read]
  rfl

theorem pay2_read (n : FVec Ideal S128x256 .f32) (lg lb : Vec Ideal S1x256 .f32) (fw : Vec Ideal S256x128 .f32)
    (fb : Vec Ideal S1x128 .f32) (tw : Vec Ideal S128x32 .f32) (tb : Vec Ideal S1x32 .f32) (g : Fin 128) (j : Fin 32) :
    k8_pay2 (F := Ideal) n lg lb fw fb tw tb (ix2 g j)
      = dense (k8_pay1 (F := Ideal) n lg lb fw fb) tw tb (ix2 g j) := by
  unfold k8_pay2
  simp only [addf_apply, truncf_apply, shapeCast_self, broadcastTo_1b_ab_apply, matmul_task_read]
  rfl

theorem pay3_read (n : FVec Ideal S128x256 .f32) (lg lb : Vec Ideal S1x256 .f32) (fw : Vec Ideal S256x128 .f32)
    (fb : Vec Ideal S1x128 .f32) (mw : Vec Ideal S128x1 .f32) (mb : Vec Ideal S1x1 .f32) (g : Fin 128) (j : Fin 1) :
    k8_pay3 (F := Ideal) n lg lb fw fb mw mb (ix2 g j)
      = dense (k8_pay1 (F := Ideal) n lg lb fw fb) mw mb (ix2 g j) := by
  unfold k8_pay3
  simp only [addf_apply, truncf_apply, shapeCast_self, broadcastTo_1b_ab_apply, matmul_time_read]
  rfl

theorem normed_eq (s : Vec Ideal S128x128 .f32) (cn : Vec Ideal S128x1 .f32) (doc : Vec Ideal S128x768 .f32)
    (dw : Vec Ideal S768x128 .f32) (db : Vec Ideal S1x128 .f32) (lg lb : Vec Ideal S1x256 .f32) :
    (fun i => k8_pay4 (F := Ideal) s cn doc dw db i * lg (ix2 0 (i 1)) + lb (ix2 0 (i 1)))
      = normedOf doc dw db lg lb s cn := by
  funext i
  obtain ⟨g, j, rfl⟩ : ∃ (g : Fin 128) (j : Fin 256), i = ix2 g j := ⟨i 0, i 1, eq_ix2 i⟩
  rw [pay4_read]
  rfl

theorem act_eq (s : Vec Ideal S128x128 .f32) (cn : Vec Ideal S128x1 .f32) (doc : Vec Ideal S128x768 .f32)
    (dw : Vec Ideal S768x128 .f32) (db : Vec Ideal S1x128 .f32) (lg lb : Vec Ideal S1x256 .f32)
    (fw : Vec Ideal S256x128 .f32) (fb : Vec Ideal S1x128 .f32) :
    k8_pay1 (F := Ideal) (k8_pay4 (F := Ideal) s cn doc dw db) lg lb fw fb = actOf doc dw db lg lb fw fb s cn := by
  funext i
  obtain ⟨g, j, rfl⟩ : ∃ (g j : Fin 128), i = ix2 g j := ⟨i 0, i 1, eq_ix2 i⟩
  rw [pay1_read, normed_eq]
  rfl

theorem task_eq (s : Vec Ideal S128x128 .f32) (cn : Vec Ideal S128x1 .f32) (doc : Vec Ideal S128x768 .f32)
    (dw : Vec Ideal S768x128 .f32) (db : Vec Ideal S1x128 .f32) (lg lb : Vec Ideal S1x256 .f32)
    (fw : Vec Ideal S256x128 .f32) (fb : Vec Ideal S1x128 .f32) (tw : Vec Ideal S128x32 .f32) (tb : Vec Ideal S1x32 .f32) :
    k8_pay2 (F := Ideal) (k8_pay4 (F := Ideal) s cn doc dw db) lg lb fw fb tw tb
      = taskOf doc dw db lg lb fw fb tw tb s cn := by
  funext i
  obtain ⟨g, j, rfl⟩ : ∃ (g : Fin 128) (j : Fin 32), i = ix2 g j := ⟨i 0, i 1, eq_ix2 i⟩
  rw [pay2_read, act_eq]
  rfl

theorem time_eq (s : Vec Ideal S128x128 .f32) (cn : Vec Ideal S128x1 .f32) (doc : Vec Ideal S128x768 .f32)
    (dw : Vec Ideal S768x128 .f32) (db : Vec Ideal S1x128 .f32) (lg lb : Vec Ideal S1x256 .f32)
    (fw : Vec Ideal S256x128 .f32) (fb : Vec Ideal S1x128 .f32) (mw : Vec Ideal S128x1 .f32) (mb : Vec Ideal S1x1 .f32) :
    k8_pay3 (F := Ideal) (k8_pay4 (F := Ideal) s cn doc dw db) lg lb fw fb mw mb
      = timeOf doc dw db lg lb fw fb mw mb s cn := by
  funext i
  obtain ⟨g, j, rfl⟩ : ∃ (g : Fin 128) (j : Fin 1), i = ix2 g j := ⟨i 0, i 1, eq_ix2 i⟩
  rw [pay3_read, act_eq]
  rfl

theorem hz8 : (![0, 0] : Fin 2 → Nat) = fun _ => 0 := funext fun a => match a with | ⟨0, _⟩ => rfl | ⟨1, _⟩ => rfl

theorem idx8_0 : ∀ (t : Fin cfg8.N) (a : Fin 2), win8_0.index t a = 0 :=
  (by decide +kernel : ∀ (t : Fin grid8.N) (a : Fin 2), win8_0.index t a = 0)
theorem idx8_1 : ∀ (t : Fin cfg8.N) (a : Fin 2), win8_1.index t a = 0 :=
  (by decide +kernel : ∀ (t : Fin grid8.N) (a : Fin 2), win8_1.index t a = 0)
theorem idx8_2 : ∀ (t : Fin cfg8.N) (a : Fin 2), win8_2.index t a = 0 :=
  (by decide +kernel : ∀ (t : Fin grid8.N) (a : Fin 2), win8_2.index t a = 0)
theorem idx8_3 : ∀ (t : Fin cfg8.N) (a : Fin 2), win8_3.index t a = 0 :=
  (by decide +kernel : ∀ (t : Fin grid8.N) (a : Fin 2), win8_3.index t a = 0)
theorem idx8_4 : ∀ (t : Fin cfg8.N) (a : Fin 2), win8_4.index t a = 0 :=
  (by decide +kernel : ∀ (t : Fin grid8.N) (a : Fin 2), win8_4.index t a = 0)
theorem idx8_5 : ∀ (t : Fin cfg8.N) (a : Fin 2), win8_5.index t a = 0 :=
  (by decide +kernel : ∀ (t : Fin grid8.N) (a : Fin 2), win8_5.index t a = 0)
theorem idx8_6 : ∀ (t : Fin cfg8.N) (a : Fin 2), win8_6.index t a = 0 :=
  (by decide +kernel : ∀ (t : Fin grid8.N) (a : Fin 2), win8_6.index t a = 0)
theorem idx8_7 : ∀ (t : Fin cfg8.N) (a : Fin 2), win8_7.index t a = 0 :=
  (by decide +kernel : ∀ (t : Fin grid8.N) (a : Fin 2), win8_7.index t a = 0)
theorem idx8_8 : ∀ (t : Fin cfg8.N) (a : Fin 2), win8_8.index t a = 0 :=
  (by decide +kernel : ∀ (t : Fin grid8.N) (a : Fin 2), win8_8.index t a = 0)
theorem idx8_9 : ∀ (t : Fin cfg8.N) (a : Fin 2), win8_9.index t a = 0 :=
  (by decide +kernel : ∀ (t : Fin grid8.N) (a : Fin 2), win8_9.index t a = 0)
theorem idx8_10 : ∀ (t : Fin cfg8.N) (a : Fin 2), win8_10.index t a = 0 :=
  (by decide +kernel : ∀ (t : Fin grid8.N) (a : Fin 2), win8_10.index t a = 0)
theorem idx8_11 : ∀ (t : Fin cfg8.N) (a : Fin 2), win8_11.index t a = 0 :=
  (by decide +kernel : ∀ (t : Fin grid8.N) (a : Fin 2), win8_11.index t a = 0)
theorem idx8_12 : ∀ (t : Fin cfg8.N) (a : Fin 2), win8_12.index t a = 0 :=
  (by decide +kernel : ∀ (t : Fin grid8.N) (a : Fin 2), win8_12.index t a = 0)
theorem idx8_13 : ∀ (t : Fin cfg8.N) (a : Fin 2), win8_13.index t a = 0 :=
  (by decide +kernel : ∀ (t : Fin grid8.N) (a : Fin 2), win8_13.index t a = 0)
theorem idx8_14 : ∀ (t : Fin cfg8.N) (a : Fin 2), win8_14.index t a = 0 :=
  (by decide +kernel : ∀ (t : Fin grid8.N) (a : Fin 2), win8_14.index t a = 0)

theorem blk8_0 (c : Dev nD) (t : Fin cfg8.N) : (iblk8 V c 0 t : Vec Ideal S128x128 .f32) = V c main_v41_0 := by
  funext y
  show V c main_v41_0 (((cfg8.win 0).blk t).view.emb y) = V c main_v41_0 y
  exact congrArg _ (funext fun a => Fin.ext (win8_0.rect_emb_val_of_index_zero t a (idx8_0 t a) y))
theorem blk8_1 (c : Dev nD) (t : Fin cfg8.N) : (iblk8 V c 1 t : Vec Ideal S128x1 .f32) = V c main_v42 := by
  funext y
  show V c main_v42 (((cfg8.win 1).blk t).view.emb y) = V c main_v42 y
  exact congrArg _ (funext fun a => Fin.ext (win8_1.rect_emb_val_of_index_zero t a (idx8_1 t a) y))
theorem blk8_2 (c : Dev nD) (t : Fin cfg8.N) : (iblk8 V c 2 t : Vec Ideal S128x768 .f32) = V c main_arg1 := by
  funext y
  show V c main_arg1 (((cfg8.win 2).blk t).view.emb y) = V c main_arg1 y
  exact congrArg _ (funext fun a => Fin.ext (win8_2.rect_emb_val_of_index_zero t a (idx8_2 t a) y))
theorem blk8_3 (c : Dev nD) (t : Fin cfg8.N) : (iblk8 V c 3 t : Vec Ideal S768x128 .f32) = V c main_arg9 := by
  funext y
  show V c main_arg9 (((cfg8.win 3).blk t).view.emb y) = V c main_arg9 y
  exact congrArg _ (funext fun a => Fin.ext (win8_3.rect_emb_val_of_index_zero t a (idx8_3 t a) y))
theorem blk8_4 (c : Dev nD) (t : Fin cfg8.N) : (iblk8 V c 4 t : Vec Ideal S1x128 .f32) = V c main_v43 := by
  funext y
  show V c main_v43 (((cfg8.win 4).blk t).view.emb y) = V c main_v43 y
  exact congrArg _ (funext fun a => Fin.ext (win8_4.rect_emb_val_of_index_zero t a (idx8_4 t a) y))
theorem blk8_5 (c : Dev nD) (t : Fin cfg8.N) : (iblk8 V c 5 t : Vec Ideal S1x256 .f32) = V c main_v44 := by
  funext y
  show V c main_v44 (((cfg8.win 5).blk t).view.emb y) = V c main_v44 y
  exact congrArg _ (funext fun a => Fin.ext (win8_5.rect_emb_val_of_index_zero t a (idx8_5 t a) y))
theorem blk8_6 (c : Dev nD) (t : Fin cfg8.N) : (iblk8 V c 6 t : Vec Ideal S1x256 .f32) = V c main_v45 := by
  funext y
  show V c main_v45 (((cfg8.win 6).blk t).view.emb y) = V c main_v45 y
  exact congrArg _ (funext fun a => Fin.ext (win8_6.rect_emb_val_of_index_zero t a (idx8_6 t a) y))
theorem blk8_7 (c : Dev nD) (t : Fin cfg8.N) : (iblk8 V c 7 t : Vec Ideal S256x128 .f32) = V c main_arg13 := by
  funext y
  show V c main_arg13 (((cfg8.win 7).blk t).view.emb y) = V c main_arg13 y
  exact congrArg _ (funext fun a => Fin.ext (win8_7.rect_emb_val_of_index_zero t a (idx8_7 t a) y))
theorem blk8_8 (c : Dev nD) (t : Fin cfg8.N) : (iblk8 V c 8 t : Vec Ideal S1x128 .f32) = V c main_v46 := by
  funext y
  show V c main_v46 (((cfg8.win 8).blk t).view.emb y) = V c main_v46 y
  exact congrArg _ (funext fun a => Fin.ext (win8_8.rect_emb_val_of_index_zero t a (idx8_8 t a) y))
theorem blk8_9 (c : Dev nD) (t : Fin cfg8.N) : (iblk8 V c 9 t : Vec Ideal S128x32 .f32) = V c main_arg15 := by
  funext y
  show V c main_arg15 (((cfg8.win 9).blk t).view.emb y) = V c main_arg15 y
  exact congrArg _ (funext fun a => Fin.ext (win8_9.rect_emb_val_of_index_zero t a (idx8_9 t a) y))
theorem blk8_10 (c : Dev nD) (t : Fin cfg8.N) : (iblk8 V c 10 t : Vec Ideal S1x32 .f32) = V c main_v47 := by
  funext y
  show V c main_v47 (((cfg8.win 10).blk t).view.emb y) = V c main_v47 y
  exact congrArg _ (funext fun a => Fin.ext (win8_10.rect_emb_val_of_index_zero t a (idx8_10 t a) y))
theorem blk8_11 (c : Dev nD) (t : Fin cfg8.N) : (iblk8 V c 11 t : Vec Ideal S128x1 .f32) = V c main_arg17 := by
  funext y
  show V c main_arg17 (((cfg8.win 11).blk t).view.emb y) = V c main_arg17 y
  exact congrArg _ (funext fun a => Fin.ext (win8_11.rect_emb_val_of_index_zero t a (idx8_11 t a) y))
theorem blk8_12 (c : Dev nD) (t : Fin cfg8.N) : (iblk8 V c 12 t : Vec Ideal S1x1 .f32) = V c main_v48 := by
  funext y
  show V c main_v48 (((cfg8.win 12).blk t).view.emb y) = V c main_v48 y
  exact congrArg _ (funext fun a => Fin.ext (win8_12.rect_emb_val_of_index_zero t a (idx8_12 t a) y))

theorem whole8_13 (G : Vec Ideal S128x32 .f32) (t : Fin cfg8.N) :
    (cfg8.win 13).cut (grid8.coords t) G = ((cfg8.win 13).blk t).view.read (Elt Ideal) G := by
  funext y
  show G y = G (((cfg8.win 13).blk t).view.emb y)
  exact (congrArg G (funext fun a => Fin.ext (win8_13.rect_emb_val_of_index_zero t a (idx8_13 t a) y))).symm

theorem whole8_14 (G : Vec Ideal S128x1 .f32) (t : Fin cfg8.N) :
    (cfg8.win 14).cut (grid8.coords t) G = ((cfg8.win 14).blk t).view.read (Elt Ideal) G := by
  funext y
  show G y = G (((cfg8.win 14).blk t).view.emb y)
  exact (congrArg G (funext fun a => Fin.ext (win8_14.rect_emb_val_of_index_zero t a (idx8_14 t a) y))).symm

theorem mem_blk8_13 (t : Fin cfg8.N) (i : S128x32.Idx) :
    i ∈ ((cfg8.win 13).blk t).view.set ↔ ∀ a : Fin 2, win8_13.index t a * S128x32.size a ≤ (i a).val ∧ (i a).val < win8_13.index t a * S128x32.size a + S128x32.size a := by
  show i ∈ ((View.whole main_v49_0).slice (win8_13.rect t)).set ↔ _
  rw [View.set_slice_whole, Rect.mem_set_unit]
  exact Iff.rfl

theorem mem_blk8_14 (t : Fin cfg8.N) (i : S128x1.Idx) :
    i ∈ ((cfg8.win 14).blk t).view.set ↔ ∀ a : Fin 2, win8_14.index t a * S128x1.size a ≤ (i a).val ∧ (i a).val < win8_14.index t a * S128x1.size a + S128x1.size a := by
  show i ∈ ((View.whole main_v49_1).slice (win8_14.rect t)).set ↔ _
  rw [View.set_slice_whole, Rect.mem_set_unit]
  exact Iff.rfl

theorem covered8_13 (i : S128x32.Idx) :
    ∃ t : Fin cfg8.N, (cfg8.win 13).flush t = true ∧ i ∈ ((cfg8.win 13).blk t).view.set := by
  refine ⟨t8_0, flush8_13 t8_0, ?_⟩
  rw [mem_blk8_13]
  intro a
  have e := idx8_13 t8_0 a
  match a, e with
  | ⟨0, _⟩, e =>
    show win8_13.index t8_0 (0 : Fin 2) * 128 ≤ (i 0).val ∧ (i 0).val < win8_13.index t8_0 (0 : Fin 2) * 128 + 128
    have h : (i 0).val < 128 := (i 0).isLt
    have e' : win8_13.index t8_0 (0 : Fin 2) = 0 := e
    omega
  | ⟨1, _⟩, e =>
    show win8_13.index t8_0 (1 : Fin 2) * 32 ≤ (i 1).val ∧ (i 1).val < win8_13.index t8_0 (1 : Fin 2) * 32 + 32
    have h : (i 1).val < 32 := (i 1).isLt
    have e' : win8_13.index t8_0 (1 : Fin 2) = 0 := e
    omega

theorem covered8_14 (i : S128x1.Idx) :
    ∃ t : Fin cfg8.N, (cfg8.win 14).flush t = true ∧ i ∈ ((cfg8.win 14).blk t).view.set := by
  refine ⟨t8_0, flush8_14 t8_0, ?_⟩
  rw [mem_blk8_14]
  intro a
  have e := idx8_14 t8_0 a
  match a, e with
  | ⟨0, _⟩, e =>
    show win8_14.index t8_0 (0 : Fin 2) * 128 ≤ (i 0).val ∧ (i 0).val < win8_14.index t8_0 (0 : Fin 2) * 128 + 128
    have h : (i 0).val < 128 := (i 0).isLt
    have e' : win8_14.index t8_0 (0 : Fin 2) = 0 := e
    omega
  | ⟨1, _⟩, e =>
    show win8_14.index t8_0 (1 : Fin 2) * 1 ≤ (i 1).val ∧ (i 1).val < win8_14.index t8_0 (1 : Fin 2) * 1 + 1
    have h : (i 1).val < 1 := (i 1).isLt
    have e' : win8_14.index t8_0 (1 : Fin 2) = 0 := e
    omega

theorem flushed8_13_eq (c : Dev nD) (t : Fin cfg8.N) :
    (dat8 (F := Ideal) V c).flushed 13 t
      = ((cfg8.win 13).blk t).view.read (Elt Ideal)
          (taskOf (V c main_arg1) (V c main_arg9) (V c main_v43) (V c main_v44) (V c main_v45) (V c main_arg13) (V c main_v46)
            (V c main_arg15) (V c main_v47) (V c main_v41_0) (V c main_v42)) := by
  show (cfg8.win 13).cut (grid8.coords t) ((dat8 (F := Ideal) V c).after 13 t) = _
  rw [after8_13]
  unfold out8_13
  rw [View.canon_unit_zero hz8]
  simp only [View.ld_unit_zero (S := S128x128) hz8, View.ld_unit_zero (S := S128x1) hz8, View.ld_unit_zero (S := S128x768) hz8,
    View.ld_unit_zero (S := S768x128) hz8, View.ld_unit_zero (S := S1x128) hz8, View.ld_unit_zero (S := S1x256) hz8,
    View.ld_unit_zero (S := S256x128) hz8, View.ld_unit_zero (S := S128x32) hz8, View.ld_unit_zero (S := S1x32) hz8]
  rw [blk8_0 V c t, blk8_1 V c t, blk8_2 V c t, blk8_3 V c t, blk8_4 V c t, blk8_5 V c t, blk8_6 V c t, blk8_7 V c t,
    blk8_8 V c t, blk8_9 V c t, blk8_10 V c t, task_eq]
  exact whole8_13 _ t

theorem flushed8_14_eq (c : Dev nD) (t : Fin cfg8.N) :
    (dat8 (F := Ideal) V c).flushed 14 t
      = ((cfg8.win 14).blk t).view.read (Elt Ideal)
          (timeOf (V c main_arg1) (V c main_arg9) (V c main_v43) (V c main_v44) (V c main_v45) (V c main_arg13) (V c main_v46)
            (V c main_arg17) (V c main_v48) (V c main_v41_0) (V c main_v42)) := by
  show (cfg8.win 14).cut (grid8.coords t) ((dat8 (F := Ideal) V c).after 14 t) = _
  rw [after8_14]
  unfold out8_14
  rw [View.canon_unit_zero hz8]
  simp only [View.ld_unit_zero (S := S128x128) hz8, View.ld_unit_zero (S := S128x1) hz8, View.ld_unit_zero (S := S128x768) hz8,
    View.ld_unit_zero (S := S768x128) hz8, View.ld_unit_zero (S := S1x128) hz8, View.ld_unit_zero (S := S1x256) hz8,
    View.ld_unit_zero (S := S256x128) hz8, View.ld_unit_zero (S := S1x1) hz8]
  rw [blk8_0 V c t, blk8_1 V c t, blk8_2 V c t, blk8_3 V c t, blk8_4 V c t, blk8_5 V c t, blk8_6 V c t, blk8_7 V c t,
    blk8_8 V c t, blk8_11 V c t, blk8_12 V c t, time_eq]
  exact whole8_14 _ t

end Fusion

theorem region8_task (c : Dev nD) :
    (dat8 (F := Ideal) V c).arrAt 13 cfg8.N
      = taskOf (V c main_arg1) (V c main_arg9) (V c main_v43) (V c main_v44) (V c main_v45) (V c main_arg13) (V c main_v46)
          (V c main_arg15) (V c main_v47) (V c main_v41_0) (V c main_v42) :=
  (dat8 (F := Ideal) V c).arrAt_eq_of_cover 13 _ (fun t _ => Fusion.flushed8_13_eq V c t) Fusion.covered8_13

theorem region8_time (c : Dev nD) :
    (dat8 (F := Ideal) V c).arrAt 14 cfg8.N
      = timeOf (V c main_arg1) (V c main_arg9) (V c main_v43) (V c main_v44) (V c main_v45) (V c main_arg13) (V c main_v46)
          (V c main_arg17) (V c main_v48) (V c main_v41_0) (V c main_v42) :=
  (dat8 (F := Ideal) V c).arrAt_eq_of_cover 14 _ (fun t _ => Fusion.flushed8_14_eq V c t) Fusion.covered8_14

end Cert.KVal

end
-- ==== Proof.RAgg.lean ====
import proofs.«423503_j25220047962222_1_alg».proof.Proof.RRead

/-! The reference's edge aggregation as one function of the edge array and the messages; all three layers apply it. -/

noncomputable section

namespace Cert.RVal

open Cert.ReferenceIdeal Cert.ReferenceIdeal.Gen Cert.ReferenceIdeal.ReadP Idealize.ShloMosaic Idealize.ShloMosaic.TcCoe
open Idealize.ShloMosaic.StableHlo

variable {F : FTy → Type} [FloatOps F]

def agg (e : (⟨S2x1600000, .i32⟩ : BufTy).Contents (Elt F)) (msg : (⟨S100000x128, .f32⟩ : BufTy).Contents (Elt F)) :
    (⟨S100000x128, .f32⟩ : BufTy).Contents (Elt F) :=
  Host.scatterAdd scatter_S100000x128_S1600000x1_S1600000x128_1_0_0_1 (val_main_v19 (F := F)) (val_main_v20 (F := F) e)
    (Host.gather gather_S100000x128_S1600000x1_S1600000x128_1_0_n_n_0_1_1128 msg (val_main_v17 (F := F) e))

end Cert.RVal

end
-- ==== Proof.AggEq.lean ====
import proofs.«423503_j25220047962222_1_alg».proof.Proof.KHost
import proofs.«423503_j25220047962222_1_alg».proof.Proof.RAgg

set_option maxRecDepth 16384

/-! Both programs gather the messages at the wrapped edge sources and scatter-add them over the edge targets with the same operations: one function. -/

noncomputable section

namespace Cert.AggEq

open Idealize.ShloMosaic Idealize.ShloMosaic.TcCoe

variable {F : FTy → Type} [FloatOps F]

theorem agg_eq (e : IVec (⟨2, ![2, 1600000]⟩ : Shape) 32) (msg : FVec F (⟨2, ![100000, 128]⟩ : Shape) .f32) :
    Cert.KVal.agg (F := F) e msg = Cert.RVal.agg (F := F) e msg := by

  rfl

end Cert.AggEq

end
-- ==== Proof.RLin.lean ====
import proofs.«423503_j25220047962222_1_alg».proof.Proof.RRead
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! The reference's dense layers, each read at an entry as the stage it is. -/

noncomputable section

namespace Cert.RVal

open Cert.ReferenceIdeal Cert.ReferenceIdeal.ReadP Idealize.ShloMosaic Idealize.ShloMosaic.TcCoe Idealize.ShloMosaic.ValueIdx
open Idealize.ShloMosaic.StableHlo Cert.Spec

variable (x0 : (⟨S100000x64, .f32⟩ : BufTy).Contents (Elt Ideal)) (x1 : (⟨S128x768, .f32⟩ : BufTy).Contents (Elt Ideal)) (x2 : (⟨S64x128, .f32⟩ : BufTy).Contents (Elt Ideal))
  (x3 : (⟨S128, .f32⟩ : BufTy).Contents (Elt Ideal)) (x4 : (⟨S3x128x128, .f32⟩ : BufTy).Contents (Elt Ideal)) (x5 : (⟨S128x384, .f32⟩ : BufTy).Contents (Elt Ideal))
  (x6 : (⟨S384, .f32⟩ : BufTy).Contents (Elt Ideal)) (x7 : (⟨S128x384, .f32⟩ : BufTy).Contents (Elt Ideal)) (x8 : (⟨S384, .f32⟩ : BufTy).Contents (Elt Ideal))
  (x9 : (⟨S768x128, .f32⟩ : BufTy).Contents (Elt Ideal)) (x10 : (⟨S128, .f32⟩ : BufTy).Contents (Elt Ideal)) (x11 x12 : (⟨S256, .f32⟩ : BufTy).Contents (Elt Ideal))
  (x13 : (⟨S256x128, .f32⟩ : BufTy).Contents (Elt Ideal)) (x14 : (⟨S128, .f32⟩ : BufTy).Contents (Elt Ideal)) (x15 : (⟨S128x32, .f32⟩ : BufTy).Contents (Elt Ideal))
  (x16 : (⟨S32, .f32⟩ : BufTy).Contents (Elt Ideal)) (x17 : (⟨S128x1, .f32⟩ : BufTy).Contents (Elt Ideal)) (x18 : (⟨S1, .f32⟩ : BufTy).Contents (Elt Ideal))
  (x19 : (⟨S2x1600000, .i32⟩ : BufTy).Contents (Elt Ideal)) (x20 : (⟨S100000, .i32⟩ : BufTy).Contents (Elt Ideal))

private theorem lidx4 (p : Fin 100000) (q : Fin 128) (k : Fin 64) : lidx_main_v4 (ix2 p q) k = ix2 p k :=
  funext fun a => Fin.ext (by match a with | ⟨0, _⟩ => rfl | ⟨1, _⟩ => rfl)
private theorem ridx4 (p : Fin 100000) (q : Fin 128) (k : Fin 64) : ridx_main_v4 (ix2 p q) k = ix2 k q :=
  funext fun a => Fin.ext (by match a with | ⟨0, _⟩ => rfl | ⟨1, _⟩ => rfl)
private theorem bidx6 (p : Fin 100000) (q : Fin 128) : idx_main_v5 (idx_main_v6 (ix2 p q)) = ix1 q :=
  funext fun a => Fin.ext (by match a with | ⟨0, _⟩ => rfl)

private theorem lidx11 (p : Fin 100000) (q : Fin 128) (k : Fin 128) : lidx_main_v11 (ix2 p q) k = ix2 p k :=
  funext fun a => Fin.ext (by match a with | ⟨0, _⟩ => rfl | ⟨1, _⟩ => rfl)
private theorem sidx11 (p : Fin 100000) (q : Fin 128) (k : Fin 128) :
    idx_main_v9 (idx_main_v10 (ridx_main_v11 (ix2 p q) k)) = ix3 0 k q :=
  funext fun a => Fin.ext (by
    have hk : k.val < 128 := k.isLt
    have hq : q.val < 128 := q.isLt
    match a with
    | ⟨0, _⟩ => rfl
    | ⟨1, _⟩ => show (k.val * 128 + q.val) / 128 % 128 = k.val; omega
    | ⟨2, _⟩ => show (k.val * 128 + q.val) % 128 = q.val; omega)

private theorem lidx60 (p : Fin 100000) (q : Fin 128) (k : Fin 128) : lidx_main_v60 (ix2 p q) k = ix2 p k :=
  funext fun a => Fin.ext (by match a with | ⟨0, _⟩ => rfl | ⟨1, _⟩ => rfl)
private theorem sidx60 (p : Fin 100000) (q : Fin 128) (k : Fin 128) :
    idx_main_v58 (idx_main_v59 (ridx_main_v60 (ix2 p q) k)) = ix3 1 k q :=
  funext fun a => Fin.ext (by
    have hk : k.val < 128 := k.isLt
    have hq : q.val < 128 := q.isLt
    match a with
    | ⟨0, _⟩ => rfl
    | ⟨1, _⟩ => show (k.val * 128 + q.val) / 128 % 128 = k.val; omega
    | ⟨2, _⟩ => show (k.val * 128 + q.val) % 128 = q.val; omega)

private theorem lidx109 (p : Fin 100000) (q : Fin 128) (k : Fin 128) : lidx_main_v109 (ix2 p q) k = ix2 p k :=
  funext fun a => Fin.ext (by match a with | ⟨0, _⟩ => rfl | ⟨1, _⟩ => rfl)
private theorem sidx109 (p : Fin 100000) (q : Fin 128) (k : Fin 128) :
    idx_main_v107 (idx_main_v108 (ridx_main_v109 (ix2 p q) k)) = ix3 2 k q :=
  funext fun a => Fin.ext (by
    have hk : k.val < 128 := k.isLt
    have hq : q.val < 128 := q.isLt
    match a with
    | ⟨0, _⟩ => rfl
    | ⟨1, _⟩ => show (k.val * 128 + q.val) / 128 % 128 = k.val; omega
    | ⟨2, _⟩ => show (k.val * 128 + q.val) % 128 = q.val; omega)

private theorem lidx168 (p : Fin 128) (q : Fin 128) (k : Fin 768) : lidx_main_v168 (ix2 p q) k = ix2 p k :=
  funext fun a => Fin.ext (by match a with | ⟨0, _⟩ => rfl | ⟨1, _⟩ => rfl)
private theorem ridx168 (p : Fin 128) (q : Fin 128) (k : Fin 768) : ridx_main_v168 (ix2 p q) k = ix2 k q :=
  funext fun a => Fin.ext (by match a with | ⟨0, _⟩ => rfl | ⟨1, _⟩ => rfl)
private theorem bidx170 (p : Fin 128) (q : Fin 128) : idx_main_v169 (idx_main_v170 (ix2 p q)) = ix1 q :=
  funext fun a => Fin.ext (by match a with | ⟨0, _⟩ => rfl)

private theorem lidx198 (p : Fin 128) (q : Fin 128) (k : Fin 256) : lidx_main_v198 (ix2 p q) k = ix2 p k :=
  funext fun a => Fin.ext (by match a with | ⟨0, _⟩ => rfl | ⟨1, _⟩ => rfl)
private theorem ridx198 (p : Fin 128) (q : Fin 128) (k : Fin 256) : ridx_main_v198 (ix2 p q) k = ix2 k q :=
  funext fun a => Fin.ext (by match a with | ⟨0, _⟩ => rfl | ⟨1, _⟩ => rfl)
private theorem bidx200 (p : Fin 128) (q : Fin 128) : idx_main_v199 (idx_main_v200 (ix2 p q)) = ix1 q :=
  funext fun a => Fin.ext (by match a with | ⟨0, _⟩ => rfl)

private theorem lidx203 (p : Fin 128) (q : Fin 32) (k : Fin 128) : lidx_main_v203 (ix2 p q) k = ix2 p k :=
  funext fun a => Fin.ext (by match a with | ⟨0, _⟩ => rfl | ⟨1, _⟩ => rfl)
private theorem ridx203 (p : Fin 128) (q : Fin 32) (k : Fin 128) : ridx_main_v203 (ix2 p q) k = ix2 k q :=
  funext fun a => Fin.ext (by match a with | ⟨0, _⟩ => rfl | ⟨1, _⟩ => rfl)
private theorem bidx205 (p : Fin 128) (q : Fin 32) : idx_main_v204 (idx_main_v205 (ix2 p q)) = ix1 q :=
  funext fun a => Fin.ext (by match a with | ⟨0, _⟩ => rfl)

private theorem lidx207 (p : Fin 128) (q : Fin 1) (k : Fin 128) : lidx_main_v207 (ix2 p q) k = ix2 p k :=
  funext fun a => Fin.ext (by match a with | ⟨0, _⟩ => rfl | ⟨1, _⟩ => rfl)
private theorem ridx207 (p : Fin 128) (q : Fin 1) (k : Fin 128) : ridx_main_v207 (ix2 p q) k = ix2 k q :=
  funext fun a => Fin.ext (by match a with | ⟨0, _⟩ => rfl | ⟨1, _⟩ => rfl)
private theorem bidx209 (p : Fin 128) (q : Fin 1) : idx_main_v208 (idx_main_v209 (ix2 p q)) = ix1 q :=
  funext fun a => Fin.ext (by
    have hq : q.val < 1 := q.isLt
    match a with | ⟨0, _⟩ => show 0 = q.val; omega)

theorem v8_eq : val_main_v8 (F := Ideal) x0 x2 x3 = relu (dense (n := 100000) (k := 64) (h := 128) x0 x2 (row x3)) := by
  funext i
  obtain ⟨p, q, rfl⟩ : ∃ (p : Fin 100000) (q : Fin 128), i = ix2 p q := ⟨i 0, i 1, eq_ix2 i⟩
  rw [val_main_v8_apply, val_main_v7_apply, val_main_v4_apply, val_main_v6_apply, val_main_v5_apply,
    val_main_call0_v0_apply, val_main_call0_cst_apply]
  simp only [lidx4, ridx4, bidx6, Ideal.maximumf_def, Ideal.addf_def, Ideal.ofBits_def, relu, dense, proj, row]

theorem v11_eq : val_main_v11 (F := Ideal) x0 x2 x3 x4 = proj (n := 100000) (k := 128) (h := 128) (val_main_v8 (F := Ideal) x0 x2 x3) (slab 0 x4) := by
  funext i
  obtain ⟨p, q, rfl⟩ : ∃ (p : Fin 100000) (q : Fin 128), i = ix2 p q := ⟨i 0, i 1, eq_ix2 i⟩
  rw [val_main_v11_apply]
  simp only [val_main_v10_apply, val_main_v9_apply, lidx11, sidx11, proj, slab]

theorem v60_eq : val_main_v60 (F := Ideal) x0 x2 x3 x4 x5 x6 x7 x8 x19 = proj (n := 100000) (k := 128) (h := 128) (val_main_v57 (F := Ideal) x0 x2 x3 x4 x5 x6 x7 x8 x19) (slab 1 x4) := by
  funext i
  obtain ⟨p, q, rfl⟩ : ∃ (p : Fin 100000) (q : Fin 128), i = ix2 p q := ⟨i 0, i 1, eq_ix2 i⟩
  rw [val_main_v60_apply]
  simp only [val_main_v59_apply, val_main_v58_apply, lidx60, sidx60, proj, slab]

theorem v109_eq : val_main_v109 (F := Ideal) x0 x2 x3 x4 x5 x6 x7 x8 x19 = proj (n := 100000) (k := 128) (h := 128) (val_main_v106 (F := Ideal) x0 x2 x3 x4 x5 x6 x7 x8 x19) (slab 2 x4) := by
  funext i
  obtain ⟨p, q, rfl⟩ : ∃ (p : Fin 100000) (q : Fin 128), i = ix2 p q := ⟨i 0, i 1, eq_ix2 i⟩
  rw [val_main_v109_apply]
  simp only [val_main_v108_apply, val_main_v107_apply, lidx109, sidx109, proj, slab]

theorem v172_eq : val_main_v172 (F := Ideal) x1 x9 x10 = relu (dense (n := 128) (k := 768) (h := 128) x1 x9 (row x10)) := by
  funext i
  obtain ⟨p, q, rfl⟩ : ∃ (p : Fin 128) (q : Fin 128), i = ix2 p q := ⟨i 0, i 1, eq_ix2 i⟩
  rw [val_main_v172_apply, val_main_v171_apply, val_main_v168_apply, val_main_v170_apply, val_main_v169_apply,
    val_main_call1_v0_apply, val_main_call1_cst_apply]
  simp only [lidx168, ridx168, bidx170, Ideal.maximumf_def, Ideal.addf_def, Ideal.ofBits_def, relu, dense, proj, row]

theorem v202_eq : val_main_v202 (F := Ideal) x0 x1 x2 x3 x4 x5 x6 x7 x8 x9 x10 x11 x12 x13 x14 x19 x20 = relu (dense (n := 128) (k := 256) (h := 128) (val_main_v197 (F := Ideal) x0 x1 x2 x3 x4 x5 x6 x7 x8 x9 x10 x11 x12 x19 x20) x13 (row x14)) := by
  funext i
  obtain ⟨p, q, rfl⟩ : ∃ (p : Fin 128) (q : Fin 128), i = ix2 p q := ⟨i 0, i 1, eq_ix2 i⟩
  rw [val_main_v202_apply, val_main_v201_apply, val_main_v198_apply, val_main_v200_apply, val_main_v199_apply,
    val_main_call2_v0_apply, val_main_call2_cst_apply]
  simp only [lidx198, ridx198, bidx200, Ideal.maximumf_def, Ideal.addf_def, Ideal.ofBits_def, relu, dense, proj, row]

theorem v206_eq : val_main_v206 (F := Ideal) x0 x1 x2 x3 x4 x5 x6 x7 x8 x9 x10 x11 x12 x13 x14 x15 x16 x19 x20 = dense (n := 128) (k := 128) (h := 32) (val_main_v202 (F := Ideal) x0 x1 x2 x3 x4 x5 x6 x7 x8 x9 x10 x11 x12 x13 x14 x19 x20) x15 (row x16) := by
  funext i
  obtain ⟨p, q, rfl⟩ : ∃ (p : Fin 128) (q : Fin 32), i = ix2 p q := ⟨i 0, i 1, eq_ix2 i⟩
  rw [val_main_v206_apply, val_main_v203_apply, val_main_v205_apply, val_main_v204_apply]
  simp only [lidx203, ridx203, bidx205, Ideal.addf_def, dense, proj, row]

theorem v210_eq : val_main_v210 (F := Ideal) x0 x1 x2 x3 x4 x5 x6 x7 x8 x9 x10 x11 x12 x13 x14 x17 x18 x19 x20 = dense (n := 128) (k := 128) (h := 1) (val_main_v202 (F := Ideal) x0 x1 x2 x3 x4 x5 x6 x7 x8 x9 x10 x11 x12 x13 x14 x19 x20) x17 (row x18) := by
  funext i
  obtain ⟨p, q, rfl⟩ : ∃ (p : Fin 128) (q : Fin 1), i = ix2 p q := ⟨i 0, i 1, eq_ix2 i⟩
  rw [val_main_v210_apply, val_main_v207_apply, val_main_v209_apply, val_main_v208_apply]
  simp only [lidx207, ridx207, bidx209, Ideal.addf_def, dense, proj, row]

end Cert.RVal

end
-- ==== Proof.RGru.lean ====
import proofs.«423503_j25220047962222_1_alg».proof.Proof.RRead
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! The reference's GRU steps are the specification's cell; it spells the logistic as 1 / (1 + exp(−x)), which is the logistic on the extended reals. -/

noncomputable section

namespace Cert.RVal

open Cert.ReferenceIdeal Cert.ReferenceIdeal.ReadP Idealize.ShloMosaic Idealize.ShloMosaic.TcCoe Idealize.ShloMosaic.ValueIdx
open Idealize.ShloMosaic.StableHlo Cert.Spec

open Cert.ReferenceIdeal.Gen

namespace Gru

section Ops

variable {F : FTy → Type} [FloatOps F]

abbrev NodeArr (F : FTy → Type) : Type := (⟨S100000x128, .f32⟩ : BufTy).Contents (Elt F)
abbrev GateArr (F : FTy → Type) : Type := (⟨S100000x384, .f32⟩ : BufTy).Contents (Elt F)
abbrev GateW (F : FTy → Type) : Type := (⟨S128x384, .f32⟩ : BufTy).Contents (Elt F)
abbrev GateB (F : FTy → Type) : Type := (⟨S384, .f32⟩ : BufTy).Contents (Elt F)

def onesOp : NodeArr F :=
  broadcastInDim S100000x128 ![] bcast_S_S100000x128 (constant (F := F) S_ .f32 0x3F800000#32)

def affineOp (x : NodeArr F) (w : GateW F) (b : GateB F) : GateArr F :=
  addf (Host.dotGeneral dot_S100000x128_S128x384_S100000x384_1_0_0_1_n_n none x w)
    (broadcastInDim S100000x384 ![0, 1] bcast_S1x384_S100000x384_0_1 (broadcastInDim S1x384 ![1] bcast_S384_S1x384_1 b))

def cut0 (y : GateArr F) : NodeArr F := extractStridedSlice S100000x128 ![0, 0] y slices_S100000x384_S100000x128_0_0
def cut1 (y : GateArr F) : NodeArr F := extractStridedSlice S100000x128 ![0, 128] y slices_S100000x384_S100000x128_0_128
def cut2 (y : GateArr F) : NodeArr F := extractStridedSlice S100000x128 ![0, 256] y slices_S100000x384_S100000x128_0_256

def sigmOp (y : NodeArr F) : NodeArr F :=
  Host.divf onesOp (addf onesOp (Host.exp (Host.negf y)))

def gruOp (a h : NodeArr F) (wih : GateW F) (bih : GateB F) (whh : GateW F) (bhh : GateB F) : NodeArr F :=
  addf
    (mulf (subf onesOp (sigmOp (addf (cut1 (affineOp a wih bih)) (cut1 (affineOp h whh bhh)))))
      (Host.tanh (addf (cut2 (affineOp a wih bih))
        (mulf (sigmOp (addf (cut0 (affineOp a wih bih)) (cut0 (affineOp h whh bhh)))) (cut2 (affineOp h whh bhh))))))
    (mulf (sigmOp (addf (cut1 (affineOp a wih bih)) (cut1 (affineOp h whh bhh)))) h)

end Ops

private theorem one_word : Ideal.ofBits .f32 0x3F800000#32 = 1 := by
  simp [Ideal.ofBits, Ideal.ieee, -EReal.coe_mul]; norm_num

theorem onesOp_apply (i : S100000x128.Idx) : onesOp (F := Ideal) i = Ideal.ofBits .f32 0x3F800000#32 := by
  unfold onesOp
  exact broadcastInDim_apply _ bcast_S_S100000x128 (constant (F := Ideal) S_ .f32 0x3F800000#32) i ix0 (fun a => a.elim0)

theorem dot_apply (x : NodeArr Ideal) (w : GateW Ideal) (p : Fin 100000) (j : Fin 384) :
    Host.dotGeneral (F := Ideal) (φ₁ := .f32) (φ₂ := .f32) dot_S100000x128_S128x384_S100000x384_1_0_0_1_n_n none x w (ix2 p j)
      = ∑ l : Fin 128, x (ix2 p l) * w (ix2 l j) := by
  simp only [Host.dotGeneral]
  rw [Ideal.dotGeneral_apply, ← Equiv.sum_comp (ValueIdx.contrEquiv1 dot_S100000x128_S128x384_S100000x384_1_0_0_1_n_n 128 rfl rfl).symm]
  refine Finset.sum_congr rfl fun k _ => ?_
  have hk := ValueIdx.contrEquiv1_symm_val dot_S100000x128_S128x384_S100000x384_1_0_0_1_n_n 128 rfl rfl k
  have el : dot_S100000x128_S128x384_S100000x384_1_0_0_1_n_n.lhsIdx (ix2 p j) ((ValueIdx.contrEquiv1 dot_S100000x128_S128x384_S100000x384_1_0_0_1_n_n 128 rfl rfl).symm k) = ix2 p k := funext fun a => Fin.ext (by
    match a with
    | ⟨0, _⟩ => exact lhs_main_v22_0 _ _
    | ⟨1, _⟩ => exact (lhs_main_v22_1 _ _).trans hk)
  have er : dot_S100000x128_S128x384_S100000x384_1_0_0_1_n_n.rhsIdx (ix2 p j) ((ValueIdx.contrEquiv1 dot_S100000x128_S128x384_S100000x384_1_0_0_1_n_n 128 rfl rfl).symm k) = ix2 k j := funext fun a => Fin.ext (by
    match a with
    | ⟨0, _⟩ => exact (rhs_main_v22_0 _ _).trans hk
    | ⟨1, _⟩ => exact rhs_main_v22_1 _ _)
  rw [el, er]

theorem bias_apply (b : GateB Ideal) (p : Fin 100000) (j : Fin 384) :
    broadcastInDim S100000x384 ![0, 1] bcast_S1x384_S100000x384_0_1 (broadcastInDim S1x384 ![1] bcast_S384_S1x384_1 b) (ix2 p j)
      = b (ix1 j) := by
  generalize hy : broadcastInDim S1x384 ![1] bcast_S384_S1x384_1 b = y
  refine (broadcastInDim_apply _ bcast_S1x384_S100000x384_0_1 y (ix2 p j) (ix2 0 j) (fun a => match a with
    | ⟨0, _⟩ => by show 0 = if (1 : Nat) = 1 then 0 else p.val; rw [if_pos rfl]
    | ⟨1, _⟩ => by show j.val = if (384 : Nat) = 1 then 0 else j.val; rw [if_neg (by decide)])).trans ?_
  subst hy
  exact broadcastInDim_apply _ bcast_S384_S1x384_1 b (ix2 0 j) (ix1 j) (fun a => match a with
    | ⟨0, _⟩ => by show j.val = if (384 : Nat) = 1 then 0 else j.val; rw [if_neg (by decide)])

theorem affineOp_apply (x : NodeArr Ideal) (w : GateW Ideal) (b : GateB Ideal) (p : Fin 100000) (j : Fin 384) :
    affineOp (F := Ideal) x w b (ix2 p j) = dense (n := 100000) x w (row b) (ix2 p j) := by
  unfold affineOp
  rw [addf_apply, dot_apply, bias_apply]
  rfl

theorem cut0_apply (y : GateArr Ideal) (p : Fin 100000) (q : Fin 128) : cut0 (F := Ideal) y (ix2 p q) = y (ix2 p (g0 q)) := by
  unfold cut0
  exact extractStridedSlice_apply ![0, 0] y slices_S100000x384_S100000x128_0_0 (ix2 p q) (ix2 p (g0 q)) (fun a => match a with
    | ⟨0, _⟩ => by show p.val = 0 + p.val; omega
    | ⟨1, _⟩ => by show q.val = 0 + q.val; omega)

theorem cut1_apply (y : GateArr Ideal) (p : Fin 100000) (q : Fin 128) : cut1 (F := Ideal) y (ix2 p q) = y (ix2 p (g1 q)) := by
  unfold cut1
  exact extractStridedSlice_apply ![0, 128] y slices_S100000x384_S100000x128_0_128 (ix2 p q) (ix2 p (g1 q)) (fun a => match a with
    | ⟨0, _⟩ => by show p.val = 0 + p.val; omega
    | ⟨1, _⟩ => by show q.val + 128 = 128 + q.val; omega)

theorem cut2_apply (y : GateArr Ideal) (p : Fin 100000) (q : Fin 128) : cut2 (F := Ideal) y (ix2 p q) = y (ix2 p (g2 q)) := by
  unfold cut2
  exact extractStridedSlice_apply ![0, 256] y slices_S100000x384_S100000x128_0_256 (ix2 p q) (ix2 p (g2 q)) (fun a => match a with
    | ⟨0, _⟩ => by show p.val = 0 + p.val; omega
    | ⟨1, _⟩ => by show q.val + 256 = 256 + q.val; omega)

theorem sigmOp_apply (y : NodeArr Ideal) (i : S100000x128.Idx) : sigmOp (F := Ideal) y i = Ideal.logistic (y i) := by
  show Ideal.div (onesOp (F := Ideal) i) (onesOp (F := Ideal) i + Ideal.exp (-(y i))) = _
  rw [onesOp_apply, one_word]
  rfl

theorem tanh_apply (y : NodeArr Ideal) (i : S100000x128.Idx) : Host.tanh (F := Ideal) (φ := .f32) y i = Ideal.tanh (y i) := rfl

theorem gruOp_eq (a h : NodeArr Ideal) (wih : GateW Ideal) (bih : GateB Ideal) (whh : GateW Ideal) (bhh : GateB Ideal) :
    gruOp (F := Ideal) a h wih bih whh bhh = gru (n := 100000) a h wih (row bih) whh (row bhh) := by
  funext i
  obtain ⟨p, q, rfl⟩ : ∃ (p : Fin 100000) (q : Fin 128), i = ix2 p q := ⟨i 0, i 1, eq_ix2 i⟩
  unfold gruOp
  simp only [addf_apply, mulf_apply, subf_apply, tanh_apply, sigmOp_apply, onesOp_apply, cut0_apply, cut1_apply, cut2_apply, affineOp_apply]
  rfl

end Gru

variable (x0 : (⟨S100000x64, .f32⟩ : BufTy).Contents (Elt Ideal)) (x1 : (⟨S128x768, .f32⟩ : BufTy).Contents (Elt Ideal)) (x2 : (⟨S64x128, .f32⟩ : BufTy).Contents (Elt Ideal))
  (x3 : (⟨S128, .f32⟩ : BufTy).Contents (Elt Ideal)) (x4 : (⟨S3x128x128, .f32⟩ : BufTy).Contents (Elt Ideal)) (x5 : (⟨S128x384, .f32⟩ : BufTy).Contents (Elt Ideal))
  (x6 : (⟨S384, .f32⟩ : BufTy).Contents (Elt Ideal)) (x7 : (⟨S128x384, .f32⟩ : BufTy).Contents (Elt Ideal)) (x8 : (⟨S384, .f32⟩ : BufTy).Contents (Elt Ideal))
  (x9 : (⟨S768x128, .f32⟩ : BufTy).Contents (Elt Ideal)) (x10 : (⟨S128, .f32⟩ : BufTy).Contents (Elt Ideal)) (x11 x12 : (⟨S256, .f32⟩ : BufTy).Contents (Elt Ideal))
  (x13 : (⟨S256x128, .f32⟩ : BufTy).Contents (Elt Ideal)) (x14 : (⟨S128, .f32⟩ : BufTy).Contents (Elt Ideal)) (x15 : (⟨S128x32, .f32⟩ : BufTy).Contents (Elt Ideal))
  (x16 : (⟨S32, .f32⟩ : BufTy).Contents (Elt Ideal)) (x17 : (⟨S128x1, .f32⟩ : BufTy).Contents (Elt Ideal)) (x18 : (⟨S1, .f32⟩ : BufTy).Contents (Elt Ideal))
  (x19 : (⟨S2x1600000, .i32⟩ : BufTy).Contents (Elt Ideal)) (x20 : (⟨S100000, .i32⟩ : BufTy).Contents (Elt Ideal))

theorem Gru.step1_ops : val_main_v57 (F := Ideal) x0 x2 x3 x4 x5 x6 x7 x8 x19
    = Gru.gruOp (F := Ideal) (val_main_v21 (F := Ideal) x0 x2 x3 x4 x19) (val_main_v8 (F := Ideal) x0 x2 x3) x5 x6 x7 x8 := rfl

theorem Gru.step2_ops : val_main_v106 (F := Ideal) x0 x2 x3 x4 x5 x6 x7 x8 x19
    = Gru.gruOp (F := Ideal) (val_main_v70 (F := Ideal) x0 x2 x3 x4 x5 x6 x7 x8 x19) (val_main_v57 (F := Ideal) x0 x2 x3 x4 x5 x6 x7 x8 x19) x5 x6 x7 x8 := rfl

theorem Gru.step3_ops : val_main_v155 (F := Ideal) x0 x2 x3 x4 x5 x6 x7 x8 x19
    = Gru.gruOp (F := Ideal) (val_main_v119 (F := Ideal) x0 x2 x3 x4 x5 x6 x7 x8 x19) (val_main_v106 (F := Ideal) x0 x2 x3 x4 x5 x6 x7 x8 x19) x5 x6 x7 x8 := rfl

theorem v57_eq : val_main_v57 (F := Ideal) x0 x2 x3 x4 x5 x6 x7 x8 x19 = gru (n := 100000) (val_main_v21 (F := Ideal) x0 x2 x3 x4 x19) (val_main_v8 (F := Ideal) x0 x2 x3) x5 (row x6) x7 (row x8) :=
  (Gru.step1_ops x0 x2 x3 x4 x5 x6 x7 x8 x19).trans (Gru.gruOp_eq _ _ x5 x6 x7 x8)

theorem v106_eq : val_main_v106 (F := Ideal) x0 x2 x3 x4 x5 x6 x7 x8 x19 = gru (n := 100000) (val_main_v70 (F := Ideal) x0 x2 x3 x4 x5 x6 x7 x8 x19) (val_main_v57 (F := Ideal) x0 x2 x3 x4 x5 x6 x7 x8 x19) x5 (row x6) x7 (row x8) :=
  (Gru.step2_ops x0 x2 x3 x4 x5 x6 x7 x8 x19).trans (Gru.gruOp_eq _ _ x5 x6 x7 x8)

theorem v155_eq : val_main_v155 (F := Ideal) x0 x2 x3 x4 x5 x6 x7 x8 x19 = gru (n := 100000) (val_main_v119 (F := Ideal) x0 x2 x3 x4 x5 x6 x7 x8 x19) (val_main_v106 (F := Ideal) x0 x2 x3 x4 x5 x6 x7 x8 x19) x5 (row x6) x7 (row x8) :=
  (Gru.step3_ops x0 x2 x3 x4 x5 x6 x7 x8 x19).trans (Gru.gruOp_eq _ _ x5 x6 x7 x8)

end Cert.RVal

end
-- ==== Proof.RPool.lean ====
import proofs.«423503_j25220047962222_1_alg».proof.Proof.RRead
import proofs.«423503_j25220047962222_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-! The reference's two scatter-adds over the graph ids are the per-graph sums and counts; then the means, the join with the document embedding and the layer norm. -/

noncomputable section

namespace Cert.RVal

open Cert.ReferenceIdeal Cert.ReferenceIdeal.ReadP Idealize.ShloMosaic Idealize.ShloMosaic.TcCoe Idealize.ShloMosaic.ValueIdx
open Idealize.ShloMosaic.StableHlo Cert.Spec

variable (x0 : (⟨S100000x64, .f32⟩ : BufTy).Contents (Elt Ideal)) (x1 : (⟨S128x768, .f32⟩ : BufTy).Contents (Elt Ideal)) (x2 : (⟨S64x128, .f32⟩ : BufTy).Contents (Elt Ideal))
  (x3 : (⟨S128, .f32⟩ : BufTy).Contents (Elt Ideal)) (x4 : (⟨S3x128x128, .f32⟩ : BufTy).Contents (Elt Ideal)) (x5 : (⟨S128x384, .f32⟩ : BufTy).Contents (Elt Ideal))
  (x6 : (⟨S384, .f32⟩ : BufTy).Contents (Elt Ideal)) (x7 : (⟨S128x384, .f32⟩ : BufTy).Contents (Elt Ideal)) (x8 : (⟨S384, .f32⟩ : BufTy).Contents (Elt Ideal))
  (x9 : (⟨S768x128, .f32⟩ : BufTy).Contents (Elt Ideal)) (x10 : (⟨S128, .f32⟩ : BufTy).Contents (Elt Ideal)) (x11 x12 : (⟨S256, .f32⟩ : BufTy).Contents (Elt Ideal))
  (x13 : (⟨S256x128, .f32⟩ : BufTy).Contents (Elt Ideal)) (x14 : (⟨S128, .f32⟩ : BufTy).Contents (Elt Ideal)) (x15 : (⟨S128x32, .f32⟩ : BufTy).Contents (Elt Ideal))
  (x16 : (⟨S32, .f32⟩ : BufTy).Contents (Elt Ideal)) (x17 : (⟨S128x1, .f32⟩ : BufTy).Contents (Elt Ideal)) (x18 : (⟨S1, .f32⟩ : BufTy).Contents (Elt Ideal))
  (x19 : (⟨S2x1600000, .i32⟩ : BufTy).Contents (Elt Ideal)) (x20 : (⟨S100000, .i32⟩ : BufTy).Contents (Elt Ideal))

private theorem toInt_small (p : Fin 128) : (BitVec.ofNat 32 p.val).toInt = (p.val : Int) := by
  have hp : p.val < 128 := p.isLt
  rw [BitVec.toInt_eq_toNat_of_lt (by rw [BitVec.toNat_ofNat]; omega), BitVec.toNat_ofNat]
  omega

private theorem word_iff (w : BitVec 32) (p : Fin 128) : w.toInt = (p.val : Int) ↔ w = BitVec.ofNat 32 p.val := by
  constructor
  · intro h
    exact BitVec.eq_of_toInt_eq (h.trans (toInt_small p).symm)
  · rintro rfl
    exact toInt_small p

private theorem start0 (idx : IVec S100000x1 32) (a : Fin 100000) (b : Fin 128) :
    scatter_S128x128_S100000x1_S100000x128_1_0_0_1.start (ix2 a b) idx 0 = (idx (ix2 a 0)).toInt := by
  unfold ScatterDims.start
  rw [dif_pos (by decide)]
  refine congrArg (fun t => (idx t).toInt) ?_
  funext c
  match c with
  | ⟨0, _⟩ => rfl
  | ⟨1, _⟩ => rfl

private theorem start1 (idx : IVec S100000x1 32) (a : Fin 100000) (b : Fin 128) :
    scatter_S128x128_S100000x1_S100000x128_1_0_0_1.start (ix2 a b) idx 1 = 0 := by
  unfold ScatterDims.start
  rw [dif_neg (by decide)]

private theorem window0 (a : Fin 100000) (b : Fin 128) :
    scatter_S128x128_S100000x1_S100000x128_1_0_0_1.window (ix2 a b) 0 = 0 := by
  unfold ScatterDims.window
  rw [dif_neg (by decide)]

private theorem window1 (a : Fin 100000) (b : Fin 128) :
    scatter_S128x128_S100000x1_S100000x128_1_0_0_1.window (ix2 a b) 1 = b.val := by
  unfold ScatterDims.window
  rw [dif_pos (by decide)]
  rfl

private theorem lands_iff (idx : IVec S100000x1 32) (a : Fin 100000) (b : Fin 128) (p q : Fin 128) :
    scatter_S128x128_S100000x1_S100000x128_1_0_0_1.resultIdx? (ix2 a b) idx = some (ix2 p q)
      ↔ (idx (ix2 a 0)).toInt = (p.val : Int) ∧ b = q := by
  have hp : p.val < 128 := p.isLt
  have hq : q.val < 128 := q.isLt
  have hb : b.val < 128 := b.isLt
  unfold ScatterDims.resultIdx?
  split_ifs with h
  · have h0 := h 0
    rw [start0, window0] at h0
    rw [Option.some.injEq, funext_iff, Fin.forall_fin_two]
    simp only [Fin.ext_iff, start0, start1, window0, window1]
    show (((idx (ix2 a 0)).toInt + ((0 : Nat) : Int)).toNat = p.val ∧ ((0 : Int) + (b.val : Int)).toNat = q.val) ↔ _
    omega
  · constructor
    · intro hh; exact absurd hh (by simp)
    · rintro ⟨h1, h2⟩
      exfalso
      apply h
      intro c
      match c with
      | ⟨0, _⟩ =>
        show 0 ≤ scatter_S128x128_S100000x1_S100000x128_1_0_0_1.start (ix2 a b) idx 0 + (scatter_S128x128_S100000x1_S100000x128_1_0_0_1.window (ix2 a b) 0 : Int) ∧ scatter_S128x128_S100000x1_S100000x128_1_0_0_1.start (ix2 a b) idx 0 + (scatter_S128x128_S100000x1_S100000x128_1_0_0_1.window (ix2 a b) 0 : Int) < (128 : Nat)
        rw [start0, window0, h1]; omega
      | ⟨1, _⟩ =>
        show 0 ≤ scatter_S128x128_S100000x1_S100000x128_1_0_0_1.start (ix2 a b) idx 1 + (scatter_S128x128_S100000x1_S100000x128_1_0_0_1.window (ix2 a b) 1 : Int) ∧ scatter_S128x128_S100000x1_S100000x128_1_0_0_1.start (ix2 a b) idx 1 + (scatter_S128x128_S100000x1_S100000x128_1_0_0_1.window (ix2 a b) 1 : Int) < (128 : Nat)
        rw [start1, window1]; omega

private theorem scatter_rows (z : S128x128.Idx → EReal) (idx : IVec S100000x1 32) (h : S100000x128.Idx → EReal) (p q : Fin 128) :
    Ideal.hostScatterAdd scatter_S128x128_S100000x1_S100000x128_1_0_0_1 z idx h (ix2 p q)
      = z (ix2 p q) + ∑ a : Fin 100000, if idx (ix2 a 0) = BitVec.ofNat 32 p.val then h (ix2 a q) else 0 := by
  unfold Ideal.hostScatterAdd
  rw [Finset.sum_filter, sum_idx2]
  refine congrArg (_ + ·) (Finset.sum_congr rfl fun a _ => ?_)
  simp only [lands_iff, word_iff]
  by_cases hc : idx (ix2 a 0) = BitVec.ofNat 32 p.val
  · simp only [hc, true_and, if_true]
    rw [Finset.sum_ite_eq']
    simp only [Finset.mem_univ, if_true]
  · simp only [hc, false_and, if_false, Finset.sum_const_zero]

private theorem cstart (idx : IVec S100000x1 32) (a : Fin 100000) :
    scatter_S128_S100000x1_S100000_n_0_0_1.start (ix1 a) idx 0 = (idx (ix2 a 0)).toInt := by
  unfold ScatterDims.start
  rw [dif_pos (by decide)]
  refine congrArg (fun t => (idx t).toInt) ?_
  funext c
  match c with
  | ⟨0, _⟩ => rfl
  | ⟨1, _⟩ => rfl

private theorem cwindow (a : Fin 100000) :
    scatter_S128_S100000x1_S100000_n_0_0_1.window (ix1 a) 0 = 0 := by
  unfold ScatterDims.window
  rw [dif_neg (by decide)]

private theorem clands_iff (idx : IVec S100000x1 32) (a : Fin 100000) (g : Fin 128) :
    scatter_S128_S100000x1_S100000_n_0_0_1.resultIdx? (ix1 a) idx = some (ix1 g)
      ↔ (idx (ix2 a 0)).toInt = (g.val : Int) := by
  have hg : g.val < 128 := g.isLt
  unfold ScatterDims.resultIdx?
  split_ifs with h
  · have h0 := h 0
    rw [cstart, cwindow] at h0
    rw [Option.some.injEq, funext_iff, Fin.forall_fin_one]
    simp only [Fin.ext_iff, cstart, cwindow]
    show ((idx (ix2 a 0)).toInt + ((0 : Nat) : Int)).toNat = g.val ↔ _
    omega
  · constructor
    · intro hh; exact absurd hh (by simp)
    · intro h1
      exfalso
      apply h
      intro c
      match c with
      | ⟨0, _⟩ =>
        show 0 ≤ scatter_S128_S100000x1_S100000_n_0_0_1.start (ix1 a) idx 0 + (scatter_S128_S100000x1_S100000_n_0_0_1.window (ix1 a) 0 : Int) ∧ scatter_S128_S100000x1_S100000_n_0_0_1.start (ix1 a) idx 0 + (scatter_S128_S100000x1_S100000_n_0_0_1.window (ix1 a) 0 : Int) < (128 : Nat)
        rw [cstart, cwindow, h1]; omega

private theorem sum_idx1 {n : Nat} (f : (⟨1, ![n]⟩ : Shape).Idx → EReal) : ∑ i, f i = ∑ a : Fin n, f (ix1 a) := by
  refine (Equiv.sum_comp (⟨fun a => ix1 a, fun i => i 0, fun _ => rfl, fun i => (eq_ix1 i).symm⟩ : Fin n ≃ (⟨1, ![n]⟩ : Shape).Idx) f).symm

private theorem oneWord_eq : Ideal.ofBits .f32 0x3F800000#32 = (1 : EReal) := by
  simp [Ideal.ofBits, Ideal.ieee, -EReal.coe_mul]; norm_num

private theorem scatter_ones (z : S128.Idx → EReal) (idx : IVec S100000x1 32) (u : S100000.Idx → EReal) (g : Fin 128) :
    Ideal.hostScatterAdd scatter_S128_S100000x1_S100000_n_0_0_1 z idx u (ix1 g)
      = z (ix1 g) + ∑ a : Fin 100000, if idx (ix2 a 0) = BitVec.ofNat 32 g.val then u (ix1 a) else 0 := by
  unfold Ideal.hostScatterAdd
  rw [Finset.sum_filter, sum_idx1]
  simp only [clands_iff, word_iff]

theorem v158_eq : val_main_v158 (F := Ideal) x0 x2 x3 x4 x5 x6 x7 x8 x19 x20 = poolSum (n := 100000) (val_main_v155 (F := Ideal) x0 x2 x3 x4 x5 x6 x7 x8 x19) (col x20) := by
  unfold val_main_v158
  generalize val_main_v155 (F := Ideal) x0 x2 x3 x4 x5 x6 x7 x8 x19 = h
  funext i
  obtain ⟨p, q, rfl⟩ : ∃ (p : Fin 128) (q : Fin 128), i = ix2 p q := ⟨i 0, i 1, eq_ix2 i⟩
  show Ideal.hostScatterAdd scatter_S128x128_S100000x1_S100000x128_1_0_0_1 _ _ _ (ix2 p q) = _
  rw [scatter_rows, val_main_v156_apply, val_main_cst_22_apply, Ideal.ofBits_def, Ideal.ofBits_zero_f32, zero_add]
  simp only [val_main_v157_apply, poolSum, col]
  refine Finset.sum_congr rfl fun a _ => ?_
  have e : idx_main_v157 (ix2 a 0) = ix1 a := funext fun c => Fin.ext (by match c with | ⟨0, _⟩ => rfl)
  rw [e]
  rfl

theorem v162_eq : row (val_main_v162 (F := Ideal) x20) = poolCnt (n := 100000) (col x20) := by
  unfold val_main_v162
  funext i
  obtain ⟨z, g, rfl⟩ : ∃ (z : Fin 1) (g : Fin 128), i = ix2 z g := ⟨i 0, i 1, eq_ix2 i⟩
  show Ideal.hostScatterAdd scatter_S128_S100000x1_S100000_n_0_0_1 _ _ _ (ix1 g) = _
  rw [scatter_ones, val_main_v160_apply, val_main_cst_24_apply, Ideal.ofBits_def, Ideal.ofBits_zero_f32, zero_add]
  simp only [val_main_v161_apply, val_main_v159_apply, val_main_cst_23_apply, Ideal.ofBits_def, oneWord_eq, poolCnt, col]
  refine Finset.sum_congr rfl fun a _ => ?_
  have e : idx_main_v161 (ix2 a 0) = ix1 a := funext fun c => Fin.ext (by match c with | ⟨0, _⟩ => rfl)
  rw [e]
  rfl

theorem v167_eq : val_main_v167 (F := Ideal) x0 x2 x3 x4 x5 x6 x7 x8 x19 x20 = pooled (val_main_v158 (F := Ideal) x0 x2 x3 x4 x5 x6 x7 x8 x19 x20) (fun i => val_main_v162 (F := Ideal) x20 (ix1 (i 0))) := by
  funext i
  obtain ⟨p, q, rfl⟩ : ∃ (p : Fin 128) (q : Fin 128), i = ix2 p q := ⟨i 0, i 1, eq_ix2 i⟩
  have e : idx_main_v165 (idx_main_v166 (ix2 p q)) = ix1 p := funext fun c => Fin.ext (by match c with | ⟨0, _⟩ => rfl)
  rw [val_main_v167_apply, val_main_v166_apply, val_main_v165_apply, val_main_v164_apply, val_main_v163_apply, val_main_cst_25_apply, e]
  generalize val_main_v158 (F := Ideal) x0 x2 x3 x4 x5 x6 x7 x8 x19 x20 = s
  generalize val_main_v162 (F := Ideal) x20 = c
  simp only [Ideal.hostDivf_def, Ideal.maximumf_def, Ideal.ofBits_def, pooled]

theorem v173_eq : val_main_v173 (F := Ideal) x0 x1 x2 x3 x4 x5 x6 x7 x8 x9 x10 x19 x20 = concat (val_main_v167 (F := Ideal) x0 x2 x3 x4 x5 x6 x7 x8 x19 x20) (val_main_v172 (F := Ideal) x1 x9 x10) := by
  unfold val_main_v173
  generalize val_main_v167 (F := Ideal) x0 x2 x3 x4 x5 x6 x7 x8 x19 x20 = a
  generalize val_main_v172 (F := Ideal) x1 x9 x10 = b
  funext i
  have h1 : (i 1).val < 256 := (i 1).isLt
  unfold concat
  by_cases h : (i 1).val < 128
  · rw [dif_pos h]
    refine concatenate_pair_apply_left (t := S128x256) (s₁ := S128x128) (s₂ := S128x128) 1 a b _ i rfl (ix2 (i 0) ⟨(i 1).val, h⟩) ?_
    intro c
    match c with
    | ⟨0, _⟩ => rfl
    | ⟨1, _⟩ => rfl
  · rw [dif_neg h]
    refine concatenate_pair_apply_right (t := S128x256) (s₁ := S128x128) (s₂ := S128x128) 1 a b _ i rfl rfl (ix2 (i 0) ⟨(i 1).val - 128, by omega⟩) ?_ ?_
    · intro c hc
      match c with
      | ⟨0, _⟩ => rfl
      | ⟨1, _⟩ => exact absurd rfl hc
    · show (i 1).val - 128 + 128 = (i 1).val
      omega

theorem v197_eq : val_main_v197 (F := Ideal) x0 x1 x2 x3 x4 x5 x6 x7 x8 x9 x10 x11 x12 x19 x20 = layerNorm (val_main_v173 (F := Ideal) x0 x1 x2 x3 x4 x5 x6 x7 x8 x9 x10 x19 x20) (row x11) (row x12) := by
  funext i
  obtain ⟨p, q, rfl⟩ : ∃ (p : Fin 128) (q : Fin 256), i = ix2 p q := ⟨i 0, i 1, eq_ix2 i⟩
  have e185 : idx_main_v185 (ix2 p q) = ix2 p 0 := funext fun c => Fin.ext (by match c with | ⟨0, _⟩ => rfl | ⟨1, _⟩ => rfl)
  have e190 : idx_main_v190 (ix2 p q) = ix2 p 0 := funext fun c => Fin.ext (by match c with | ⟨0, _⟩ => rfl | ⟨1, _⟩ => rfl)
  have e178 : ∀ k : Fin 256, idx_main_v178 (ix2 p k) = ix2 p 0 := fun k => funext fun c => Fin.ext (by match c with | ⟨0, _⟩ => rfl | ⟨1, _⟩ => rfl)
  have e175 : idx_main_v175 (ix2 p (0 : Fin 1)) = ix1 p := funext fun c => Fin.ext (by match c with | ⟨0, _⟩ => rfl)
  have e182 : idx_main_v182 (ix2 p (0 : Fin 1)) = ix1 p := funext fun c => Fin.ext (by match c with | ⟨0, _⟩ => rfl)
  have e174 : ∀ k : Fin 256, idx_main_v174 (ix1 p) k = ix2 p k := fun k => funext fun c => Fin.ext (by match c with | ⟨0, _⟩ => rfl | ⟨1, _⟩ => rfl)
  have e181 : ∀ k : Fin 256, idx_main_v181 (ix1 p) k = ix2 p k := fun k => funext fun c => Fin.ext (by match c with | ⟨0, _⟩ => rfl | ⟨1, _⟩ => rfl)
  have e193 : idx_main_v192 (idx_main_v193 (ix2 p q)) = ix1 q := funext fun c => Fin.ext (by match c with | ⟨0, _⟩ => rfl)
  have e196 : idx_main_v195 (idx_main_v196 (ix2 p q)) = ix1 q := funext fun c => Fin.ext (by match c with | ⟨0, _⟩ => rfl)
  simp only [val_main_v197_apply, val_main_v194_apply, val_main_v191_apply, val_main_v186_apply, val_main_v185_apply,
    val_main_v190_apply, val_main_v189_apply, val_main_v188_apply, val_main_v187_apply, val_main_cst_30_apply,
    val_main_v184_apply, val_main_v183_apply, val_main_cst_29_apply, val_main_v182_apply, val_main_v181_apply,
    val_main_cst_28_apply, val_main_v180_apply, val_main_v179_apply, val_main_v178_apply, val_main_v177_apply,
    val_main_v176_apply, val_main_cst_27_apply, val_main_v175_apply, val_main_v174_apply, val_main_cst_26_apply,
    val_main_v193_apply, val_main_v192_apply, val_main_v196_apply, val_main_v195_apply,
    e185, e190, e178, e175, e182, e174, e181, e193, e196]
  generalize val_main_v173 (F := Ideal) x0 x1 x2 x3 x4 x5 x6 x7 x8 x9 x10 x19 x20 = f
  simp only [Ideal.addf_def, Ideal.subf_def, Ideal.mulf_def, Ideal.hostDivf_def, Ideal.hostUnary_rsqrt_def, Ideal.ofBits_def,
    Ideal.ofBits_zero_f32, zero_add, layerNorm, rowMean, rowVar, row]

end Cert.RVal

end
-- ==== Proof.RNet.lean ====
import proofs.«423503_j25220047962222_1_alg».proof.Proof.RRead
import proofs.«423503_j25220047962222_1_alg».proof.Proof.Spec
import proofs.«423503_j25220047962222_1_alg».proof.Proof.RAgg
import proofs.«423503_j25220047962222_1_alg».proof.Proof.RLin
import proofs.«423503_j25220047962222_1_alg».proof.Proof.RGru
import proofs.«423503_j25220047962222_1_alg».proof.Proof.RPool
import Idealize.ShloMosaic.Lib.Pipeline.Value
import Idealize.ShloMosaic.Lib.ValueIdx
import Idealize.ShloMosaic.Lib.ValueLayout
import Idealize.ShloMosaic.PureOps.Ideal.Laws

set_option maxRecDepth 16384

/-! The reference's two results as the network of the specification: its stage lemmas chained from the node projection to the heads. -/

noncomputable section

namespace Cert.RVal

open Cert.ReferenceIdeal Cert.ReferenceIdeal.ReadP Idealize.ShloMosaic Idealize.ShloMosaic.TcCoe Idealize.ShloMosaic.ValueIdx
open Idealize.ShloMosaic.StableHlo Cert.Spec

variable (x0 : (⟨S100000x64, .f32⟩ : BufTy).Contents (Elt Ideal)) (x1 : (⟨S128x768, .f32⟩ : BufTy).Contents (Elt Ideal)) (x2 : (⟨S64x128, .f32⟩ : BufTy).Contents (Elt Ideal))
  (x3 : (⟨S128, .f32⟩ : BufTy).Contents (Elt Ideal)) (x4 : (⟨S3x128x128, .f32⟩ : BufTy).Contents (Elt Ideal)) (x5 : (⟨S128x384, .f32⟩ : BufTy).Contents (Elt Ideal))
  (x6 : (⟨S384, .f32⟩ : BufTy).Contents (Elt Ideal)) (x7 : (⟨S128x384, .f32⟩ : BufTy).Contents (Elt Ideal)) (x8 : (⟨S384, .f32⟩ : BufTy).Contents (Elt Ideal))
  (x9 : (⟨S768x128, .f32⟩ : BufTy).Contents (Elt Ideal)) (x10 : (⟨S128, .f32⟩ : BufTy).Contents (Elt Ideal)) (x11 x12 : (⟨S256, .f32⟩ : BufTy).Contents (Elt Ideal))
  (x13 : (⟨S256x128, .f32⟩ : BufTy).Contents (Elt Ideal)) (x14 : (⟨S128, .f32⟩ : BufTy).Contents (Elt Ideal)) (x15 : (⟨S128x32, .f32⟩ : BufTy).Contents (Elt Ideal))
  (x16 : (⟨S32, .f32⟩ : BufTy).Contents (Elt Ideal)) (x17 : (⟨S128x1, .f32⟩ : BufTy).Contents (Elt Ideal)) (x18 : (⟨S1, .f32⟩ : BufTy).Contents (Elt Ideal))
  (x19 : (⟨S2x1600000, .i32⟩ : BufTy).Contents (Elt Ideal)) (x20 : (⟨S100000, .i32⟩ : BufTy).Contents (Elt Ideal))

theorem v21_eq : val_main_v21 (F := Ideal) x0 x2 x3 x4 x19 = agg (F := Ideal) x19 (val_main_v11 (F := Ideal) x0 x2 x3 x4) := rfl

theorem v70_eq : val_main_v70 (F := Ideal) x0 x2 x3 x4 x5 x6 x7 x8 x19 = agg (F := Ideal) x19 (val_main_v60 (F := Ideal) x0 x2 x3 x4 x5 x6 x7 x8 x19) := rfl

theorem v119_eq : val_main_v119 (F := Ideal) x0 x2 x3 x4 x5 x6 x7 x8 x19 = agg (F := Ideal) x19 (val_main_v109 (F := Ideal) x0 x2 x3 x4 x5 x6 x7 x8 x19) := rfl

namespace Net

theorem h0_eq : val_main_v8 (F := Ideal) x0 x2 x3 = h0 (Inputs.ofArgs x0 x1 x2 x3 x4 x5 x6 x7 x8 x9 x10 x11 x12 x13 x14 x15 x16 x17 x18 x20) :=
  v8_eq x0 x2 x3

theorem h1_eq : val_main_v57 (F := Ideal) x0 x2 x3 x4 x5 x6 x7 x8 x19 = h1 (agg (F := Ideal) x19) (Inputs.ofArgs x0 x1 x2 x3 x4 x5 x6 x7 x8 x9 x10 x11 x12 x13 x14 x15 x16 x17 x18 x20) := by
  rw [v57_eq, v21_eq, v11_eq, h0_eq x0 x1 x2 x3 x4 x5 x6 x7 x8 x9 x10 x11 x12 x13 x14 x15 x16 x17 x18 x20]
  rfl

theorem h2_eq : val_main_v106 (F := Ideal) x0 x2 x3 x4 x5 x6 x7 x8 x19 = h2 (agg (F := Ideal) x19) (Inputs.ofArgs x0 x1 x2 x3 x4 x5 x6 x7 x8 x9 x10 x11 x12 x13 x14 x15 x16 x17 x18 x20) := by
  rw [v106_eq, v70_eq, v60_eq, h1_eq x0 x1 x2 x3 x4 x5 x6 x7 x8 x9 x10 x11 x12 x13 x14 x15 x16 x17 x18 x19 x20]
  rfl

theorem h3_eq : val_main_v155 (F := Ideal) x0 x2 x3 x4 x5 x6 x7 x8 x19 = h3 (agg (F := Ideal) x19) (Inputs.ofArgs x0 x1 x2 x3 x4 x5 x6 x7 x8 x9 x10 x11 x12 x13 x14 x15 x16 x17 x18 x20) := by
  rw [v155_eq, v119_eq, v109_eq, h2_eq x0 x1 x2 x3 x4 x5 x6 x7 x8 x9 x10 x11 x12 x13 x14 x15 x16 x17 x18 x19 x20]
  rfl

theorem sums_eq : val_main_v158 (F := Ideal) x0 x2 x3 x4 x5 x6 x7 x8 x19 x20 = sums (agg (F := Ideal) x19) (Inputs.ofArgs x0 x1 x2 x3 x4 x5 x6 x7 x8 x9 x10 x11 x12 x13 x14 x15 x16 x17 x18 x20) := by
  rw [v158_eq, h3_eq x0 x1 x2 x3 x4 x5 x6 x7 x8 x9 x10 x11 x12 x13 x14 x15 x16 x17 x18 x19 x20]
  rfl

theorem cntCol_eq : (fun i => val_main_v162 (F := Ideal) x20 (ix1 (i 0))) = cntCol (Inputs.ofArgs x0 x1 x2 x3 x4 x5 x6 x7 x8 x9 x10 x11 x12 x13 x14 x15 x16 x17 x18 x20) := by
  funext i
  exact congrFun (v162_eq x20) (ix2 0 (i 0))

theorem act_eq : val_main_v202 (F := Ideal) x0 x1 x2 x3 x4 x5 x6 x7 x8 x9 x10 x11 x12 x13 x14 x19 x20
    = actOf x1 x9 (row x10) (row x11) (row x12) x13 (row x14) (sums (agg (F := Ideal) x19) (Inputs.ofArgs x0 x1 x2 x3 x4 x5 x6 x7 x8 x9 x10 x11 x12 x13 x14 x15 x16 x17 x18 x20)) (cntCol (Inputs.ofArgs x0 x1 x2 x3 x4 x5 x6 x7 x8 x9 x10 x11 x12 x13 x14 x15 x16 x17 x18 x20)) := by
  rw [v202_eq, v197_eq, v173_eq, v167_eq, v172_eq, sums_eq x0 x1 x2 x3 x4 x5 x6 x7 x8 x9 x10 x11 x12 x13 x14 x15 x16 x17 x18 x19 x20,
    cntCol_eq x0 x1 x2 x3 x4 x5 x6 x7 x8 x9 x10 x11 x12 x13 x14 x15 x16 x17 x18 x20]
  rfl

end Net

theorem task_eq : val_main_v206 (F := Ideal) x0 x1 x2 x3 x4 x5 x6 x7 x8 x9 x10 x11 x12 x13 x14 x15 x16 x19 x20
    = task (agg (F := Ideal) x19) (Inputs.ofArgs x0 x1 x2 x3 x4 x5 x6 x7 x8 x9 x10 x11 x12 x13 x14 x15 x16 x17 x18 x20) := by
  rw [v206_eq, Net.act_eq x0 x1 x2 x3 x4 x5 x6 x7 x8 x9 x10 x11 x12 x13 x14 x15 x16 x17 x18 x19 x20]
  rfl

theorem time_eq : val_main_v210 (F := Ideal) x0 x1 x2 x3 x4 x5 x6 x7 x8 x9 x10 x11 x12 x13 x14 x17 x18 x19 x20
    = time (agg (F := Ideal) x19) (Inputs.ofArgs x0 x1 x2 x3 x4 x5 x6 x7 x8 x9 x10 x11 x12 x13 x14 x15 x16 x17 x18 x20) := by
  rw [v210_eq, Net.act_eq x0 x1 x2 x3 x4 x5 x6 x7 x8 x9 x10 x11 x12 x13 x14 x15 x16 x17 x18 x19 x20]
  rfl

end Cert.RVal

end
-- ==== Proof.RRunOps.lean ====
import proofs.«423503_j25220047962222_1_alg».proof.Proof.Gen.ReferenceIdeal
import Idealize.ShloMosaic.Lib.StableHlo.Run

/-! The reference's 250 host operations, in order, as ten consecutive lists. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ unary main_arg19 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg19 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v7) (TRef.of (T := ⟨S100000x128, .f32⟩) main_call0_v0) (TRef.of (T := ⟨S100000x128, .f32⟩) main_v8) maximumf ]

abbrev opsB : List (HloOp τ sig (Elt F)) :=
  [ unary main_arg4 main_v9 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v9 main_v10 rfl shapeCasts_S1x128x128_S128x128,
    binary main_v8 main_v10 main_v11 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v19 (broadcastInDim S100000x128 ![] bcast_S_S100000x128 : (⟨S_, .f32⟩ : BufTy).Contents (Elt F) → (⟨S100000x128, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v21 main_arg5 main_v22 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v23 (broadcastInDim S1x384 ![1] bcast_S384_S1x384_1 : (⟨S384, .f32⟩ : BufTy).Contents (Elt F) → (⟨S1x384, .f32⟩ : BufTy).Contents (Elt F)),
    unary main_v23 main_v24 (broadcastInDim S100000x384 ![0, 1] bcast_S1x384_S100000x384_0_1 : (⟨S1x384, .f32⟩ : BufTy).Contents (Elt F) → (⟨S100000x384, .f32⟩ : BufTy).Contents (Elt F)),
    binary main_v22 main_v24 main_v25 (addf : (⟨S100000x384, .f32⟩ : BufTy).Contents (Elt F) → (⟨S100000x384, .f32⟩ : BufTy).Contents (Elt F) → (⟨S100000x384, .f32⟩ : BufTy).Contents (Elt F)),
    binary main_v8 main_arg7 main_v26 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg8 main_v27 (broadcastInDim S1x384 ![1] bcast_S384_S1x384_1 : (⟨S384, .f32⟩ : BufTy).Contents (Elt F) → (⟨S1x384, .f32⟩ : BufTy).Contents (Elt F)),
    unary main_v27 main_v28 (broadcastInDim S100000x384 ![0, 1] bcast_S1x384_S100000x384_0_1 : (⟨S1x384, .f32⟩ : BufTy).Contents (Elt F) → (⟨S100000x384, .f32⟩ : BufTy).Contents (Elt F)),
    binary main_v26 main_v28 main_v29 (addf : (⟨S100000x384, .f32⟩ : BufTy).Contents (Elt F) → (⟨S100000x384, .f32⟩ : BufTy).Contents (Elt F) → (⟨S100000x384, .f32⟩ : BufTy).Contents (Elt F)) ]

abbrev opsC : List (HloOp τ sig (Elt F)) :=
  [ unary main_v25 main_v30 ((extractStridedSlice S100000x128 ![0, 0] · slices_S100000x384_S100000x128_0_0) : (⟨S100000x384, .f32⟩ : BufTy).Contents (Elt F) → (⟨S100000x128, .f32⟩ : BufTy).Contents (Elt F)),
    unary main_v25 main_v31 ((extractStridedSlice S100000x128 ![0, 128] · slices_S100000x384_S100000x128_0_128) : (⟨S100000x384, .f32⟩ : BufTy).Contents (Elt F) → (⟨S100000x128, .f32⟩ : BufTy).Contents (Elt F)),
    unary main_v25 main_v32 ((extractStridedSlice S100000x128 ![0, 256] · slices_S100000x384_S100000x128_0_256) : (⟨S100000x384, .f32⟩ : BufTy).Contents (Elt F) → (⟨S100000x128, .f32⟩ : BufTy).Contents (Elt F)),
    unary main_v29 main_v33 ((extractStridedSlice S100000x128 ![0, 0] · slices_S100000x384_S100000x128_0_0) : (⟨S100000x384, .f32⟩ : BufTy).Contents (Elt F) → (⟨S100000x128, .f32⟩ : BufTy).Contents (Elt F)),
    unary main_v29 main_v34 ((extractStridedSlice S100000x128 ![0, 128] · slices_S100000x384_S100000x128_0_128) : (⟨S100000x384, .f32⟩ : BufTy).Contents (Elt F) → (⟨S100000x128, .f32⟩ : BufTy).Contents (Elt F)),
    unary main_v29 main_v35 ((extractStridedSlice S100000x128 ![0, 256] · slices_S100000x384_S100000x128_0_256) : (⟨S100000x384, .f32⟩ : BufTy).Contents (Elt F) → (⟨S100000x128, .f32⟩ : BufTy).Contents (Elt F)),
    binary main_v30 main_v33 main_v36 (addf : (⟨S100000x128, .f32⟩ : BufTy).Contents (Elt F) → (⟨S100000x128, .f32⟩ : BufTy).Contents (Elt F) → (⟨S100000x128, .f32⟩ : BufTy).Contents (Elt F)),
    unary main_v36 main_v37 (Host.negf : (⟨S100000x128, .f32⟩ : BufTy).Contents (Elt F) → (⟨S100000x128, .f32⟩ : BufTy).Contents (Elt F)),
    unary main_v37 main_v38 (Host.exp : (⟨S100000x128, .f32⟩ : BufTy).Contents (Elt F) → (⟨S100000x128, .f32⟩ : BufTy).Contents (Elt F)),
    nullary main_cst_1 (constant S_ .f32 0x3F800000#32),
    unary main_cst_1 main_v39 (broadcastInDim S100000x128 ![] bcast_S_S100000x128 : (⟨S_, .f32⟩ : BufTy).Contents (Elt F) → (⟨S100000x128, .f32⟩ : BufTy).Contents (Elt F)),
    binary main_v39 main_v38 main_v40 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x3F800000#32),
    unary main_cst_2 main_v41 (broadcastInDim S100000x128 ![] bcast_S_S100000x128 : (⟨S_, .f32⟩ : BufTy).Contents (Elt F) → (⟨S100000x128, .f32⟩ : BufTy).Contents (Elt F)),
    binary main_v41 main_v40 main_v42 (Host.divf : (⟨S100000x128, .f32⟩ : BufTy).Contents (Elt F) → (⟨S100000x128, .f32⟩ : BufTy).Contents (Elt F) → (⟨S100000x128, .f32⟩ : BufTy).Contents (Elt F)),
    binary main_v31 main_v34 main_v43 (addf : (⟨S100000x128, .f32⟩ : BufTy).Contents (Elt F) → (⟨S100000x128, .f32⟩ : BufTy).Contents (Elt F) → (⟨S100000x128, .f32⟩ : BufTy).Contents (Elt F)),
    unary main_v43 main_v44 (Host.negf : (⟨S100000x128, .f32⟩ : BufTy).Contents (Elt F) → (⟨S100000x128, .f32⟩ : BufTy).Contents (Elt F)),
    unary main_v44 main_v45 (Host.exp : (⟨S100000x128, .f32⟩ : BufTy).Contents (Elt F) → (⟨S100000x128, .f32⟩ : BufTy).Contents (Elt F)),
    nullary main_cst_3 (constant S_ .f32 0x3F800000#32),
    unary main_cst_3 main_v46 (broadcastInDim S100000x128 ![] bcast_S_S100000x128 : (⟨S_, .f32⟩ : BufTy).Contents (Elt F) → (⟨S100000x128, .f32⟩ : BufTy).Contents (Elt F)),
    binary main_v46 main_v45 main_v47 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v48 (broadcastInDim S100000x128 ![] bcast_S_S100000x128 : (⟨S_, .f32⟩ : BufTy).Contents (Elt F) → (⟨S100000x128, .f32⟩ : BufTy).Contents (Elt F)),
    binary main_v48 main_v47 main_v49 (Host.divf : (⟨S100000x128, .f32⟩ : BufTy).Contents (Elt F) → (⟨S100000x128, .f32⟩ : BufTy).Contents (Elt F) → (⟨S100000x128, .f32⟩ : BufTy).Contents (Elt F)),
    binary main_v42 main_v35 main_v50 (mulf : (⟨S100000x128, .f32⟩ : BufTy).Contents (Elt F) → (⟨S100000x128, .f32⟩ : BufTy).Contents (Elt F) → (⟨S100000x128, .f32⟩ : BufTy).Contents (Elt F)),
    binary main_v32 main_v50 main_v51 (addf : (⟨S100000x128, .f32⟩ : BufTy).Contents (Elt F) → (⟨S100000x128, .f32⟩ : BufTy).Contents (Elt F) → (⟨S100000x128, .f32⟩ : BufTy).Contents (Elt F)),
    unary main_v51 main_v52 (Host.tanh : (⟨S100000x128, .f32⟩ : BufTy).Contents (Elt F) → (⟨S100000x128, .f32⟩ : BufTy).Contents (Elt F)),
    nullary main_cst_5 (constant S_ .f32 0x3F800000#32),
    unary main_cst_5 main_v53 (broadcastInDim S100000x128 ![] bcast_S_S100000x128 : (⟨S_, .f32⟩ : BufTy).Contents (Elt F) → (⟨S100000x128, .f32⟩ : BufTy).Contents (Elt F)),
    binary main_v53 main_v49 main_v54 (subf : (⟨S100000x128, .f32⟩ : BufTy).Contents (Elt F) → (⟨S100000x128, .f32⟩ : BufTy).Contents (Elt F) → (⟨S100000x128, .f32⟩ : BufTy).Contents (Elt F)),
    binary main_v54 main_v52 main_v55 (mulf : (⟨S100000x128, .f32⟩ : BufTy).Contents (Elt F) → (⟨S100000x128, .f32⟩ : BufTy).Contents (Elt F) → (⟨S100000x128, .f32⟩ : BufTy).Contents (Elt F)),
    binary main_v49 main_v8 main_v56 (mulf : (⟨S100000x128, .f32⟩ : BufTy).Contents (Elt F) → (⟨S100000x128, .f32⟩ : BufTy).Contents (Elt F) → (⟨S100000x128, .f32⟩ : BufTy).Contents (Elt F)),
    binary main_v55 main_v56 main_v57 (addf : (⟨S100000x128, .f32⟩ : BufTy).Contents (Elt F) → (⟨S100000x128, .f32⟩ : BufTy).Contents (Elt F) → (⟨S100000x128, .f32⟩ : BufTy).Contents (Elt F)) ]

abbrev opsD : List (HloOp τ sig (Elt F)) :=
  [ unary main_arg4 main_v58 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v58 main_v59 rfl shapeCasts_S1x128x128_S128x128,
    binary main_v57 main_v59 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v61 (broadcastInDim S1600000 ![] bcast_S_S1600000 : (⟨S_, .i32⟩ : BufTy).Contents (Elt F) → (⟨S1600000, .i32⟩ : BufTy).Contents (Elt F)),
    binary main_v1 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v63 (broadcastInDim S1600000 ![] bcast_S_S1600000 : (⟨S_, .i32⟩ : BufTy).Contents (Elt F) → (⟨S1600000, .i32⟩ : BufTy).Contents (Elt F)),
    binary main_v1 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v68 (broadcastInDim S100000x128 ![] bcast_S_S100000x128 : (⟨S_, .f32⟩ : BufTy).Contents (Elt F) → (⟨S100000x128, .f32⟩ : BufTy).Contents (Elt F)),
    unary main_v3 main_v69 (broadcastInDim S1600000x1 ![0] bcast_S1600000_S1600000x1_0 : (⟨S1600000, .i32⟩ : BufTy).Contents (Elt F) → (⟨S1600000x1, .i32⟩ : BufTy).Contents (Elt F)),
    ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v70 main_arg5 main_v71 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v72 (broadcastInDim S1x384 ![1] bcast_S384_S1x384_1 : (⟨S384, .f32⟩ : BufTy).Contents (Elt F) → (⟨S1x384, .f32⟩ : BufTy).Contents (Elt F)),
    unary main_v72 main_v73 (broadcastInDim S100000x384 ![0, 1] bcast_S1x384_S100000x384_0_1 : (⟨S1x384, .f32⟩ : BufTy).Contents (Elt F) → (⟨S100000x384, .f32⟩ : BufTy).Contents (Elt F)),
    binary main_v71 main_v73 main_v74 (addf : (⟨S100000x384, .f32⟩ : BufTy).Contents (Elt F) → (⟨S100000x384, .f32⟩ : BufTy).Contents (Elt F) → (⟨S100000x384, .f32⟩ : BufTy).Contents (Elt F)),
    binary main_v57 main_arg7 main_v75 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg8 main_v76 (broadcastInDim S1x384 ![1] bcast_S384_S1x384_1 : (⟨S384, .f32⟩ : BufTy).Contents (Elt F) → (⟨S1x384, .f32⟩ : BufTy).Contents (Elt F)),
    unary main_v76 main_v77 (broadcastInDim S100000x384 ![0, 1] bcast_S1x384_S100000x384_0_1 : (⟨S1x384, .f32⟩ : BufTy).Contents (Elt F) → (⟨S100000x384, .f32⟩ : BufTy).Contents (Elt F)),
    binary main_v75 main_v77 main_v78 (addf : (⟨S100000x384, .f32⟩ : BufTy).Contents (Elt F) → (⟨S100000x384, .f32⟩ : BufTy).Contents (Elt F) → (⟨S100000x384, .f32⟩ : BufTy).Contents (Elt F)) ]

abbrev opsE : List (HloOp τ sig (Elt F)) :=
  [ unary main_v74 main_v79 ((extractStridedSlice S100000x128 ![0, 0] · slices_S100000x384_S100000x128_0_0) : (⟨S100000x384, .f32⟩ : BufTy).Contents (Elt F) → (⟨S100000x128, .f32⟩ : BufTy).Contents (Elt F)),
    unary main_v74 main_v80 ((extractStridedSlice S100000x128 ![0, 128] · slices_S100000x384_S100000x128_0_128) : (⟨S100000x384, .f32⟩ : BufTy).Contents (Elt F) → (⟨S100000x128, .f32⟩ : BufTy).Contents (Elt F)),
    unary main_v74 main_v81 ((extractStridedSlice S100000x128 ![0, 256] · slices_S100000x384_S100000x128_0_256) : (⟨S100000x384, .f32⟩ : BufTy).Contents (Elt F) → (⟨S100000x128, .f32⟩ : BufTy).Contents (Elt F)),
    unary main_v78 main_v82 ((extractStridedSlice S100000x128 ![0, 0] · slices_S100000x384_S100000x128_0_0) : (⟨S100000x384, .f32⟩ : BufTy).Contents (Elt F) → (⟨S100000x128, .f32⟩ : BufTy).Contents (Elt F)),
    unary main_v78 main_v83 ((extractStridedSlice S100000x128 ![0, 128] · slices_S100000x384_S100000x128_0_128) : (⟨S100000x384, .f32⟩ : BufTy).Contents (Elt F) → (⟨S100000x128, .f32⟩ : BufTy).Contents (Elt F)),
    unary main_v78 main_v84 ((extractStridedSlice S100000x128 ![0, 256] · slices_S100000x384_S100000x128_0_256) : (⟨S100000x384, .f32⟩ : BufTy).Contents (Elt F) → (⟨S100000x128, .f32⟩ : BufTy).Contents (Elt F)),
    binary main_v79 main_v82 main_v85 (addf : (⟨S100000x128, .f32⟩ : BufTy).Contents (Elt F) → (⟨S100000x128, .f32⟩ : BufTy).Contents (Elt F) → (⟨S100000x128, .f32⟩ : BufTy).Contents (Elt F)),
    unary main_v85 main_v86 (Host.negf : (⟨S100000x128, .f32⟩ : BufTy).Contents (Elt F) → (⟨S100000x128, .f32⟩ : BufTy).Contents (Elt F)),
    unary main_v86 main_v87 (Host.exp : (⟨S100000x128, .f32⟩ : BufTy).Contents (Elt F) → (⟨S100000x128, .f32⟩ : BufTy).Contents (Elt F)),
    nullary main_cst_9 (constant S_ .f32 0x3F800000#32),
    unary main_cst_9 main_v88 (broadcastInDim S100000x128 ![] bcast_S_S100000x128 : (⟨S_, .f32⟩ : BufTy).Contents (Elt F) → (⟨S100000x128, .f32⟩ : BufTy).Contents (Elt F)),
    binary main_v88 main_v87 main_v89 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F800000#32),
    unary main_cst_10 main_v90 (broadcastInDim S100000x128 ![] bcast_S_S100000x128 : (⟨S_, .f32⟩ : BufTy).Contents (Elt F) → (⟨S100000x128, .f32⟩ : BufTy).Contents (Elt F)),
    binary main_v90 main_v89 main_v91 (Host.divf : (⟨S100000x128, .f32⟩ : BufTy).Contents (Elt F) → (⟨S100000x128, .f32⟩ : BufTy).Contents (Elt F) → (⟨S100000x128, .f32⟩ : BufTy).Contents (Elt F)),
    binary main_v80 main_v83 main_v92 (addf : (⟨S100000x128, .f32⟩ : BufTy).Contents (Elt F) → (⟨S100000x128, .f32⟩ : BufTy).Contents (Elt F) → (⟨S100000x128, .f32⟩ : BufTy).Contents (Elt F)),
    unary main_v92 main_v93 (Host.negf : (⟨S100000x128, .f32⟩ : BufTy).Contents (Elt F) → (⟨S100000x128, .f32⟩ : BufTy).Contents (Elt F)),
    unary main_v93 main_v94 (Host.exp : (⟨S100000x128, .f32⟩ : BufTy).Contents (Elt F) → (⟨S100000x128, .f32⟩ : BufTy).Contents (Elt F)),
    nullary main_cst_11 (constant S_ .f32 0x3F800000#32),
    unary main_cst_11 main_v95 (broadcastInDim S100000x128 ![] bcast_S_S100000x128 : (⟨S_, .f32⟩ : BufTy).Contents (Elt F) → (⟨S100000x128, .f32⟩ : BufTy).Contents (Elt F)),
    binary main_v95 main_v94 main_v96 (addf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3F800000#32),
    unary main_cst_12 main_v97 (broadcastInDim S100000x128 ![] bcast_S_S100000x128 : (⟨S_, .f32⟩ : BufTy).Contents (Elt F) → (⟨S100000x128, .f32⟩ : BufTy).Contents (Elt F)),
    binary main_v97 main_v96 main_v98 (Host.divf : (⟨S100000x128, .f32⟩ : BufTy).Contents (Elt F) → (⟨S100000x128, .f32⟩ : BufTy).Contents (Elt F) → (⟨S100000x128, .f32⟩ : BufTy).Contents (Elt F)),
    binary main_v91 main_v84 main_v99 (mulf : (⟨S100000x128, .f32⟩ : BufTy).Contents (Elt F) → (⟨S100000x128, .f32⟩ : BufTy).Contents (Elt F) → (⟨S100000x128, .f32⟩ : BufTy).Contents (Elt F)),
    binary main_v81 main_v99 main_v100 (addf : (⟨S100000x128, .f32⟩ : BufTy).Contents (Elt F) → (⟨S100000x128, .f32⟩ : BufTy).Contents (Elt F) → (⟨S100000x128, .f32⟩ : BufTy).Contents (Elt F)),
    unary main_v100 main_v101 (Host.tanh : (⟨S100000x128, .f32⟩ : BufTy).Contents (Elt F) → (⟨S100000x128, .f32⟩ : BufTy).Contents (Elt F)),
    nullary main_cst_13 (constant S_ .f32 0x3F800000#32),
    unary main_cst_13 main_v102 (broadcastInDim S100000x128 ![] bcast_S_S100000x128 : (⟨S_, .f32⟩ : BufTy).Contents (Elt F) → (⟨S100000x128, .f32⟩ : BufTy).Contents (Elt F)),
    binary main_v102 main_v98 main_v103 (subf : (⟨S100000x128, .f32⟩ : BufTy).Contents (Elt F) → (⟨S100000x128, .f32⟩ : BufTy).Contents (Elt F) → (⟨S100000x128, .f32⟩ : BufTy).Contents (Elt F)),
    binary main_v103 main_v101 main_v104 (mulf : (⟨S100000x128, .f32⟩ : BufTy).Contents (Elt F) → (⟨S100000x128, .f32⟩ : BufTy).Contents (Elt F) → (⟨S100000x128, .f32⟩ : BufTy).Contents (Elt F)),
    binary main_v98 main_v57 main_v105 (mulf : (⟨S100000x128, .f32⟩ : BufTy).Contents (Elt F) → (⟨S100000x128, .f32⟩ : BufTy).Contents (Elt F) → (⟨S100000x128, .f32⟩ : BufTy).Contents (Elt F)),
    binary main_v104 main_v105 main_v106 (addf : (⟨S100000x128, .f32⟩ : BufTy).Contents (Elt F) → (⟨S100000x128, .f32⟩ : BufTy).Contents (Elt F) → (⟨S100000x128, .f32⟩ : BufTy).Contents (Elt F)) ]

abbrev opsF : List (HloOp τ sig (Elt F)) :=
  [ unary main_arg4 main_v107 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v107 main_v108 rfl shapeCasts_S1x128x128_S128x128,
    binary main_v106 main_v108 main_v109 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v110 (broadcastInDim S1600000 ![] bcast_S_S1600000 : (⟨S_, .i32⟩ : BufTy).Contents (Elt F) → (⟨S1600000, .i32⟩ : BufTy).Contents (Elt F)),
    binary main_v1 main_v110 main_v111 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v112 (broadcastInDim S1600000 ![] bcast_S_S1600000 : (⟨S_, .i32⟩ : BufTy).Contents (Elt F) → (⟨S1600000, .i32⟩ : BufTy).Contents (Elt F)),
    binary main_v1 main_v112 main_v113 (addi : (⟨S1600000, .i32⟩ : BufTy).Contents (Elt F) → (⟨S1600000, .i32⟩ : BufTy).Contents (Elt F) → (⟨S1600000, .i32⟩ : BufTy).Contents (Elt F)),
    ternary main_v111 main_v113 main_v1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v114 main_v115 (broadcastInDim S1600000x1 ![0] bcast_S1600000_S1600000x1_0 : (⟨S1600000, .i32⟩ : BufTy).Contents (Elt F) → (⟨S1600000x1, .i32⟩ : BufTy).Contents (Elt F)),
    binary main_v109 main_v115 main_v116 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v117 (broadcastInDim S100000x128 ![] bcast_S_S100000x128 : (⟨S_, .f32⟩ : BufTy).Contents (Elt F) → (⟨S100000x128, .f32⟩ : BufTy).Contents (Elt F)),
    unary main_v3 main_v118 (broadcastInDim S1600000x1 ![0] bcast_S1600000_S1600000x1_0 : (⟨S1600000, .i32⟩ : BufTy).Contents (Elt F) → (⟨S1600000x1, .i32⟩ : BufTy).Contents (Elt F)),
    ternary main_v117 main_v118 main_v116 main_v119 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v119 main_arg5 main_v120 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v121 (broadcastInDim S1x384 ![1] bcast_S384_S1x384_1 : (⟨S384, .f32⟩ : BufTy).Contents (Elt F) → (⟨S1x384, .f32⟩ : BufTy).Contents (Elt F)),
    unary main_v121 main_v122 (broadcastInDim S100000x384 ![0, 1] bcast_S1x384_S100000x384_0_1 : (⟨S1x384, .f32⟩ : BufTy).Contents (Elt F) → (⟨S100000x384, .f32⟩ : BufTy).Contents (Elt F)),
    binary main_v120 main_v122 main_v123 (addf : (⟨S100000x384, .f32⟩ : BufTy).Contents (Elt F) → (⟨S100000x384, .f32⟩ : BufTy).Contents (Elt F) → (⟨S100000x384, .f32⟩ : BufTy).Contents (Elt F)),
    binary main_v106 main_arg7 main_v124 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg8 main_v125 (broadcastInDim S1x384 ![1] bcast_S384_S1x384_1 : (⟨S384, .f32⟩ : BufTy).Contents (Elt F) → (⟨S1x384, .f32⟩ : BufTy).Contents (Elt F)),
    unary main_v125 main_v126 (broadcastInDim S100000x384 ![0, 1] bcast_S1x384_S100000x384_0_1 : (⟨S1x384, .f32⟩ : BufTy).Contents (Elt F) → (⟨S100000x384, .f32⟩ : BufTy).Contents (Elt F)),
    binary main_v124 main_v126 main_v127 (addf : (⟨S100000x384, .f32⟩ : BufTy).Contents (Elt F) → (⟨S100000x384, .f32⟩ : BufTy).Contents (Elt F) → (⟨S100000x384, .f32⟩ : BufTy).Contents (Elt F)) ]

abbrev opsG : List (HloOp τ sig (Elt F)) :=
  [ unary main_v123 main_v128 ((extractStridedSlice S100000x128 ![0, 0] · slices_S100000x384_S100000x128_0_0) : (⟨S100000x384, .f32⟩ : BufTy).Contents (Elt F) → (⟨S100000x128, .f32⟩ : BufTy).Contents (Elt F)),
    unary main_v123 main_v129 ((extractStridedSlice S100000x128 ![0, 128] · slices_S100000x384_S100000x128_0_128) : (⟨S100000x384, .f32⟩ : BufTy).Contents (Elt F) → (⟨S100000x128, .f32⟩ : BufTy).Contents (Elt F)),
    unary main_v123 main_v130 ((extractStridedSlice S100000x128 ![0, 256] · slices_S100000x384_S100000x128_0_256) : (⟨S100000x384, .f32⟩ : BufTy).Contents (Elt F) → (⟨S100000x128, .f32⟩ : BufTy).Contents (Elt F)),
    unary main_v127 main_v131 ((extractStridedSlice S100000x128 ![0, 0] · slices_S100000x384_S100000x128_0_0) : (⟨S100000x384, .f32⟩ : BufTy).Contents (Elt F) → (⟨S100000x128, .f32⟩ : BufTy).Contents (Elt F)),
    unary main_v127 main_v132 ((extractStridedSlice S100000x128 ![0, 128] · slices_S100000x384_S100000x128_0_128) : (⟨S100000x384, .f32⟩ : BufTy).Contents (Elt F) → (⟨S100000x128, .f32⟩ : BufTy).Contents (Elt F)),
    unary main_v127 main_v133 ((extractStridedSlice S100000x128 ![0, 256] · slices_S100000x384_S100000x128_0_256) : (⟨S100000x384, .f32⟩ : BufTy).Contents (Elt F) → (⟨S100000x128, .f32⟩ : BufTy).Contents (Elt F)),
    binary main_v128 main_v131 main_v134 (addf : (⟨S100000x128, .f32⟩ : BufTy).Contents (Elt F) → (⟨S100000x128, .f32⟩ : BufTy).Contents (Elt F) → (⟨S100000x128, .f32⟩ : BufTy).Contents (Elt F)),
    unary main_v134 main_v135 (Host.negf : (⟨S100000x128, .f32⟩ : BufTy).Contents (Elt F) → (⟨S100000x128, .f32⟩ : BufTy).Contents (Elt F)),
    unary main_v135 main_v136 (Host.exp : (⟨S100000x128, .f32⟩ : BufTy).Contents (Elt F) → (⟨S100000x128, .f32⟩ : BufTy).Contents (Elt F)),
    nullary main_cst_17 (constant S_ .f32 0x3F800000#32),
    unary main_cst_17 main_v137 (broadcastInDim S100000x128 ![] bcast_S_S100000x128 : (⟨S_, .f32⟩ : BufTy).Contents (Elt F) → (⟨S100000x128, .f32⟩ : BufTy).Contents (Elt F)),
    binary main_v137 main_v136 main_v138 (addf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3F800000#32),
    unary main_cst_18 main_v139 (broadcastInDim S100000x128 ![] bcast_S_S100000x128 : (⟨S_, .f32⟩ : BufTy).Contents (Elt F) → (⟨S100000x128, .f32⟩ : BufTy).Contents (Elt F)),
    binary main_v139 main_v138 main_v140 (Host.divf : (⟨S100000x128, .f32⟩ : BufTy).Contents (Elt F) → (⟨S100000x128, .f32⟩ : BufTy).Contents (Elt F) → (⟨S100000x128, .f32⟩ : BufTy).Contents (Elt F)),
    binary main_v129 main_v132 main_v141 (addf : (⟨S100000x128, .f32⟩ : BufTy).Contents (Elt F) → (⟨S100000x128, .f32⟩ : BufTy).Contents (Elt F) → (⟨S100000x128, .f32⟩ : BufTy).Contents (Elt F)),
    unary main_v141 main_v142 (Host.negf : (⟨S100000x128, .f32⟩ : BufTy).Contents (Elt F) → (⟨S100000x128, .f32⟩ : BufTy).Contents (Elt F)),
    unary main_v142 main_v143 (Host.exp : (⟨S100000x128, .f32⟩ : BufTy).Contents (Elt F) → (⟨S100000x128, .f32⟩ : BufTy).Contents (Elt F)),
    nullary main_cst_19 (constant S_ .f32 0x3F800000#32),
    unary main_cst_19 main_v144 (broadcastInDim S100000x128 ![] bcast_S_S100000x128 : (⟨S_, .f32⟩ : BufTy).Contents (Elt F) → (⟨S100000x128, .f32⟩ : BufTy).Contents (Elt F)),
    binary main_v144 main_v143 main_v145 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3F800000#32),
    unary main_cst_20 main_v146 (broadcastInDim S100000x128 ![] bcast_S_S100000x128 : (⟨S_, .f32⟩ : BufTy).Contents (Elt F) → (⟨S100000x128, .f32⟩ : BufTy).Contents (Elt F)),
    binary main_v146 main_v145 main_v147 (Host.divf : (⟨S100000x128, .f32⟩ : BufTy).Contents (Elt F) → (⟨S100000x128, .f32⟩ : BufTy).Contents (Elt F) → (⟨S100000x128, .f32⟩ : BufTy).Contents (Elt F)),
    binary main_v140 main_v133 main_v148 (mulf : (⟨S100000x128, .f32⟩ : BufTy).Contents (Elt F) → (⟨S100000x128, .f32⟩ : BufTy).Contents (Elt F) → (⟨S100000x128, .f32⟩ : BufTy).Contents (Elt F)),
    binary main_v130 main_v148 main_v149 (addf : (⟨S100000x128, .f32⟩ : BufTy).Contents (Elt F) → (⟨S100000x128, .f32⟩ : BufTy).Contents (Elt F) → (⟨S100000x128, .f32⟩ : BufTy).Contents (Elt F)),
    unary main_v149 main_v150 (Host.tanh : (⟨S100000x128, .f32⟩ : BufTy).Contents (Elt F) → (⟨S100000x128, .f32⟩ : BufTy).Contents (Elt F)),
    nullary main_cst_21 (constant S_ .f32 0x3F800000#32),
    unary main_cst_21 main_v151 (broadcastInDim S100000x128 ![] bcast_S_S100000x128 : (⟨S_, .f32⟩ : BufTy).Contents (Elt F) → (⟨S100000x128, .f32⟩ : BufTy).Contents (Elt F)),
    binary main_v151 main_v147 main_v152 (subf : (⟨S100000x128, .f32⟩ : BufTy).Contents (Elt F) → (⟨S100000x128, .f32⟩ : BufTy).Contents (Elt F) → (⟨S100000x128, .f32⟩ : BufTy).Contents (Elt F)),
    binary main_v152 main_v150 main_v153 (mulf : (⟨S100000x128, .f32⟩ : BufTy).Contents (Elt F) → (⟨S100000x128, .f32⟩ : BufTy).Contents (Elt F) → (⟨S100000x128, .f32⟩ : BufTy).Contents (Elt F)),
    binary main_v147 main_v106 main_v154 (mulf : (⟨S100000x128, .f32⟩ : BufTy).Contents (Elt F) → (⟨S100000x128, .f32⟩ : BufTy).Contents (Elt F) → (⟨S100000x128, .f32⟩ : BufTy).Contents (Elt F)),
    binary main_v153 main_v154 main_v155 (addf : (⟨S100000x128, .f32⟩ : BufTy).Contents (Elt F) → (⟨S100000x128, .f32⟩ : BufTy).Contents (Elt F) → (⟨S100000x128, .f32⟩ : BufTy).Contents (Elt F)) ]

abbrev opsH : List (HloOp τ sig (Elt F)) :=
  [ nullary main_cst_22 (constant S_ .f32 0x00000000#32),
    unary main_cst_22 main_v156 (broadcastInDim S128x128 ![] bcast_S_S128x128 : (⟨S_, .f32⟩ : BufTy).Contents (Elt F) → (⟨S128x128, .f32⟩ : BufTy).Contents (Elt F)),
    unary main_arg20 main_v157 (broadcastInDim S100000x1 ![0] bcast_S100000_S100000x1_0 : (⟨S100000, .i32⟩ : BufTy).Contents (Elt F) → (⟨S100000x1, .i32⟩ : BufTy).Contents (Elt F)),
    ternary main_v156 main_v157 main_v155 main_v158 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_23 (constant S_ .f32 0x3F800000#32),
    unary main_cst_23 main_v159 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v160 (broadcastInDim S128 ![] bcast_S_S128 : (⟨S_, .f32⟩ : BufTy).Contents (Elt F) → (⟨S128, .f32⟩ : BufTy).Contents (Elt F)),
    unary main_arg20 main_v161 (broadcastInDim S100000x1 ![0] bcast_S100000_S100000x1_0 : (⟨S100000, .i32⟩ : BufTy).Contents (Elt F) → (⟨S100000x1, .i32⟩ : BufTy).Contents (Elt F)),
    ternary main_v160 main_v161 main_v159 main_v162 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_25 (constant S_ .f32 0x3F800000#32),
    unary main_cst_25 main_v163 (broadcastInDim S128 ![] bcast_S_S128 : (⟨S_, .f32⟩ : BufTy).Contents (Elt F) → (⟨S128, .f32⟩ : BufTy).Contents (Elt F)),
    binary main_v162 main_v163 main_v164 (maximumf : (⟨S128, .f32⟩ : BufTy).Contents (Elt F) → (⟨S128, .f32⟩ : BufTy).Contents (Elt F) → (⟨S128, .f32⟩ : BufTy).Contents (Elt F)),
    unary main_v164 main_v165 (broadcastInDim S128x1 ![0] bcast_S128_S128x1_0 : (⟨S128, .f32⟩ : BufTy).Contents (Elt F) → (⟨S128x1, .f32⟩ : BufTy).Contents (Elt F)),
    unary main_v165 main_v166 (broadcastInDim S128x128 ![0, 1] bcast_S128x1_S128x128_0_1 : (⟨S128x1, .f32⟩ : BufTy).Contents (Elt F) → (⟨S128x128, .f32⟩ : BufTy).Contents (Elt F)),
    binary main_v158 main_v166 main_v167 (Host.divf : (⟨S128x128, .f32⟩ : BufTy).Contents (Elt F) → (⟨S128x128, .f32⟩ : BufTy).Contents (Elt F) → (⟨S128x128, .f32⟩ : BufTy).Contents (Elt F)),
    binary main_arg1 main_arg9 main_v168 ((fun l r => Host.dotGeneral dot_S128x768_S768x128_S128x128_1_0_0_1_n_n none l r) : (⟨S128x768, .f32⟩ : BufTy).Contents (Elt F) → (⟨S768x128, .f32⟩ : BufTy).Contents (Elt F) → (⟨S128x128, .f32⟩ : BufTy).Contents (Elt F)),
    unary main_arg10 main_v169 (broadcastInDim S1x128 ![1] bcast_S128_S1x128_1 : (⟨S128, .f32⟩ : BufTy).Contents (Elt F) → (⟨S1x128, .f32⟩ : BufTy).Contents (Elt F)),
    unary main_v169 main_v170 (broadcastInDim S128x128 ![0, 1] bcast_S1x128_S128x128_0_1 : (⟨S1x128, .f32⟩ : BufTy).Contents (Elt F) → (⟨S128x128, .f32⟩ : BufTy).Contents (Elt F)),
    binary main_v168 main_v170 main_v171 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S128x128, .f32⟩) main_call1_v0) (broadcastInDim S128x128 ![] bcast_S_S128x128),
    TRef.binary (TRef.of (T := ⟨S128x128, .f32⟩) main_v171) (TRef.of (T := ⟨S128x128, .f32⟩) main_call1_v0) (TRef.of (T := ⟨S128x128, .f32⟩) main_v172) maximumf ]

abbrev opsI : List (HloOp τ sig (Elt F)) :=
  [ binary main_v167 main_v172 main_v173 ((fun a b => concatenate S128x256 1 [⟨S128x128, a⟩, ⟨S128x128, b⟩] concatenates_S128x128_S128x128_S128x256_d1) : (⟨S128x128, .f32⟩ : BufTy).Contents (Elt F) → (⟨S128x128, .f32⟩ : BufTy).Contents (Elt F) → (⟨S128x256, .f32⟩ : BufTy).Contents (Elt F)),
    nullary main_cst_26 (constant S_ .f32 0x00000000#32),
    binary main_v173 main_cst_26 main_v174 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    unary main_v174 main_v175 (broadcastInDim S128x1 ![0] bcast_S128_S128x1_0 : (⟨S128, .f32⟩ : BufTy).Contents (Elt F) → (⟨S128x1, .f32⟩ : BufTy).Contents (Elt F)),
    nullary main_cst_27 (constant S_ .f32 0x43800000#32),
    unary main_cst_27 main_v176 (broadcastInDim S128x1 ![] bcast_S_S128x1 : (⟨S_, .f32⟩ : BufTy).Contents (Elt F) → (⟨S128x1, .f32⟩ : BufTy).Contents (Elt F)),
    binary main_v175 main_v176 main_v177 (Host.divf : (⟨S128x1, .f32⟩ : BufTy).Contents (Elt F) → (⟨S128x1, .f32⟩ : BufTy).Contents (Elt F) → (⟨S128x1, .f32⟩ : BufTy).Contents (Elt F)),
    unary main_v177 main_v178 (broadcastInDim S128x256 ![0, 1] bcast_S128x1_S128x256_0_1 : (⟨S128x1, .f32⟩ : BufTy).Contents (Elt F) → (⟨S128x256, .f32⟩ : BufTy).Contents (Elt F)),
    binary main_v173 main_v178 main_v179 (subf : (⟨S128x256, .f32⟩ : BufTy).Contents (Elt F) → (⟨S128x256, .f32⟩ : BufTy).Contents (Elt F) → (⟨S128x256, .f32⟩ : BufTy).Contents (Elt F)),
    binary main_v179 main_v179 main_v180 (mulf : (⟨S128x256, .f32⟩ : BufTy).Contents (Elt F) → (⟨S128x256, .f32⟩ : BufTy).Contents (Elt F) → (⟨S128x256, .f32⟩ : BufTy).Contents (Elt F)),
    nullary main_cst_28 (constant S_ .f32 0x00000000#32),
    binary main_v180 main_cst_28 main_v181 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    unary main_v181 main_v182 (broadcastInDim S128x1 ![0] bcast_S128_S128x1_0 : (⟨S128, .f32⟩ : BufTy).Contents (Elt F) → (⟨S128x1, .f32⟩ : BufTy).Contents (Elt F)),
    nullary main_cst_29 (constant S_ .f32 0x43800000#32),
    unary main_cst_29 main_v183 (broadcastInDim S128x1 ![] bcast_S_S128x1 : (⟨S_, .f32⟩ : BufTy).Contents (Elt F) → (⟨S128x1, .f32⟩ : BufTy).Contents (Elt F)),
    binary main_v182 main_v183 main_v184 (Host.divf : (⟨S128x1, .f32⟩ : BufTy).Contents (Elt F) → (⟨S128x1, .f32⟩ : BufTy).Contents (Elt F) → (⟨S128x1, .f32⟩ : BufTy).Contents (Elt F)),
    unary main_v177 main_v185 (broadcastInDim S128x256 ![0, 1] bcast_S128x1_S128x256_0_1 : (⟨S128x1, .f32⟩ : BufTy).Contents (Elt F) → (⟨S128x256, .f32⟩ : BufTy).Contents (Elt F)),
    binary main_v173 main_v185 main_v186 (subf : (⟨S128x256, .f32⟩ : BufTy).Contents (Elt F) → (⟨S128x256, .f32⟩ : BufTy).Contents (Elt F) → (⟨S128x256, .f32⟩ : BufTy).Contents (Elt F)),
    nullary main_cst_30 (constant S_ .f32 0x3727C5AC#32),
    unary main_cst_30 main_v187 (broadcastInDim S128x1 ![] bcast_S_S128x1 : (⟨S_, .f32⟩ : BufTy).Contents (Elt F) → (⟨S128x1, .f32⟩ : BufTy).Contents (Elt F)),
    binary main_v184 main_v187 main_v188 (addf : (⟨S128x1, .f32⟩ : BufTy).Contents (Elt F) → (⟨S128x1, .f32⟩ : BufTy).Contents (Elt F) → (⟨S128x1, .f32⟩ : BufTy).Contents (Elt F)),
    unary main_v188 main_v189 (Host.rsqrt : (⟨S128x1, .f32⟩ : BufTy).Contents (Elt F) → (⟨S128x1, .f32⟩ : BufTy).Contents (Elt F)),
    unary main_v189 main_v190 (broadcastInDim S128x256 ![0, 1] bcast_S128x1_S128x256_0_1 : (⟨S128x1, .f32⟩ : BufTy).Contents (Elt F) → (⟨S128x256, .f32⟩ : BufTy).Contents (Elt F)),
    binary main_v186 main_v190 main_v191 (mulf : (⟨S128x256, .f32⟩ : BufTy).Contents (Elt F) → (⟨S128x256, .f32⟩ : BufTy).Contents (Elt F) → (⟨S128x256, .f32⟩ : BufTy).Contents (Elt F)),
    unary main_arg11 main_v192 (broadcastInDim S1x256 ![1] bcast_S256_S1x256_1 : (⟨S256, .f32⟩ : BufTy).Contents (Elt F) → (⟨S1x256, .f32⟩ : BufTy).Contents (Elt F)),
    unary main_v192 main_v193 (broadcastInDim S128x256 ![0, 1] bcast_S1x256_S128x256_0_1 : (⟨S1x256, .f32⟩ : BufTy).Contents (Elt F) → (⟨S128x256, .f32⟩ : BufTy).Contents (Elt F)),
    binary main_v191 main_v193 main_v194 (mulf : (⟨S128x256, .f32⟩ : BufTy).Contents (Elt F) → (⟨S128x256, .f32⟩ : BufTy).Contents (Elt F) → (⟨S128x256, .f32⟩ : BufTy).Contents (Elt F)),
    unary main_arg12 main_v195 (broadcastInDim S1x256 ![1] bcast_S256_S1x256_1 : (⟨S256, .f32⟩ : BufTy).Contents (Elt F) → (⟨S1x256, .f32⟩ : BufTy).Contents (Elt F)),
    unary main_v195 main_v196 (broadcastInDim S128x256 ![0, 1] bcast_S1x256_S128x256_0_1 : (⟨S1x256, .f32⟩ : BufTy).Contents (Elt F) → (⟨S128x256, .f32⟩ : BufTy).Contents (Elt F)),
    binary main_v194 main_v196 main_v197 (addf : (⟨S128x256, .f32⟩ : BufTy).Contents (Elt F) → (⟨S128x256, .f32⟩ : BufTy).Contents (Elt F) → (⟨S128x256, .f32⟩ : BufTy).Contents (Elt F)),
    binary main_v197 main_arg13 main_v198 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    unary main_arg14 main_v199 (broadcastInDim S1x128 ![1] bcast_S128_S1x128_1 : (⟨S128, .f32⟩ : BufTy).Contents (Elt F) → (⟨S1x128, .f32⟩ : BufTy).Contents (Elt F)),
    unary main_v199 main_v200 (broadcastInDim S128x128 ![0, 1] bcast_S1x128_S128x128_0_1 : (⟨S1x128, .f32⟩ : BufTy).Contents (Elt F) → (⟨S128x128, .f32⟩ : BufTy).Contents (Elt F)),
    binary main_v198 main_v200 main_v201 (addf : (⟨S128x128, .f32⟩ : BufTy).Contents (Elt F) → (⟨S128x128, .f32⟩ : BufTy).Contents (Elt F) → (⟨S128x128, .f32⟩ : BufTy).Contents (Elt F)) ]

abbrev opsJ : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S128x128, .f32⟩) main_call2_v0) (broadcastInDim S128x128 ![] bcast_S_S128x128),
    TRef.binary (TRef.of (T := ⟨S128x128, .f32⟩) main_v201) (TRef.of (T := ⟨S128x128, .f32⟩) main_call2_v0) (TRef.of (T := ⟨S128x128, .f32⟩) main_v202) maximumf,
    binary main_v202 main_arg15 main_v203 ((fun l r => Host.dotGeneral dot_S128x128_S128x32_S128x32_1_0_0_1_n_n none l r) : (⟨S128x128, .f32⟩ : BufTy).Contents (Elt F) → (⟨S128x32, .f32⟩ : BufTy).Contents (Elt F) → (⟨S128x32, .f32⟩ : BufTy).Contents (Elt F)),
    unary main_arg16 main_v204 (broadcastInDim S1x32 ![1] bcast_S32_S1x32_1 : (⟨S32, .f32⟩ : BufTy).Contents (Elt F) → (⟨S1x32, .f32⟩ : BufTy).Contents (Elt F)),
    unary main_v204 main_v205 (broadcastInDim S128x32 ![0, 1] bcast_S1x32_S128x32_0_1 : (⟨S1x32, .f32⟩ : BufTy).Contents (Elt F) → (⟨S128x32, .f32⟩ : BufTy).Contents (Elt F)),
    binary main_v203 main_v205 main_v206 (addf : (⟨S128x32, .f32⟩ : BufTy).Contents (Elt F) → (⟨S128x32, .f32⟩ : BufTy).Contents (Elt F) → (⟨S128x32, .f32⟩ : BufTy).Contents (Elt F)),
    binary main_v202 main_arg17 main_v207 ((fun l r => Host.dotGeneral dot_S128x128_S128x1_S128x1_1_0_0_1_n_n none l r) : (⟨S128x128, .f32⟩ : BufTy).Contents (Elt F) → (⟨S128x1, .f32⟩ : BufTy).Contents (Elt F) → (⟨S128x1, .f32⟩ : BufTy).Contents (Elt F)),
    unary main_arg18 main_v208 (broadcastInDim S1x1 ![1] bcast_S1_S1x1_1 : (⟨S1, .f32⟩ : BufTy).Contents (Elt F) → (⟨S1x1, .f32⟩ : BufTy).Contents (Elt F)),
    unary main_v208 main_v209 (broadcastInDim S128x1 ![0, 1] bcast_S1x1_S128x1_0_1 : (⟨S1x1, .f32⟩ : BufTy).Contents (Elt F) → (⟨S128x1, .f32⟩ : BufTy).Contents (Elt F)),
    binary main_v207 main_v209 main_v210 (addf : (⟨S128x1, .f32⟩ : BufTy).Contents (Elt F) → (⟨S128x1, .f32⟩ : BufTy).Contents (Elt F) → (⟨S128x1, .f32⟩ : BufTy).Contents (Elt F)) ]

abbrev ops : List (HloOp τ sig (Elt F)) :=
  opsA ++ opsB ++ opsC ++ opsD ++ opsE ++ opsF ++ opsG ++ opsH ++ opsI ++ opsJ

end Cert.ReferenceIdeal.RunH

end
-- ==== Proof.RRunMain.lean ====
import proofs.«423503_j25220047962222_1_alg».proof.Proof.RRunOps
import Idealize.ShloMosaic.Lib.StableHlo.Run
import Idealize.ShloMosaic.Lib.Pipeline.Frame
import Idealize.ShloMosaic.Lib.Pipeline.Regions

/-! The reference's @main is the straight line of its 250 host operations; no operation writes an argument. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

private theorem forall_app {α : Type} {p : α → Prop} {l₁ l₂ : List α} (h₁ : l₁.Forall p) (h₂ : l₂.Forall p) :
    (l₁ ++ l₂).Forall p := List.forall_append.mpr ⟨h₁, h₂⟩

private theorem opsA_sub : (opsA : List (HloOp τ sig (Elt F))).Forall fun op => op.bufs ⊆ tcRefs τ sig := by
  simp only [opsA, List.Forall, nullary_bufs_sub, unary_bufs_sub, binary_bufs_sub, ternary_bufs_sub, reshape_bufs_sub, and_self]

private theorem opsB_sub : (opsB : List (HloOp τ sig (Elt F))).Forall fun op => op.bufs ⊆ tcRefs τ sig := by
  simp only [opsB, List.Forall, nullary_bufs_sub, unary_bufs_sub, binary_bufs_sub, ternary_bufs_sub, reshape_bufs_sub, and_self]

private theorem opsC_sub : (opsC : List (HloOp τ sig (Elt F))).Forall fun op => op.bufs ⊆ tcRefs τ sig := by
  simp only [opsC, List.Forall, nullary_bufs_sub, unary_bufs_sub, binary_bufs_sub, ternary_bufs_sub, reshape_bufs_sub, and_self]

private theorem opsD_sub : (opsD : List (HloOp τ sig (Elt F))).Forall fun op => op.bufs ⊆ tcRefs τ sig := by
  simp only [opsD, List.Forall, nullary_bufs_sub, unary_bufs_sub, binary_bufs_sub, ternary_bufs_sub, reshape_bufs_sub, and_self]

private theorem opsE_sub : (opsE : List (HloOp τ sig (Elt F))).Forall fun op => op.bufs ⊆ tcRefs τ sig := by
  simp only [opsE, List.Forall, nullary_bufs_sub, unary_bufs_sub, binary_bufs_sub, ternary_bufs_sub, reshape_bufs_sub, and_self]

private theorem opsF_sub : (opsF : List (HloOp τ sig (Elt F))).Forall fun op => op.bufs ⊆ tcRefs τ sig := by
  simp only [opsF, List.Forall, nullary_bufs_sub, unary_bufs_sub, binary_bufs_sub, ternary_bufs_sub, reshape_bufs_sub, and_self]

private theorem opsG_sub : (opsG : List (HloOp τ sig (Elt F))).Forall fun op => op.bufs ⊆ tcRefs τ sig := by
  simp only [opsG, List.Forall, nullary_bufs_sub, unary_bufs_sub, binary_bufs_sub, ternary_bufs_sub, reshape_bufs_sub, and_self]

private theorem opsH_sub : (opsH : List (HloOp τ sig (Elt F))).Forall fun op => op.bufs ⊆ tcRefs τ sig := by
  simp only [opsH, List.Forall, nullary_bufs_sub, unary_bufs_sub, binary_bufs_sub, ternary_bufs_sub, reshape_bufs_sub, and_self]

private theorem opsI_sub : (opsI : List (HloOp τ sig (Elt F))).Forall fun op => op.bufs ⊆ tcRefs τ sig := by
  simp only [opsI, List.Forall, nullary_bufs_sub, unary_bufs_sub, binary_bufs_sub, ternary_bufs_sub, reshape_bufs_sub, and_self]

private theorem opsJ_sub : (opsJ : List (HloOp τ sig (Elt F))).Forall fun op => op.bufs ⊆ tcRefs τ sig := by
  simp only [opsJ, List.Forall, nullary_bufs_sub, unary_bufs_sub, binary_bufs_sub, ternary_bufs_sub, reshape_bufs_sub, and_self]

theorem ops_sub : (ops : List (HloOp τ sig (Elt F))).Forall fun op => op.bufs ⊆ tcRefs τ sig :=
  forall_app (forall_app (forall_app (forall_app (forall_app (forall_app (forall_app (forall_app (forall_app
    opsA_sub opsB_sub) opsC_sub) opsD_sub) opsE_sub) opsF_sub) opsG_sub) opsH_sub) opsI_sub) opsJ_sub

private theorem opsA_fresh : (opsA : List (HloOp τ sig (Elt F))).Forall fun op => op.fresh = ∅ := by
  simp only [opsA, List.Forall]
  repeat' apply And.intro
  all_goals rfl

private theorem opsB_fresh : (opsB : List (HloOp τ sig (Elt F))).Forall fun op => op.fresh = ∅ := by
  simp only [opsB, List.Forall]
  repeat' apply And.intro
  all_goals rfl

private theorem opsC_fresh : (opsC : List (HloOp τ sig (Elt F))).Forall fun op => op.fresh = ∅ := by
  simp only [opsC, List.Forall]
  repeat' apply And.intro
  all_goals rfl

private theorem opsD_fresh : (opsD : List (HloOp τ sig (Elt F))).Forall fun op => op.fresh = ∅ := by
  simp only [opsD, List.Forall]
  repeat' apply And.intro
  all_goals rfl

private theorem opsE_fresh : (opsE : List (HloOp τ sig (Elt F))).Forall fun op => op.fresh = ∅ := by
  simp only [opsE, List.Forall]
  repeat' apply And.intro
  all_goals rfl

private theorem opsF_fresh : (opsF : List (HloOp τ sig (Elt F))).Forall fun op => op.fresh = ∅ := by
  simp only [opsF, List.Forall]
  repeat' apply And.intro
  all_goals rfl

private theorem opsG_fresh : (opsG : List (HloOp τ sig (Elt F))).Forall fun op => op.fresh = ∅ := by
  simp only [opsG, List.Forall]
  repeat' apply And.intro
  all_goals rfl

private theorem opsH_fresh : (opsH : List (HloOp τ sig (Elt F))).Forall fun op => op.fresh = ∅ := by
  simp only [opsH, List.Forall]
  repeat' apply And.intro
  all_goals rfl

private theorem opsI_fresh : (opsI : List (HloOp τ sig (Elt F))).Forall fun op => op.fresh = ∅ := by
  simp only [opsI, List.Forall]
  repeat' apply And.intro
  all_goals rfl

private theorem opsJ_fresh : (opsJ : List (HloOp τ sig (Elt F))).Forall fun op => op.fresh = ∅ := by
  simp only [opsJ, List.Forall]
  repeat' apply And.intro
  all_goals rfl

theorem ops_fresh : ∀ op ∈ (ops : List (HloOp τ sig (Elt F))), op.fresh = ∅ :=
  List.forall_iff_forall_mem.mp
    (forall_app (forall_app (forall_app (forall_app (forall_app (forall_app (forall_app (forall_app (forall_app
      opsA_fresh opsB_fresh) opsC_fresh) opsD_fresh) opsE_fresh) opsF_fresh) opsG_fresh) opsH_fresh) opsI_fresh) opsJ_fresh)

theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

private theorem devRef_ne_of_num {r y : Ref sig .tc} (hr : r.idx.val < 21) (hy : 21 ≤ y.idx.val) :
    Proc.devRef (τ := τ) .tc r ≠ Proc.devRef .tc y :=
  devRef_ne_of_ne fun e => by subst e; omega

private theorem opsA_nw {r : Ref sig .tc} (hr : r.idx.val < 21) :
    (opsA : List (HloOp τ sig (Elt F))).Forall fun op => Proc.devRef .tc r ∉ op.writes := by
  simp only [opsA, List.Forall, nullary_writes, unary_writes, binary_writes, ternary_writes, reshape_writes, Finset.mem_singleton]
  repeat' apply And.intro
  all_goals exact devRef_ne_of_num hr (by decide)

private theorem opsB_nw {r : Ref sig .tc} (hr : r.idx.val < 21) :
    (opsB : List (HloOp τ sig (Elt F))).Forall fun op => Proc.devRef .tc r ∉ op.writes := by
  simp only [opsB, List.Forall, nullary_writes, unary_writes, binary_writes, ternary_writes, reshape_writes, Finset.mem_singleton]
  repeat' apply And.intro
  all_goals exact devRef_ne_of_num hr (by decide)

private theorem opsC_nw {r : Ref sig .tc} (hr : r.idx.val < 21) :
    (opsC : List (HloOp τ sig (Elt F))).Forall fun op => Proc.devRef .tc r ∉ op.writes := by
  simp only [opsC, List.Forall, nullary_writes, unary_writes, binary_writes, ternary_writes, reshape_writes, Finset.mem_singleton]
  repeat' apply And.intro
  all_goals exact devRef_ne_of_num hr (by decide)

private theorem opsD_nw {r : Ref sig .tc} (hr : r.idx.val < 21) :
    (opsD : List (HloOp τ sig (Elt F))).Forall fun op => Proc.devRef .tc r ∉ op.writes := by
  simp only [opsD, List.Forall, nullary_writes, unary_writes, binary_writes, ternary_writes, reshape_writes, Finset.mem_singleton]
  repeat' apply And.intro
  all_goals exact devRef_ne_of_num hr (by decide)

private theorem opsE_nw {r : Ref sig .tc} (hr : r.idx.val < 21) :
    (opsE : List (HloOp τ sig (Elt F))).Forall fun op => Proc.devRef .tc r ∉ op.writes := by
  simp only [opsE, List.Forall, nullary_writes, unary_writes, binary_writes, ternary_writes, reshape_writes, Finset.mem_singleton]
  repeat' apply And.intro
  all_goals exact devRef_ne_of_num hr (by decide)

private theorem opsF_nw {r : Ref sig .tc} (hr : r.idx.val < 21) :
    (opsF : List (HloOp τ sig (Elt F))).Forall fun op => Proc.devRef .tc r ∉ op.writes := by
  simp only [opsF, List.Forall, nullary_writes, unary_writes, binary_writes, ternary_writes, reshape_writes, Finset.mem_singleton]
  repeat' apply And.intro
  all_goals exact devRef_ne_of_num hr (by decide)

private theorem opsG_nw {r : Ref sig .tc} (hr : r.idx.val < 21) :
    (opsG : List (HloOp τ sig (Elt F))).Forall fun op => Proc.devRef .tc r ∉ op.writes := by
  simp only [opsG, List.Forall, nullary_writes, unary_writes, binary_writes, ternary_writes, reshape_writes, Finset.mem_singleton]
  repeat' apply And.intro
  all_goals exact devRef_ne_of_num hr (by decide)

private theorem opsH_nw {r : Ref sig .tc} (hr : r.idx.val < 21) :
    (opsH : List (HloOp τ sig (Elt F))).Forall fun op => Proc.devRef .tc r ∉ op.writes := by
  simp only [opsH, List.Forall, nullary_writes, unary_writes, binary_writes, ternary_writes, reshape_writes, Finset.mem_singleton]
  repeat' apply And.intro
  all_goals exact devRef_ne_of_num hr (by decide)

private theorem opsI_nw {r : Ref sig .tc} (hr : r.idx.val < 21) :
    (opsI : List (HloOp τ sig (Elt F))).Forall fun op => Proc.devRef .tc r ∉ op.writes := by
  simp only [opsI, List.Forall, nullary_writes, unary_writes, binary_writes, ternary_writes, reshape_writes, Finset.mem_singleton]
  repeat' apply And.intro
  all_goals exact devRef_ne_of_num hr (by decide)

private theorem opsJ_nw {r : Ref sig .tc} (hr : r.idx.val < 21) :
    (opsJ : List (HloOp τ sig (Elt F))).Forall fun op => Proc.devRef .tc r ∉ op.writes := by
  simp only [opsJ, List.Forall, nullary_writes, unary_writes, binary_writes, ternary_writes, reshape_writes, Finset.mem_singleton]
  repeat' apply And.intro
  all_goals exact devRef_ne_of_num hr (by decide)

private theorem kept {r : Ref sig .tc} (hr : r.idx.val < 21) (V : Valuation τ sig (Elt F)) :
    after ops V (Proc.devRef .tc r) = V (Proc.devRef .tc r) :=
  after_of_forall_not_mem ops V (List.forall_iff_forall_mem.mp
    (forall_app (forall_app (forall_app (forall_app (forall_app (forall_app (forall_app (forall_app (forall_app
      (opsA_nw hr) (opsB_nw hr)) (opsC_nw hr)) (opsD_nw hr)) (opsE_nw hr)) (opsF_nw hr)) (opsG_nw hr)) (opsH_nw hr))
      (opsI_nw hr)) (opsJ_nw hr)))

theorem kept_main_arg0 (V : Valuation τ sig (Elt F)) :
    after ops V (Proc.devRef .tc main_arg0) = V (Proc.devRef .tc main_arg0) :=
  kept (by decide) V

theorem kept_main_arg1 (V : Valuation τ sig (Elt F)) :
    after ops V (Proc.devRef .tc main_arg1) = V (Proc.devRef .tc main_arg1) :=
  kept (by decide) V

theorem kept_main_arg2 (V : Valuation τ sig (Elt F)) :
    after ops V (Proc.devRef .tc main_arg2) = V (Proc.devRef .tc main_arg2) :=
  kept (by decide) V

theorem kept_main_arg3 (V : Valuation τ sig (Elt F)) :
    after ops V (Proc.devRef .tc main_arg3) = V (Proc.devRef .tc main_arg3) :=
  kept (by decide) V

theorem kept_main_arg4 (V : Valuation τ sig (Elt F)) :
    after ops V (Proc.devRef .tc main_arg4) = V (Proc.devRef .tc main_arg4) :=
  kept (by decide) V

theorem kept_main_arg5 (V : Valuation τ sig (Elt F)) :
    after ops V (Proc.devRef .tc main_arg5) = V (Proc.devRef .tc main_arg5) :=
  kept (by decide) V

theorem kept_main_arg6 (V : Valuation τ sig (Elt F)) :
    after ops V (Proc.devRef .tc main_arg6) = V (Proc.devRef .tc main_arg6) :=
  kept (by decide) V

theorem kept_main_arg7 (V : Valuation τ sig (Elt F)) :
    after ops V (Proc.devRef .tc main_arg7) = V (Proc.devRef .tc main_arg7) :=
  kept (by decide) V

theorem kept_main_arg8 (V : Valuation τ sig (Elt F)) :
    after ops V (Proc.devRef .tc main_arg8) = V (Proc.devRef .tc main_arg8) :=
  kept (by decide) V

theorem kept_main_arg9 (V : Valuation τ sig (Elt F)) :
    after ops V (Proc.devRef .tc main_arg9) = V (Proc.devRef .tc main_arg9) :=
  kept (by decide) V

theorem kept_main_arg10 (V : Valuation τ sig (Elt F)) :
    after ops V (Proc.devRef .tc main_arg10) = V (Proc.devRef .tc main_arg10) :=
  kept (by decide) V

theorem kept_main_arg11 (V : Valuation τ sig (Elt F)) :
    after ops V (Proc.devRef .tc main_arg11) = V (Proc.devRef .tc main_arg11) :=
  kept (by decide) V

theorem kept_main_arg12 (V : Valuation τ sig (Elt F)) :
    after ops V (Proc.devRef .tc main_arg12) = V (Proc.devRef .tc main_arg12) :=
  kept (by decide) V

theorem kept_main_arg13 (V : Valuation τ sig (Elt F)) :
    after ops V (Proc.devRef .tc main_arg13) = V (Proc.devRef .tc main_arg13) :=
  kept (by decide) V

theorem kept_main_arg14 (V : Valuation τ sig (Elt F)) :
    after ops V (Proc.devRef .tc main_arg14) = V (Proc.devRef .tc main_arg14) :=
  kept (by decide) V

theorem kept_main_arg15 (V : Valuation τ sig (Elt F)) :
    after ops V (Proc.devRef .tc main_arg15) = V (Proc.devRef .tc main_arg15) :=
  kept (by decide) V

theorem kept_main_arg16 (V : Valuation τ sig (Elt F)) :
    after ops V (Proc.devRef .tc main_arg16) = V (Proc.devRef .tc main_arg16) :=
  kept (by decide) V

theorem kept_main_arg17 (V : Valuation τ sig (Elt F)) :
    after ops V (Proc.devRef .tc main_arg17) = V (Proc.devRef .tc main_arg17) :=
  kept (by decide) V

theorem kept_main_arg18 (V : Valuation τ sig (Elt F)) :
    after ops V (Proc.devRef .tc main_arg18) = V (Proc.devRef .tc main_arg18) :=
  kept (by decide) V

theorem kept_main_arg19 (V : Valuation τ sig (Elt F)) :
    after ops V (Proc.devRef .tc main_arg19) = V (Proc.devRef .tc main_arg19) :=
  kept (by decide) V

theorem kept_main_arg20 (V : Valuation τ sig (Elt F)) :
    after ops V (Proc.devRef .tc main_arg20) = V (Proc.devRef .tc main_arg20) :=
  kept (by decide) V

end Cert.ReferenceIdeal.RunH

end
-- ==== Proof.RRunVal.lean ====
import proofs.«423503_j25220047962222_1_alg».proof.Proof.RRunOps
import proofs.«423503_j25220047962222_1_alg».proof.Proof.RRead
import Idealize.ShloMosaic.Lib.StableHlo.Run
import Idealize.ShloMosaic.Lib.Pipeline.Frame

/-! What the ten lists leave in the buffers later lists read, and at last in the two results: their stage functions of the arguments. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

private abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

local macro "line_keeps " l:ident " at " hr:term " of " K:term : tactic =>
  `(tactic| (refine List.forall_iff_forall_mem.mp ?_
             simp only [$l:ident, List.Forall, nullary_writes, unary_writes, binary_writes, ternary_writes, reshape_writes,
               Finset.mem_singleton]
             repeat' apply And.intro
             all_goals exact devRef_ne_of_ne ((by decide : ∀ r ∈ $K, r ≠ _) _ $hr)))

private theorem keepA (W : Valuation τ sig (Elt F)) {r : Ref sig .tc} (hr : r ∈ argRefs) :
    after opsA W (Proc.devRef .tc r) = W (Proc.devRef .tc r) :=
  after_of_forall_not_mem opsA W (by line_keeps opsA at hr of argRefs)

private theorem keepB (W : Valuation τ sig (Elt F)) {r : Ref sig .tc} (hr : r ∈ [main_v1, main_v3, main_v8] ++ argRefs) :
    after opsB W (Proc.devRef .tc r) = W (Proc.devRef .tc r) :=
  after_of_forall_not_mem opsB W (by line_keeps opsB at hr of [main_v1, main_v3, main_v8] ++ argRefs)

private theorem keepC (W : Valuation τ sig (Elt F)) {r : Ref sig .tc} (hr : r ∈ [main_v1, main_v3] ++ argRefs) :
    after opsC W (Proc.devRef .tc r) = W (Proc.devRef .tc r) :=
  after_of_forall_not_mem opsC W (by line_keeps opsC at hr of [main_v1, main_v3] ++ argRefs)

private theorem keepD (W : Valuation τ sig (Elt F)) {r : Ref sig .tc} (hr : r ∈ [main_v1, main_v3, main_v57] ++ argRefs) :
    after opsD W (Proc.devRef .tc r) = W (Proc.devRef .tc r) :=
  after_of_forall_not_mem opsD W (by line_keeps opsD at hr of [main_v1, main_v3, main_v57] ++ argRefs)

private theorem keepE (W : Valuation τ sig (Elt F)) {r : Ref sig .tc} (hr : r ∈ [main_v1, main_v3] ++ argRefs) :
    after opsE W (Proc.devRef .tc r) = W (Proc.devRef .tc r) :=
  after_of_forall_not_mem opsE W (by line_keeps opsE at hr of [main_v1, main_v3] ++ argRefs)

private theorem keepF (W : Valuation τ sig (Elt F)) {r : Ref sig .tc} (hr : r ∈ [main_v106] ++ argRefs) :
    after opsF W (Proc.devRef .tc r) = W (Proc.devRef .tc r) :=
  after_of_forall_not_mem opsF W (by line_keeps opsF at hr of [main_v106] ++ argRefs)

private theorem keepG (W : Valuation τ sig (Elt F)) {r : Ref sig .tc} (hr : r ∈ argRefs) :
    after opsG W (Proc.devRef .tc r) = W (Proc.devRef .tc r) :=
  after_of_forall_not_mem opsG W (by line_keeps opsG at hr of argRefs)

private theorem keepH (W : Valuation τ sig (Elt F)) {r : Ref sig .tc} (hr : r ∈ argRefs) :
    after opsH W (Proc.devRef .tc r) = W (Proc.devRef .tc r) :=
  after_of_forall_not_mem opsH W (by line_keeps opsH at hr of argRefs)

private theorem keepI (W : Valuation τ sig (Elt F)) {r : Ref sig .tc} (hr : r ∈ argRefs) :
    after opsI W (Proc.devRef .tc r) = W (Proc.devRef .tc r) :=
  after_of_forall_not_mem opsI W (by line_keeps opsI at hr of argRefs)

variable {x0 : (⟨S100000x64, .f32⟩ : BufTy).Contents (Elt F)} {x1 : (⟨S128x768, .f32⟩ : BufTy).Contents (Elt F)}
  {x2 : (⟨S64x128, .f32⟩ : BufTy).Contents (Elt F)} {x3 : (⟨S128, .f32⟩ : BufTy).Contents (Elt F)}
  {x4 : (⟨S3x128x128, .f32⟩ : BufTy).Contents (Elt F)} {x5 : (⟨S128x384, .f32⟩ : BufTy).Contents (Elt F)}
  {x6 : (⟨S384, .f32⟩ : BufTy).Contents (Elt F)} {x7 : (⟨S128x384, .f32⟩ : BufTy).Contents (Elt F)}
  {x8 : (⟨S384, .f32⟩ : BufTy).Contents (Elt F)} {x9 : (⟨S768x128, .f32⟩ : BufTy).Contents (Elt F)}
  {x10 : (⟨S128, .f32⟩ : BufTy).Contents (Elt F)} {x11 : (⟨S256, .f32⟩ : BufTy).Contents (Elt F)}
  {x12 : (⟨S256, .f32⟩ : BufTy).Contents (Elt F)} {x13 : (⟨S256x128, .f32⟩ : BufTy).Contents (Elt F)}
  {x14 : (⟨S128, .f32⟩ : BufTy).Contents (Elt F)} {x15 : (⟨S128x32, .f32⟩ : BufTy).Contents (Elt F)}
  {x16 : (⟨S32, .f32⟩ : BufTy).Contents (Elt F)} {x17 : (⟨S128x1, .f32⟩ : BufTy).Contents (Elt F)}
  {x18 : (⟨S1, .f32⟩ : BufTy).Contents (Elt F)} {x19 : (⟨S2x1600000, .i32⟩ : BufTy).Contents (Elt F)}
  {x20 : (⟨S100000, .i32⟩ : BufTy).Contents (Elt F)}

private theorem A_v1 (V : Valuation τ sig (Elt F)) :
    after opsA V (Proc.devRef .tc main_v1) = val_main_v1 (F := F) (V (Proc.devRef .tc main_arg19)) := by
  after_results_simp
  rfl

private theorem A_v3 (V : Valuation τ sig (Elt F)) :
    after opsA V (Proc.devRef .tc main_v3) = val_main_v3 (F := F) (V (Proc.devRef .tc main_arg19)) := by
  after_results_simp
  rfl

private theorem A_v8 (V : Valuation τ sig (Elt F)) :
    after opsA V (Proc.devRef .tc main_v8)
      = val_main_v8 (F := F) (V (Proc.devRef .tc main_arg0)) (V (Proc.devRef .tc main_arg2)) (V (Proc.devRef .tc main_arg3)) := by
  after_results_simp
  rfl

private theorem B_v25 (W : Valuation τ sig (Elt F))
    (h1 : W (Proc.devRef .tc main_v1) = val_main_v1 (F := F) x19)
    (h3 : W (Proc.devRef .tc main_v3) = val_main_v3 (F := F) x19)
    (h8 : W (Proc.devRef .tc main_v8) = val_main_v8 (F := F) x0 x2 x3)
    (a4 : W (Proc.devRef .tc main_arg4) = x4) (a5 : W (Proc.devRef .tc main_arg5) = x5)
    (a6 : W (Proc.devRef .tc main_arg6) = x6) :
    after opsB W (Proc.devRef .tc main_v25) = val_main_v25 (F := F) x0 x2 x3 x4 x5 x6 x19 := by
  after_results_simp
  rw [h1, h3, h8, a4, a5, a6]
  rfl

private theorem B_v29 (W : Valuation τ sig (Elt F))
    (h8 : W (Proc.devRef .tc main_v8) = val_main_v8 (F := F) x0 x2 x3)
    (a7 : W (Proc.devRef .tc main_arg7) = x7) (a8 : W (Proc.devRef .tc main_arg8) = x8) :
    after opsB W (Proc.devRef .tc main_v29) = val_main_v29 (F := F) x0 x2 x3 x7 x8 := by
  after_results_simp
  rw [h8, a7, a8]
  rfl

private theorem C_v57 (W : Valuation τ sig (Elt F))
    (h8 : W (Proc.devRef .tc main_v8) = val_main_v8 (F := F) x0 x2 x3)
    (h25 : W (Proc.devRef .tc main_v25) = val_main_v25 (F := F) x0 x2 x3 x4 x5 x6 x19)
    (h29 : W (Proc.devRef .tc main_v29) = val_main_v29 (F := F) x0 x2 x3 x7 x8) :
    after opsC W (Proc.devRef .tc main_v57) = val_main_v57 (F := F) x0 x2 x3 x4 x5 x6 x7 x8 x19 := by
  after_results_simp
  rw [h8, h25, h29]
  rfl

private theorem D_v74 (W : Valuation τ sig (Elt F))
    (h1 : W (Proc.devRef .tc main_v1) = val_main_v1 (F := F) x19)
    (h3 : W (Proc.devRef .tc main_v3) = val_main_v3 (F := F) x19)
    (h57 : W (Proc.devRef .tc main_v57) = val_main_v57 (F := F) x0 x2 x3 x4 x5 x6 x7 x8 x19)
    (a4 : W (Proc.devRef .tc main_arg4) = x4) (a5 : W (Proc.devRef .tc main_arg5) = x5)
    (a6 : W (Proc.devRef .tc main_arg6) = x6) :
    after opsD W (Proc.devRef .tc main_v74) = val_main_v74 (F := F) x0 x2 x3 x4 x5 x6 x7 x8 x19 := by
  after_results_simp
  rw [h1, h3, h57, a4, a5, a6]
  rfl

private theorem D_v78 (W : Valuation τ sig (Elt F))
    (h57 : W (Proc.devRef .tc main_v57) = val_main_v57 (F := F) x0 x2 x3 x4 x5 x6 x7 x8 x19)
    (a7 : W (Proc.devRef .tc main_arg7) = x7) (a8 : W (Proc.devRef .tc main_arg8) = x8) :
    after opsD W (Proc.devRef .tc main_v78) = val_main_v78 (F := F) x0 x2 x3 x4 x5 x6 x7 x8 x19 := by
  after_results_simp
  rw [h57, a7, a8]
  rfl

private theorem E_v106 (W : Valuation τ sig (Elt F))
    (h57 : W (Proc.devRef .tc main_v57) = val_main_v57 (F := F) x0 x2 x3 x4 x5 x6 x7 x8 x19)
    (h74 : W (Proc.devRef .tc main_v74) = val_main_v74 (F := F) x0 x2 x3 x4 x5 x6 x7 x8 x19)
    (h78 : W (Proc.devRef .tc main_v78) = val_main_v78 (F := F) x0 x2 x3 x4 x5 x6 x7 x8 x19) :
    after opsE W (Proc.devRef .tc main_v106) = val_main_v106 (F := F) x0 x2 x3 x4 x5 x6 x7 x8 x19 := by
  after_results_simp
  rw [h57, h74, h78]
  rfl

private theorem F_v123 (W : Valuation τ sig (Elt F))
    (h1 : W (Proc.devRef .tc main_v1) = val_main_v1 (F := F) x19)
    (h3 : W (Proc.devRef .tc main_v3) = val_main_v3 (F := F) x19)
    (h106 : W (Proc.devRef .tc main_v106) = val_main_v106 (F := F) x0 x2 x3 x4 x5 x6 x7 x8 x19)
    (a4 : W (Proc.devRef .tc main_arg4) = x4) (a5 : W (Proc.devRef .tc main_arg5) = x5)
    (a6 : W (Proc.devRef .tc main_arg6) = x6) :
    after opsF W (Proc.devRef .tc main_v123) = val_main_v123 (F := F) x0 x2 x3 x4 x5 x6 x7 x8 x19 := by
  after_results_simp
  rw [h1, h3, h106, a4, a5, a6]
  rfl

private theorem F_v127 (W : Valuation τ sig (Elt F))
    (h106 : W (Proc.devRef .tc main_v106) = val_main_v106 (F := F) x0 x2 x3 x4 x5 x6 x7 x8 x19)
    (a7 : W (Proc.devRef .tc main_arg7) = x7) (a8 : W (Proc.devRef .tc main_arg8) = x8) :
    after opsF W (Proc.devRef .tc main_v127) = val_main_v127 (F := F) x0 x2 x3 x4 x5 x6 x7 x8 x19 := by
  after_results_simp
  rw [h106, a7, a8]
  rfl

private theorem G_v155 (W : Valuation τ sig (Elt F))
    (h106 : W (Proc.devRef .tc main_v106) = val_main_v106 (F := F) x0 x2 x3 x4 x5 x6 x7 x8 x19)
    (h123 : W (Proc.devRef .tc main_v123) = val_main_v123 (F := F) x0 x2 x3 x4 x5 x6 x7 x8 x19)
    (h127 : W (Proc.devRef .tc main_v127) = val_main_v127 (F := F) x0 x2 x3 x4 x5 x6 x7 x8 x19) :
    after opsG W (Proc.devRef .tc main_v155) = val_main_v155 (F := F) x0 x2 x3 x4 x5 x6 x7 x8 x19 := by
  after_results_simp
  rw [h106, h123, h127]
  rfl

private theorem H_v167 (W : Valuation τ sig (Elt F))
    (h155 : W (Proc.devRef .tc main_v155) = val_main_v155 (F := F) x0 x2 x3 x4 x5 x6 x7 x8 x19)
    (a20 : W (Proc.devRef .tc main_arg20) = x20) :
    after opsH W (Proc.devRef .tc main_v167) = val_main_v167 (F := F) x0 x2 x3 x4 x5 x6 x7 x8 x19 x20 := by
  after_results_simp
  rw [h155, a20]
  rfl

private theorem H_v172 (W : Valuation τ sig (Elt F))
    (a1 : W (Proc.devRef .tc main_arg1) = x1) (a9 : W (Proc.devRef .tc main_arg9) = x9)
    (a10 : W (Proc.devRef .tc main_arg10) = x10) :
    after opsH W (Proc.devRef .tc main_v172) = val_main_v172 (F := F) x1 x9 x10 := by
  after_results_simp
  rw [a1, a9, a10]
  rfl

private theorem I_v201 (W : Valuation τ sig (Elt F))
    (h167 : W (Proc.devRef .tc main_v167) = val_main_v167 (F := F) x0 x2 x3 x4 x5 x6 x7 x8 x19 x20)
    (h172 : W (Proc.devRef .tc main_v172) = val_main_v172 (F := F) x1 x9 x10)
    (a11 : W (Proc.devRef .tc main_arg11) = x11) (a12 : W (Proc.devRef .tc main_arg12) = x12)
    (a13 : W (Proc.devRef .tc main_arg13) = x13) (a14 : W (Proc.devRef .tc main_arg14) = x14) :
    after opsI W (Proc.devRef .tc main_v201)
      = val_main_v201 (F := F) x0 x1 x2 x3 x4 x5 x6 x7 x8 x9 x10 x11 x12 x13 x14 x19 x20 := by
  after_results_simp
  rw [h167, h172, a11, a12, a13, a14]
  rfl

private theorem J_v206 (W : Valuation τ sig (Elt F))
    (h201 : W (Proc.devRef .tc main_v201)
      = val_main_v201 (F := F) x0 x1 x2 x3 x4 x5 x6 x7 x8 x9 x10 x11 x12 x13 x14 x19 x20)
    (a15 : W (Proc.devRef .tc main_arg15) = x15) (a16 : W (Proc.devRef .tc main_arg16) = x16) :
    after opsJ W (Proc.devRef .tc main_v206)
      = val_main_v206 (F := F) x0 x1 x2 x3 x4 x5 x6 x7 x8 x9 x10 x11 x12 x13 x14 x15 x16 x19 x20 := by
  after_results_simp
  rw [h201, a15, a16]
  rfl

private theorem J_v210 (W : Valuation τ sig (Elt F))
    (h201 : W (Proc.devRef .tc main_v201)
      = val_main_v201 (F := F) x0 x1 x2 x3 x4 x5 x6 x7 x8 x9 x10 x11 x12 x13 x14 x19 x20)
    (a17 : W (Proc.devRef .tc main_arg17) = x17) (a18 : W (Proc.devRef .tc main_arg18) = x18) :
    after opsJ W (Proc.devRef .tc main_v210)
      = val_main_v210 (F := F) x0 x1 x2 x3 x4 x5 x6 x7 x8 x9 x10 x11 x12 x13 x14 x17 x18 x19 x20 := by
  after_results_simp
  rw [h201, a17, a18]
  rfl

private abbrev cutA (V : Valuation τ sig (Elt F)) : Valuation τ sig (Elt F) := after opsA V
private abbrev cutB (V : Valuation τ sig (Elt F)) : Valuation τ sig (Elt F) := after opsB (cutA V)
private abbrev cutC (V : Valuation τ sig (Elt F)) : Valuation τ sig (Elt F) := after opsC (cutB V)
private abbrev cutD (V : Valuation τ sig (Elt F)) : Valuation τ sig (Elt F) := after opsD (cutC V)
private abbrev cutE (V : Valuation τ sig (Elt F)) : Valuation τ sig (Elt F) := after opsE (cutD V)
private abbrev cutF (V : Valuation τ sig (Elt F)) : Valuation τ sig (Elt F) := after opsF (cutE V)
private abbrev cutG (V : Valuation τ sig (Elt F)) : Valuation τ sig (Elt F) := after opsG (cutF V)
private abbrev cutH (V : Valuation τ sig (Elt F)) : Valuation τ sig (Elt F) := after opsH (cutG V)
private abbrev cutI (V : Valuation τ sig (Elt F)) : Valuation τ sig (Elt F) := after opsI (cutH V)
private abbrev cutJ (V : Valuation τ sig (Elt F)) : Valuation τ sig (Elt F) := after opsJ (cutI V)

private theorem after_ops (V : Valuation τ sig (Elt F)) : after ops V = cutJ V := by
  simp only [ops, after_append]

section Cuts

variable (V : Valuation τ sig (Elt F))

private theorem cutA_arg {r : Ref sig .tc} (hr : r ∈ argRefs) : cutA V (Proc.devRef .tc r) = V (Proc.devRef .tc r) :=
  keepA V hr

private theorem cutB_arg {r : Ref sig .tc} (hr : r ∈ argRefs) : cutB V (Proc.devRef .tc r) = V (Proc.devRef .tc r) :=
  (keepB (cutA V) (List.mem_append_right _ hr)).trans (cutA_arg V hr)

private theorem cutB_v1 : cutB V (Proc.devRef .tc main_v1) = val_main_v1 (F := F) (V (Proc.devRef .tc main_arg19)) :=
  (keepB (cutA V) (r := main_v1) (by decide)).trans (A_v1 V)

private theorem cutB_v3 : cutB V (Proc.devRef .tc main_v3) = val_main_v3 (F := F) (V (Proc.devRef .tc main_arg19)) :=
  (keepB (cutA V) (r := main_v3) (by decide)).trans (A_v3 V)

private theorem cutB_v8 : cutB V (Proc.devRef .tc main_v8)
    = val_main_v8 (F := F) (V (Proc.devRef .tc main_arg0)) (V (Proc.devRef .tc main_arg2)) (V (Proc.devRef .tc main_arg3)) :=
  (keepB (cutA V) (r := main_v8) (by decide)).trans (A_v8 V)

private theorem cutB_v25 : cutB V (Proc.devRef .tc main_v25)
    = val_main_v25 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg19)) :=
  B_v25 (cutA V) (A_v1 V) (A_v3 V) (A_v8 V) (cutA_arg V (r := main_arg4) (by decide))
    (cutA_arg V (r := main_arg5) (by decide)) (cutA_arg V (r := main_arg6) (by decide))

private theorem cutB_v29 : cutB V (Proc.devRef .tc main_v29)
    = val_main_v29 (F := F) (V (Proc.devRef .tc main_arg0)) (V (Proc.devRef .tc main_arg2)) (V (Proc.devRef .tc main_arg3))
        (V (Proc.devRef .tc main_arg7)) (V (Proc.devRef .tc main_arg8)) :=
  B_v29 (cutA V) (A_v8 V) (cutA_arg V (r := main_arg7) (by decide)) (cutA_arg V (r := main_arg8) (by decide))

private theorem cutC_arg {r : Ref sig .tc} (hr : r ∈ argRefs) : cutC V (Proc.devRef .tc r) = V (Proc.devRef .tc r) :=
  (keepC (cutB V) (List.mem_append_right _ hr)).trans (cutB_arg V hr)

private theorem cutC_v1 : cutC V (Proc.devRef .tc main_v1) = val_main_v1 (F := F) (V (Proc.devRef .tc main_arg19)) :=
  (keepC (cutB V) (r := main_v1) (by decide)).trans (cutB_v1 V)

private theorem cutC_v3 : cutC V (Proc.devRef .tc main_v3) = val_main_v3 (F := F) (V (Proc.devRef .tc main_arg19)) :=
  (keepC (cutB V) (r := main_v3) (by decide)).trans (cutB_v3 V)

private theorem cutC_v57 : cutC V (Proc.devRef .tc main_v57)
    = val_main_v57 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  C_v57 (cutB V) (cutB_v8 V) (cutB_v25 V) (cutB_v29 V)

private theorem cutD_arg {r : Ref sig .tc} (hr : r ∈ argRefs) : cutD V (Proc.devRef .tc r) = V (Proc.devRef .tc r) :=
  (keepD (cutC V) (List.mem_append_right _ hr)).trans (cutC_arg V hr)

private theorem cutD_v1 : cutD V (Proc.devRef .tc main_v1) = val_main_v1 (F := F) (V (Proc.devRef .tc main_arg19)) :=
  (keepD (cutC V) (r := main_v1) (by decide)).trans (cutC_v1 V)

private theorem cutD_v3 : cutD V (Proc.devRef .tc main_v3) = val_main_v3 (F := F) (V (Proc.devRef .tc main_arg19)) :=
  (keepD (cutC V) (r := main_v3) (by decide)).trans (cutC_v3 V)

private theorem cutD_v57 : cutD V (Proc.devRef .tc main_v57)
    = val_main_v57 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  (keepD (cutC V) (r := main_v57) (by decide)).trans (cutC_v57 V)

private theorem cutD_v74 : cutD V (Proc.devRef .tc main_v74)
    = val_main_v74 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  D_v74 (cutC V) (cutC_v1 V) (cutC_v3 V) (cutC_v57 V) (cutC_arg V (r := main_arg4) (by decide))
    (cutC_arg V (r := main_arg5) (by decide)) (cutC_arg V (r := main_arg6) (by decide))

private theorem cutD_v78 : cutD V (Proc.devRef .tc main_v78)
    = val_main_v78 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  D_v78 (cutC V) (cutC_v57 V) (cutC_arg V (r := main_arg7) (by decide)) (cutC_arg V (r := main_arg8) (by decide))

private theorem cutE_arg {r : Ref sig .tc} (hr : r ∈ argRefs) : cutE V (Proc.devRef .tc r) = V (Proc.devRef .tc r) :=
  (keepE (cutD V) (List.mem_append_right _ hr)).trans (cutD_arg V hr)

private theorem cutE_v1 : cutE V (Proc.devRef .tc main_v1) = val_main_v1 (F := F) (V (Proc.devRef .tc main_arg19)) :=
  (keepE (cutD V) (r := main_v1) (by decide)).trans (cutD_v1 V)

private theorem cutE_v3 : cutE V (Proc.devRef .tc main_v3) = val_main_v3 (F := F) (V (Proc.devRef .tc main_arg19)) :=
  (keepE (cutD V) (r := main_v3) (by decide)).trans (cutD_v3 V)

private theorem cutE_v106 : cutE V (Proc.devRef .tc main_v106)
    = val_main_v106 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  E_v106 (cutD V) (cutD_v57 V) (cutD_v74 V) (cutD_v78 V)

private theorem cutF_arg {r : Ref sig .tc} (hr : r ∈ argRefs) : cutF V (Proc.devRef .tc r) = V (Proc.devRef .tc r) :=
  (keepF (cutE V) (List.mem_append_right _ hr)).trans (cutE_arg V hr)

private theorem cutF_v106 : cutF V (Proc.devRef .tc main_v106)
    = val_main_v106 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  (keepF (cutE V) (r := main_v106) (by decide)).trans (cutE_v106 V)

private theorem cutF_v123 : cutF V (Proc.devRef .tc main_v123)
    = val_main_v123 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  F_v123 (cutE V) (cutE_v1 V) (cutE_v3 V) (cutE_v106 V) (cutE_arg V (r := main_arg4) (by decide))
    (cutE_arg V (r := main_arg5) (by decide)) (cutE_arg V (r := main_arg6) (by decide))

private theorem cutF_v127 : cutF V (Proc.devRef .tc main_v127)
    = val_main_v127 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  F_v127 (cutE V) (cutE_v106 V) (cutE_arg V (r := main_arg7) (by decide)) (cutE_arg V (r := main_arg8) (by decide))

private theorem cutG_arg {r : Ref sig .tc} (hr : r ∈ argRefs) : cutG V (Proc.devRef .tc r) = V (Proc.devRef .tc r) :=
  (keepG (cutF V) hr).trans (cutF_arg V hr)

private theorem cutG_v155 : cutG V (Proc.devRef .tc main_v155)
    = val_main_v155 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19)) :=
  G_v155 (cutF V) (cutF_v106 V) (cutF_v123 V) (cutF_v127 V)

private theorem cutH_arg {r : Ref sig .tc} (hr : r ∈ argRefs) : cutH V (Proc.devRef .tc r) = V (Proc.devRef .tc r) :=
  (keepH (cutG V) hr).trans (cutG_arg V hr)

private theorem cutH_v167 : cutH V (Proc.devRef .tc main_v167)
    = val_main_v167 (F := F) (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg19))
        (V (Proc.devRef .tc main_arg20)) :=
  H_v167 (cutG V) (cutG_v155 V) (cutG_arg V (r := main_arg20) (by decide))

private theorem cutH_v172 : cutH V (Proc.devRef .tc main_v172)
    = val_main_v172 (F := F) (V (Proc.devRef .tc main_arg1)) (V (Proc.devRef .tc main_arg9)) (V (Proc.devRef .tc main_arg10)) :=
  H_v172 (cutG V) (cutG_arg V (r := main_arg1) (by decide)) (cutG_arg V (r := main_arg9) (by decide))
    (cutG_arg V (r := main_arg10) (by decide))

private theorem cutI_arg {r : Ref sig .tc} (hr : r ∈ argRefs) : cutI V (Proc.devRef .tc r) = V (Proc.devRef .tc r) :=
  (keepI (cutH V) hr).trans (cutH_arg V hr)

private theorem cutI_v201 : cutI V (Proc.devRef .tc main_v201)
    = val_main_v201 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) (V (Proc.devRef .tc main_arg11))
        (V (Proc.devRef .tc main_arg12)) (V (Proc.devRef .tc main_arg13)) (V (Proc.devRef .tc main_arg14))
        (V (Proc.devRef .tc main_arg19)) (V (Proc.devRef .tc main_arg20)) :=
  I_v201 (cutH V) (cutH_v167 V) (cutH_v172 V) (cutH_arg V (r := main_arg11) (by decide))
    (cutH_arg V (r := main_arg12) (by decide)) (cutH_arg V (r := main_arg13) (by decide))
    (cutH_arg V (r := main_arg14) (by decide))

end Cuts

theorem after_v206 (V : Valuation τ sig (Elt F)) :
    after ops V (Proc.devRef .tc main_v206) = val_main_v206 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg19)) (V (Proc.devRef .tc main_arg20)) := by
  rw [after_ops]
  exact J_v206 (cutI V) (cutI_v201 V) (cutI_arg V (r := main_arg15) (by decide)) (cutI_arg V (r := main_arg16) (by decide))

theorem after_v210 (V : Valuation τ sig (Elt F)) :
    after ops V (Proc.devRef .tc main_v210) = val_main_v210 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg17)) (V (Proc.devRef .tc main_arg18)) (V (Proc.devRef .tc main_arg19)) (V (Proc.devRef .tc main_arg20)) := by
  rw [after_ops]
  exact J_v210 (cutI V) (cutI_v201 V) (cutI_arg V (r := main_arg17) (by decide)) (cutI_arg V (r := main_arg18) (by decide))

end Cert.ReferenceIdeal.RunH

end
-- ==== Proof.RRun.lean ====
import proofs.«423503_j25220047962222_1_alg».proof.Proof.RRunMain
import proofs.«423503_j25220047962222_1_alg».proof.Proof.RRunVal

/-! The reference's run: every weakly fair execution of @main terminates with the two results at their stage functions of the arguments, the arguments unchanged. -/

noncomputable section

namespace Cert.ReferenceIdeal.RunH

open Cert.ReferenceIdeal Cert.ReferenceIdeal.Gen Cert.ReferenceIdeal.ReadP Idealize.ShloMosaic Idealize.ShloMosaic.TcCoe
open Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206) = val_main_v206 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg19)) (m ((c.tc : Thread nD τ).loc main_arg20))
      ∧ r.2.mem ((c.tc : Thread nD τ).loc main_v210) = val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨(h c main_v206).trans (after_v206 _), (h c main_v210).trans (after_v210 _),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _)⟩)
    (run_fold m ρ)

end Cert.ReferenceIdeal.RunH

end
-- ==== Proof.lean ====
import proofs.«423503_j25220047962222_1_alg».proof.Defs
import proofs.«423503_j25220047962222_1_alg».proof.Proof.Gen.Kernel
import proofs.«423503_j25220047962222_1_alg».proof.Proof.Gen.Kernel.Skeleton
import proofs.«423503_j25220047962222_1_alg».proof.Proof.Gen.Kernel.Launch
import proofs.«423503_j25220047962222_1_alg».proof.Proof.Gen.Kernel.Points
import proofs.«423503_j25220047962222_1_alg».proof.Proof.Gen.Kernel.Frame
import proofs.«423503_j25220047962222_1_alg».proof.Proof.Gen.KernelIdeal
import proofs.«423503_j25220047962222_1_alg».proof.Proof.Gen.KernelIdeal.Skeleton
import proofs.«423503_j25220047962222_1_alg».proof.Proof.Gen.KernelIdeal.Launch
import proofs.«423503_j25220047962222_1_alg».proof.Proof.Gen.KernelIdeal.Points
import proofs.«423503_j25220047962222_1_alg».proof.Proof.Gen.KernelIdeal.Frame
import proofs.«423503_j25220047962222_1_alg».proof.Proof.Gen.ReferenceIdeal
import proofs.«423503_j25220047962222_1_alg».proof.Proof.Gen.Pre_finite_inputs
import proofs.«423503_j25220047962222_1_alg».proof.Proof.Spec
import proofs.«423503_j25220047962222_1_alg».proof.Proof.KRun
import proofs.«423503_j25220047962222_1_alg».proof.Proof.KWalk
import proofs.«423503_j25220047962222_1_alg».proof.Proof.KLin0
import proofs.«423503_j25220047962222_1_alg».proof.Proof.KLin1
import proofs.«423503_j25220047962222_1_alg».proof.Proof.KLin3
import proofs.«423503_j25220047962222_1_alg».proof.Proof.KLin5
import proofs.«423503_j25220047962222_1_alg».proof.Proof.KGru2
import proofs.«423503_j25220047962222_1_alg».proof.Proof.KGru4
import proofs.«423503_j25220047962222_1_alg».proof.Proof.KGru6
import proofs.«423503_j25220047962222_1_alg».proof.Proof.KPool
import proofs.«423503_j25220047962222_1_alg».proof.Proof.KFusion
import proofs.«423503_j25220047962222_1_alg».proof.Proof.AggEq
import proofs.«423503_j25220047962222_1_alg».proof.Proof.RNet
import proofs.«423503_j25220047962222_1_alg».proof.Proof.RRun
import Idealize.ShloMosaic.Adequacy
import Idealize.ShloMosaic.Init

set_option maxRecDepth 16384

/-! The kernel program (nine pallas_calls among host stretches) and its reference compute one network, that of Proof/Spec.lean, over the extended reals; the kernel's masked gather is the reference's clamped gather because every edge source lies in [−100000, 100000). -/

noncomputable section

namespace Cert.Proof

open Idealize.ShloMosaic Idealize.ShloMosaic.TcCoe Idealize.SL.Sem

theorem regionFacts : Cert.KVal.RegionFacts :=
  ⟨Cert.KVal.region0, Cert.KVal.region1, Cert.KVal.region2, Cert.KVal.region3, Cert.KVal.region4, Cert.KVal.region5,
    Cert.KVal.region6, Cert.KVal.region7_sums, Cert.KVal.region7_cnt, Cert.KVal.region8_task, Cert.KVal.region8_time⟩

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RunH.run (F := Ideal) m ρ)

theorem preserves : Cert.preserves_Kernel_KernelIdeal := IdealRules.truncf_extf.statement _ .f32 .bf16

theorem agg_fun (e : IVec (⟨2, ![2, 1600000]⟩ : Shape) 32) :
    (fun msg : Cert.Spec.Mat 100000 128 => (Cert.RVal.agg (F := Ideal) e msg : Cert.Spec.Mat 100000 128))
      = fun msg => Cert.KVal.agg (F := Ideal) e msg :=
  funext fun msg => (Cert.AggEq.agg_eq (F := Ideal) e msg).symm

theorem algebraic : Cert.algebraic_KernelIdeal_ReferenceIdeal := by
  intro m ρ m' ρ' hpre hagree
  have hp : ∀ c, Cert.KVal.SrcInRange (Cert.KVal.edges m c) := fun c => Cert.KVal.srcInRange_of_pre m hpre c
  refine ⟨fun c => Cert.Spec.task (Cert.KVal.agg (F := Ideal) (Cert.KVal.edges m c)) (Cert.KVal.ins m c),
    fun c => Cert.Spec.time (Cert.KVal.agg (F := Ideal) (Cert.KVal.edges m c)) (Cert.KVal.ins m c), ?_, ?_⟩
  · refine (θ_run Cert.KernelIdeal.defs _ _).mono (fun r h c => ?_) (Cert.KernelIdeal.KRun.run (F := Ideal) m ρ)
    obtain ⟨h0, h1, hk⟩ := h c
    exact ⟨h0.trans (Cert.KVal.result_task m ρ c regionFacts (hp c)), h1.trans (Cert.KVal.result_time m ρ c regionFacts (hp c)), hk⟩
  · refine (θ_run Cert.ReferenceIdeal.defs _ _).mono (fun r h c => ?_) (Cert.ReferenceIdeal.RunH.run (F := Ideal) m' ρ')
    obtain ⟨h0, h1, hk⟩ := h c
    obtain ⟨a0, a1, a2, a3, a4, a5, a6, a7, a8, a9, a10, a11, a12, a13, a14, a15, a16, a17, a18, a19, a20⟩ := hagree c
    refine ⟨h0.trans ?_, h1.trans ?_, hk⟩
    · rw [a0, a1, a2, a3, a4, a5, a6, a7, a8, a9, a10, a11, a12, a13, a14, a15, a16, a19, a20, Cert.RVal.task_eq]
      exact congrArg (fun f => Cert.Spec.task f (Cert.KVal.ins m c)) (agg_fun (Cert.KVal.edges m c))
    · rw [a0, a1, a2, a3, a4, a5, a6, a7, a8, a9, a10, a11, a12, a13, a14, a17, a18, a19, a20, Cert.RVal.time_eq]
      exact congrArg (fun f => Cert.Spec.time f (Cert.KVal.ins m c)) (agg_fun (Cert.KVal.edges m c))

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
